-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S2048x1024 : Shape := ⟨2, ![2048, 1024]⟩
abbrev S8x256x1024 : Shape := ⟨3, ![8, 256, 1024]⟩
abbrev S12 : Shape := ⟨1, ![12]⟩
abbrev S_ : Shape := ⟨0, ![]⟩
abbrev S256x1024 : Shape := ⟨2, ![256, 1024]⟩
abbrev S1 : Shape := ⟨1, ![1]⟩
abbrev S1x256x1024 : Shape := ⟨3, ![1, 256, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .local _ .vmem, ⟨0, _⟩ => ⟨S2048x1024, .f32⟩
  | .local _ .vmem, ⟨1, _⟩ => ⟨S2048x1024, .bf16⟩
  | .local _ .vmem, ⟨2, _⟩ => ⟨S8x256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_11 : BitVec 32 := 2#32
  let v17 : BitVec 32 := Scalar.muli v2 c2_i32_11
  let v18 : BitVec 32 := Scalar.addi c0_i32 v17
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_12 : BitVec 32 := 1#32
  let v19 : BitVec 32 := Scalar.muli v6 c1_i32_12
  let v20 : BitVec 32 := Scalar.addi v18 v19
  v20.toNat
def k0_dev2 (d0 : Dev nD) : Nat :=
  let c0_i32_15 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_14 : BitVec 32 := 2#32
  let v21 : BitVec 32 := Scalar.muli v7 c2_i32_14
  let v22 : BitVec 32 := Scalar.addi c0_i32_15 v21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_16 : BitVec 32 := 1#32
  let v23 : BitVec 32 := Scalar.muli v5 c1_i32_16
  let v24 : BitVec 32 := Scalar.addi v22 v23
  v24.toNat
def k0_off1 (d0 : Dev nD) (c0_i32_18 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c512_i32_5 : BitVec 32 := 512#32
  let v10 : BitVec 32 := Scalar.muli v9 c512_i32_5
  let v25 : BitVec 32 := Scalar.addi v10 c0_i32_18
  let v26 : Index := Scalar.indexCast v25
  let c0 : Index := 0#32
  ![v26.toNat, 0]
def k0_off2 (d0 : Dev nD) (c0_i32_20 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c512_i32_5 : BitVec 32 := 512#32
  let v10 : BitVec 32 := Scalar.muli v9 c512_i32_5
  let v32 : BitVec 32 := Scalar.addi v10 c0_i32_20
  let c0_i32_29 : BitVec 32 := 0#32
  ![v32.toNat, 0]
def k0_dev3 (d0 : Dev nD) : Nat :=
  let c0_i32_25 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_24 : BitVec 32 := 2#32
  let v33 : BitVec 32 := Scalar.muli v7 c2_i32_24
  let v34 : BitVec 32 := Scalar.addi c0_i32_25 v33
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_26 : BitVec 32 := 1#32
  let v35 : BitVec 32 := Scalar.muli v5 c1_i32_26
  let v36 : BitVec 32 := Scalar.addi v34 v35
  v36.toNat
def k0_off3 (d0 : Dev nD) (c0_i32_30 : BitVec 32) : Fin 2 → Nat :=
  let c1024_i32_9 : BitVec 32 := 1024#32
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c512_i32_8 : BitVec 32 := 512#32
  let v14 : BitVec 32 := Scalar.muli v13 c512_i32_8
  let v15 : BitVec 32 := Scalar.addi c1024_i32_9 v14
  let v44 : BitVec 32 := Scalar.addi v15 c0_i32_30
  let v45 : Index := Scalar.indexCast v44
  let c0_31 : Index := 0#32
  ![v45.toNat, 0]
def k0_off4 (d0 : Dev nD) (c0_i32_33 : BitVec 32) : Fin 2 → Nat :=
  let c1024_i32_9 : BitVec 32 := 1024#32
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c512_i32_8 : BitVec 32 := 512#32
  let v14 : BitVec 32 := Scalar.muli v13 c512_i32_8
  let v15 : BitVec 32 := Scalar.addi c1024_i32_9 v14
  let v51 : BitVec 32 := Scalar.addi v15 c0_i32_33
  let c0_i32_42 : BitVec 32 := 0#32
  ![v51.toNat, 0]
def k0_dev4 (d0 : Dev nD) : Nat :=
  let c0_i32_38 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_37 : BitVec 32 := 2#32
  let v52 : BitVec 32 := Scalar.muli v2 c2_i32_37
  let v53 : BitVec 32 := Scalar.addi c0_i32_38 v52
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_39 : BitVec 32 := 1#32
  let v54 : BitVec 32 := Scalar.muli v6 c1_i32_39
  let v55 : BitVec 32 := Scalar.addi v53 v54
  v55.toNat
def k0_dev5 (d0 : Dev nD) : Nat :=
  let c0_i32_50 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_49 : BitVec 32 := 2#32
  let v71 : BitVec 32 := Scalar.muli v7 c2_i32_49
  let v72 : BitVec 32 := Scalar.addi c0_i32_50 v71
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_51 : BitVec 32 := 1#32
  let v73 : BitVec 32 := Scalar.muli v5 c1_i32_51
  let v74 : BitVec 32 := Scalar.addi v72 v73
  v74.toNat
def k0_dev6 (d0 : Dev nD) : Nat :=
  let c0_i32_62 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_61 : BitVec 32 := 2#32
  let v90 : BitVec 32 := Scalar.muli v2 c2_i32_61
  let v91 : BitVec 32 := Scalar.addi c0_i32_62 v90
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_63 : BitVec 32 := 1#32
  let v92 : BitVec 32 := Scalar.muli v6 c1_i32_63
  let v93 : BitVec 32 := Scalar.addi v91 v92
  v93.toNat
def k0_off5 (d0 : Dev nD) (c0_i32_67 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v101 : BitVec 32 := Scalar.addi v8 c0_i32_67
  let v102 : Index := Scalar.indexCast v101
  let c0_68 : Index := 0#32
  ![v102.toNat, 0]
def k0_off6 (d0 : Dev nD) (c0_i32_70 : BitVec 32) : Fin 2 → Nat :=
  let c1024_i32 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_6 : BitVec 32 := 512#32
  let v11 : BitVec 32 := Scalar.muli v5 c512_i32_6
  let v12 : BitVec 32 := Scalar.addi c1024_i32 v11
  let v108 : BitVec 32 := Scalar.addi v12 c0_i32_70
  let v109 : Index := Scalar.indexCast v108
  let c0_71 : Index := 0#32
  ![v109.toNat, 0]
def k0_off7 (d0 : Dev nD) (c0_i32_101 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v152 : BitVec 32 := Scalar.addi v8 c0_i32_101
  let c0_i32_109 : BitVec 32 := 0#32
  ![v152.toNat, 0]
def k0_dev7 (d0 : Dev nD) : Nat :=
  let c0_i32_105 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_104 : BitVec 32 := 2#32
  let v153 : BitVec 32 := Scalar.muli v2 c2_i32_104
  let v154 : BitVec 32 := Scalar.addi c0_i32_105 v153
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_106 : BitVec 32 := 1#32
  let v155 : BitVec 32 := Scalar.muli v6 c1_i32_106
  let v156 : BitVec 32 := Scalar.addi v154 v155
  v156.toNat
def k0_off8 (d0 : Dev nD) (c0_i32_131 : BitVec 32) : Fin 2 → Nat :=
  let c1024_i32 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_6 : BitVec 32 := 512#32
  let v11 : BitVec 32 := Scalar.muli v5 c512_i32_6
  let v12 : BitVec 32 := Scalar.addi c1024_i32 v11
  let v187 : BitVec 32 := Scalar.addi v12 c0_i32_131
  let c0_i32_139 : BitVec 32 := 0#32
  ![v187.toNat, 0]
def k0_dev8 (d0 : Dev nD) : Nat :=
  let c0_i32_135 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_134 : BitVec 32 := 2#32
  let v188 : BitVec 32 := Scalar.muli v7 c2_i32_134
  let v189 : BitVec 32 := Scalar.addi c0_i32_135 v188
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_136 : BitVec 32 := 1#32
  let v190 : BitVec 32 := Scalar.muli v5 c1_i32_136
  let v191 : BitVec 32 := Scalar.addi v189 v190
  v191.toNat
def k0_dev9 (d0 : Dev nD) : Nat :=
  let c0_i32_165 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_164 : BitVec 32 := 2#32
  let v223 : BitVec 32 := Scalar.muli v2 c2_i32_164
  let v224 : BitVec 32 := Scalar.addi c0_i32_165 v223
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_166 : BitVec 32 := 1#32
  let v225 : BitVec 32 := Scalar.muli v6 c1_i32_166
  let v226 : BitVec 32 := Scalar.addi v224 v225
  v226.toNat
def k0_dev10 (d0 : Dev nD) : Nat :=
  let c0_i32_195 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_194 : BitVec 32 := 2#32
  let v258 : BitVec 32 := Scalar.muli v7 c2_i32_194
  let v259 : BitVec 32 := Scalar.addi c0_i32_195 v258
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_196 : BitVec 32 := 1#32
  let v260 : BitVec 32 := Scalar.muli v5 c1_i32_196
  let v261 : BitVec 32 := Scalar.addi v259 v260
  v261.toNat
def k0_dev11 (d0 : Dev nD) : Nat :=
  let c0_i32_224 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_223 : BitVec 32 := 2#32
  let v293 : BitVec 32 := Scalar.muli v7 c2_i32_223
  let v294 : BitVec 32 := Scalar.addi c0_i32_224 v293
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_225 : BitVec 32 := 1#32
  let v295 : BitVec 32 := Scalar.muli v5 c1_i32_225
  let v296 : BitVec 32 := Scalar.addi v294 v295
  v296.toNat
def k0_dev12 (d0 : Dev nD) : Nat :=
  let c0_i32_252 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_251 : BitVec 32 := 2#32
  let v327 : BitVec 32 := Scalar.muli v2 c2_i32_251
  let v328 : BitVec 32 := Scalar.addi c0_i32_252 v327
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_253 : BitVec 32 := 1#32
  let v329 : BitVec 32 := Scalar.muli v6 c1_i32_253
  let v330 : BitVec 32 := Scalar.addi v328 v329
  v330.toNat
def k0_dev13 (d0 : Dev nD) : Nat :=
  let c0_i32_280 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_279 : BitVec 32 := 2#32
  let v361 : BitVec 32 := Scalar.muli v7 c2_i32_279
  let v362 : BitVec 32 := Scalar.addi c0_i32_280 v361
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_281 : BitVec 32 := 1#32
  let v363 : BitVec 32 := Scalar.muli v5 c1_i32_281
  let v364 : BitVec 32 := Scalar.addi v362 v363
  v364.toNat
def k0_dev14 (d0 : Dev nD) : Nat :=
  let c0_i32_308 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_307 : BitVec 32 := 2#32
  let v395 : BitVec 32 := Scalar.muli v2 c2_i32_307
  let v396 : BitVec 32 := Scalar.addi c0_i32_308 v395
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_309 : BitVec 32 := 1#32
  let v397 : BitVec 32 := Scalar.muli v6 c1_i32_309
  let v398 : BitVec 32 := Scalar.addi v396 v397
  v398.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  h_S256x1024 : 0 < S256x1024.numel
  shapeCasts_S256x1024_S256x1024 : S256x1024.ShapeCasts S256x1024
  bitsLt_bf16_f32 : FTy.bits .bf16 < FTy.bits .f32
  inb_S12_S1_0 : ∀ a, (![0] : Fin 1 → Nat) a + S1.size a ≤ S12.size a
  squeezes_S1_S_ : S1.Squeezes S_
  inb_S8x256x1024_S1x256x1024_0_0_0 : ∀ a, (![0, 0, 0] : Fin 3 → Nat) a + S1x256x1024.size a ≤ S8x256x1024.size a
  squeezes_S1x256x1024_S256x1024 : S1x256x1024.Squeezes S256x1024
  wordsbf16_S8x256x1024_S1x256x1024_0_0_0 : (Rect.unit (s := S8x256x1024) ![0, 0, 0] S1x256x1024.size inb_S8x256x1024_S1x256x1024_0_0_0).WholeWords (EltTy.packing .bf16)
  inb_S12_S1_2 : ∀ a, (![2] : Fin 1 → Nat) a + S1.size a ≤ S12.size a
  inb_S8x256x1024_S1x256x1024_2_0_0 : ∀ a, (![2, 0, 0] : Fin 3 → Nat) a + S1x256x1024.size a ≤ S8x256x1024.size a
  wordsbf16_S8x256x1024_S1x256x1024_2_0_0 : (Rect.unit (s := S8x256x1024) ![2, 0, 0] S1x256x1024.size inb_S8x256x1024_S1x256x1024_2_0_0).WholeWords (EltTy.packing .bf16)
  inb_S12_S1_1 : ∀ a, (![1] : Fin 1 → Nat) a + S1.size a ≤ S12.size a
  inb_S8x256x1024_S1x256x1024_1_0_0 : ∀ a, (![1, 0, 0] : Fin 3 → Nat) a + S1x256x1024.size a ≤ S8x256x1024.size a
  wordsbf16_S8x256x1024_S1x256x1024_1_0_0 : (Rect.unit (s := S8x256x1024) ![1, 0, 0] S1x256x1024.size inb_S8x256x1024_S1x256x1024_1_0_0).WholeWords (EltTy.packing .bf16)
  inb_S12_S1_3 : ∀ a, (![3] : Fin 1 → Nat) a + S1.size a ≤ S12.size a
  inb_S8x256x1024_S1x256x1024_3_0_0 : ∀ a, (![3, 0, 0] : Fin 3 → Nat) a + S1x256x1024.size a ≤ S8x256x1024.size a
  wordsbf16_S8x256x1024_S1x256x1024_3_0_0 : (Rect.unit (s := S8x256x1024) ![3, 0, 0] S1x256x1024.size inb_S8x256x1024_S1x256x1024_3_0_0).WholeWords (EltTy.packing .bf16)
  h_S1x256x1024 : 0 < S1x256x1024.numel
  shapeCasts_S1x256x1024_S256x1024 : S1x256x1024.ShapeCasts S256x1024
  inb_S12_S1_4 : ∀ a, (![4] : Fin 1 → Nat) a + S1.size a ≤ S12.size a
  inb_S8x256x1024_S1x256x1024_4_0_0 : ∀ a, (![4, 0, 0] : Fin 3 → Nat) a + S1x256x1024.size a ≤ S8x256x1024.size a
  wordsbf16_S8x256x1024_S1x256x1024_4_0_0 : (Rect.unit (s := S8x256x1024) ![4, 0, 0] S1x256x1024.size inb_S8x256x1024_S1x256x1024_4_0_0).WholeWords (EltTy.packing .bf16)
  inb_S12_S1_6 : ∀ a, (![6] : Fin 1 → Nat) a + S1.size a ≤ S12.size a
  inb_S8x256x1024_S1x256x1024_6_0_0 : ∀ a, (![6, 0, 0] : Fin 3 → Nat) a + S1x256x1024.size a ≤ S8x256x1024.size a
  wordsbf16_S8x256x1024_S1x256x1024_6_0_0 : (Rect.unit (s := S8x256x1024) ![6, 0, 0] S1x256x1024.size inb_S8x256x1024_S1x256x1024_6_0_0).WholeWords (EltTy.packing .bf16)
  inb_S12_S1_5 : ∀ a, (![5] : Fin 1 → Nat) a + S1.size a ≤ S12.size a
  inb_S8x256x1024_S1x256x1024_5_0_0 : ∀ a, (![5, 0, 0] : Fin 3 → Nat) a + S1x256x1024.size a ≤ S8x256x1024.size a
  wordsbf16_S8x256x1024_S1x256x1024_5_0_0 : (Rect.unit (s := S8x256x1024) ![5, 0, 0] S1x256x1024.size inb_S8x256x1024_S1x256x1024_5_0_0).WholeWords (EltTy.packing .bf16)
  inb_S12_S1_7 : ∀ a, (![7] : Fin 1 → Nat) a + S1.size a ≤ S12.size a
  inb_S8x256x1024_S1x256x1024_7_0_0 : ∀ a, (![7, 0, 0] : Fin 3 → Nat) a + S1x256x1024.size a ≤ S8x256x1024.size a
  wordsbf16_S8x256x1024_S1x256x1024_7_0_0 : (Rect.unit (s := S8x256x1024) ![7, 0, 0] S1x256x1024.size inb_S8x256x1024_S1x256x1024_7_0_0).WholeWords (EltTy.packing .bf16)
  inb_S12_S1_8 : ∀ a, (![8] : Fin 1 → Nat) a + S1.size a ≤ S12.size a
  inb_S12_S1_10 : ∀ a, (![10] : Fin 1 → Nat) a + S1.size a ≤ S12.size a
  inb_S12_S1_9 : ∀ a, (![9] : Fin 1 → Nat) a + S1.size a ≤ S12.size a
  inb_S12_S1_11 : ∀ a, (![11] : Fin 1 → Nat) a + S1.size a ≤ S12.size a
  hcc0_scratch1 : 2 + S12.numel ≤ 26
  hcc0_scratch2 : 14 + S12.numel ≤ 26
  k0_dev1_lt : ∀ d0 : Dev nD, (k0_dev1 d0) < nD
  k0_dev2_lt : ∀ d0 : Dev nD, (k0_dev2 d0) < nD
  k0_off1_inb : ∀ d0 : Dev nD, ∀ (r : Fin 2), ∀ a, (k0_off1 d0 (BitVec.ofNat 32 (256 * r.val))) a + S256x1024.size a ≤ S2048x1024.size a
  k0_off1_packedbf16 : ∀ d0 : Dev nD, ∀ (r : Fin 2), (Rect.unit (s := S2048x1024) (k0_off1 d0 (BitVec.ofNat 32 (256 * r.val))) S256x1024.size (k0_off1_inb d0 r)).PackedRows (EltTy.packing .bf16)
  k0_off2_inb : ∀ d0 : Dev nD, ∀ (r : Fin 2), ∀ a, (k0_off2 d0 (BitVec.ofNat 32 (256 * r.val))) a + S256x1024.size a ≤ S2048x1024.size a
  k0_off2_wordsbf16 : ∀ d0 : Dev nD, ∀ (r : Fin 2), (Rect.unit (s := S2048x1024) (k0_off2 d0 (BitVec.ofNat 32 (256 * r.val))) S256x1024.size (k0_off2_inb d0 r)).WholeWords (EltTy.packing .bf16)
  k0_dev3_lt : ∀ d0 : Dev nD, (k0_dev3 d0) < nD
  k0_off3_inb : ∀ d0 : Dev nD, ∀ (r : Fin 2), ∀ a, (k0_off3 d0 (BitVec.ofNat 32 (256 * r.val))) a + S256x1024.size a ≤ S2048x1024.size a
  k0_off3_packedbf16 : ∀ d0 : Dev nD, ∀ (r : Fin 2), (Rect.unit (s := S2048x1024) (k0_off3 d0 (BitVec.ofNat 32 (256 * r.val))) S256x1024.size (k0_off3_inb d0 r)).PackedRows (EltTy.packing .bf16)
  k0_off4_inb : ∀ d0 : Dev nD, ∀ (r : Fin 2), ∀ a, (k0_off4 d0 (BitVec.ofNat 32 (256 * r.val))) a + S256x1024.size a ≤ S2048x1024.size a
  k0_off4_wordsbf16 : ∀ d0 : Dev nD, ∀ (r : Fin 2), (Rect.unit (s := S2048x1024) (k0_off4 d0 (BitVec.ofNat 32 (256 * r.val))) S256x1024.size (k0_off4_inb d0 r)).WholeWords (EltTy.packing .bf16)
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off5_inb : ∀ d0 : Dev nD, ∀ (r : Fin 2), ∀ a, (k0_off5 d0 (BitVec.ofNat 32 (256 * r.val))) a + S256x1024.size a ≤ S2048x1024.size a
  k0_off5_packedbf16 : ∀ d0 : Dev nD, ∀ (r : Fin 2), (Rect.unit (s := S2048x1024) (k0_off5 d0 (BitVec.ofNat 32 (256 * r.val))) S256x1024.size (k0_off5_inb d0 r)).PackedRows (EltTy.packing .bf16)
  k0_off6_inb : ∀ d0 : Dev nD, ∀ (r : Fin 2), ∀ a, (k0_off6 d0 (BitVec.ofNat 32 (256 * r.val))) a + S256x1024.size a ≤ S2048x1024.size a
  k0_off6_packedbf16 : ∀ d0 : Dev nD, ∀ (r : Fin 2), (Rect.unit (s := S2048x1024) (k0_off6 d0 (BitVec.ofNat 32 (256 * r.val))) S256x1024.size (k0_off6_inb d0 r)).PackedRows (EltTy.packing .bf16)
  k0_off7_inb : ∀ d0 : Dev nD, ∀ (r : Fin 2), ∀ a, (k0_off7 d0 (BitVec.ofNat 32 (256 * r.val))) a + S256x1024.size a ≤ S2048x1024.size a
  k0_off7_wordsbf16 : ∀ d0 : Dev nD, ∀ (r : Fin 2), (Rect.unit (s := S2048x1024) (k0_off7 d0 (BitVec.ofNat 32 (256 * r.val))) S256x1024.size (k0_off7_inb d0 r)).WholeWords (EltTy.packing .bf16)
  k0_dev7_lt : ∀ d0 : Dev nD, (k0_dev7 d0) < nD
  k0_off8_inb : ∀ d0 : Dev nD, ∀ (r : Fin 2), ∀ a, (k0_off8 d0 (BitVec.ofNat 32 (256 * r.val))) a + S256x1024.size a ≤ S2048x1024.size a
  k0_off8_wordsbf16 : ∀ d0 : Dev nD, ∀ (r : Fin 2), (Rect.unit (s := S2048x1024) (k0_off8 d0 (BitVec.ofNat 32 (256 * r.val))) S256x1024.size (k0_off8_inb d0 r)).WholeWords (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch1 : DmaSems sig S12 := SemArray.consecutive 2 S12 hcc0_scratch1
abbrev cc0_scratch2 : DmaSems sig S12 := SemArray.consecutive 14 S12 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2x2048x2x1024 : Shape := ⟨4, ![2, 2048, 2, 1024]⟩
abbrev S_ : Shape := ⟨0, ![]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x2048x2x1024, .f32⟩
  | .hbm, ⟨2, _⟩ => ⟨S_, .f32⟩
  | .hbm, ⟨3, _⟩ => ⟨S2048x1024, .f32⟩
  | .hbm, ⟨4, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4096x2048_S2x2048x2x1024 : S4096x2048.ShapeCasts S2x2048x2x1024
  reducesTo_S2x2048x2x1024_S2048x1024_d0_2 : S2x2048x2x1024.ReducesTo [0, 2] S2048x1024
  h_S_ : 0 < S_.numel
  bitsLt_bf16_f32 : FTy.bits .bf16 < FTy.bits .f32

variable [Facts₀]

class Facts : Prop extends Facts₀ where

variable [Facts]
-- ==== Proof.Mesh.lean ====
import proofs.«900178_g7700000000000179_dist_full2d_reduce_m2048_n1024_v7x_xy2x2_bf16_1_alg».proof.Proof.Gen.KernelIdeal

noncomputable section

namespace Cert.KernelIdeal.AllReduce

open Idealize.ShloMosaic
open Cert.KernelIdeal Cert.KernelIdeal.Gen

/-- The neighbour along the second mesh axis: c % 2 flipped. -/
def yn (c : Dev nD) : Dev nD := ⟨(2 * (c.val / 2) + 1) - (c.val % 2), (by decide : ∀ c : Dev nD, (2 * (c.val / 2) + 1) - (c.val % 2) < nD) c⟩

/-- The neighbour along the first mesh axis: c / 2 flipped. -/
def xn (c : Dev nD) : Dev nD := ⟨((c.val % 2) + 2) - 2 * (c.val / 2), (by decide : ∀ c : Dev nD, ((c.val % 2) + 2) - 2 * (c.val / 2) < nD) c⟩

theorem xn_xn (c : Dev nD) : xn (xn c) = c := by revert c; decide
theorem yn_yn (c : Dev nD) : yn (yn c) = c := by revert c; decide
theorem xn_yn (c : Dev nD) : xn (yn c) = yn (xn c) := by revert c; decide

def xEquiv : Dev nD ≃ Dev nD := ⟨xn, xn, xn_xn, xn_xn⟩
def yEquiv : Dev nD ≃ Dev nD := ⟨yn, yn, yn_yn, yn_yn⟩

theorem dev1_eq (c : Dev nD) : (⟨k0_dev1 c, k0_dev1_lt c⟩ : Dev nD) = yn c := Fin.ext (k0_dev1_eq c)
theorem dev2_eq (c : Dev nD) : (⟨k0_dev2 c, k0_dev2_lt c⟩ : Dev nD) = xn c := Fin.ext (k0_dev2_eq c)
theorem dev3_eq (c : Dev nD) : (⟨k0_dev3 c, k0_dev3_lt c⟩ : Dev nD) = xn c := Fin.ext (k0_dev3_eq c)
theorem dev4_eq (c : Dev nD) : (⟨k0_dev4 c, k0_dev4_lt c⟩ : Dev nD) = yn c := Fin.ext (k0_dev4_eq c)
theorem dev5_eq (c : Dev nD) : (⟨k0_dev5 c, k0_dev5_lt c⟩ : Dev nD) = xn c := Fin.ext (k0_dev5_eq c)
theorem dev6_eq (c : Dev nD) : (⟨k0_dev6 c, k0_dev6_lt c⟩ : Dev nD) = yn c := Fin.ext (k0_dev6_eq c)
theorem dev7_eq (c : Dev nD) : (⟨k0_dev7 c, k0_dev7_lt c⟩ : Dev nD) = yn c := Fin.ext (k0_dev7_eq c)
theorem dev8_eq (c : Dev nD) : (⟨k0_dev8 c, k0_dev8_lt c⟩ : Dev nD) = xn c := Fin.ext (k0_dev8_eq c)
theorem dev9_eq (c : Dev nD) : (⟨k0_dev9 c, k0_dev9_lt c⟩ : Dev nD) = yn c := Fin.ext (k0_dev9_eq c)
theorem dev10_eq (c : Dev nD) : (⟨k0_dev10 c, k0_dev10_lt c⟩ : Dev nD) = xn c := Fin.ext (k0_dev10_eq c)
theorem dev11_eq (c : Dev nD) : (⟨k0_dev11 c, k0_dev11_lt c⟩ : Dev nD) = xn c := Fin.ext (k0_dev11_eq c)
theorem dev12_eq (c : Dev nD) : (⟨k0_dev12 c, k0_dev12_lt c⟩ : Dev nD) = yn c := Fin.ext (k0_dev12_eq c)
theorem dev13_eq (c : Dev nD) : (⟨k0_dev13 c, k0_dev13_lt c⟩ : Dev nD) = xn c := Fin.ext (k0_dev13_eq c)
theorem dev14_eq (c : Dev nD) : (⟨k0_dev14 c, k0_dev14_lt c⟩ : Dev nD) = yn c := Fin.ext (k0_dev14_eq c)

/-- Of chunks 0 – 3, reduced first along the first axis, the two a device gives away to its neighbour on that axis. -/
def aS (c : Dev nD) (r : Fin 2) : Fin 8 := ⟨2 * (1 - c.val / 2) + r.val, (by decide : ∀ (c : Dev nD) (r : Fin 2), 2 * (1 - c.val / 2) + r.val < 8) c r⟩
/-- Of chunks 0 – 3 the two a device keeps: exactly those its first-axis neighbour gives away. -/
def aK (c : Dev nD) (r : Fin 2) : Fin 8 := ⟨2 * (c.val / 2) + r.val, (by decide : ∀ (c : Dev nD) (r : Fin 2), 2 * (c.val / 2) + r.val < 8) c r⟩
/-- Of chunks 4 – 7, reduced first along the second axis, the two a device gives away to its neighbour on that axis. -/
def bS (c : Dev nD) (r : Fin 2) : Fin 8 := ⟨4 + 2 * (1 - c.val % 2) + r.val, (by decide : ∀ (c : Dev nD) (r : Fin 2), 4 + 2 * (1 - c.val % 2) + r.val < 8) c r⟩
/-- Of chunks 4 – 7 the two a device keeps: exactly those its second-axis neighbour gives away. -/
def bK (c : Dev nD) (r : Fin 2) : Fin 8 := ⟨4 + 2 * (c.val % 2) + r.val, (by decide : ∀ (c : Dev nD) (r : Fin 2), 4 + 2 * (c.val % 2) + r.val < 8) c r⟩

theorem aS_xn (c : Dev nD) (r : Fin 2) : aS (xn c) r = aK c r := by revert c r; decide
theorem aK_xn (c : Dev nD) (r : Fin 2) : aK (xn c) r = aS c r := by revert c r; decide
theorem aK_yn (c : Dev nD) (r : Fin 2) : aK (yn c) r = aK c r := by revert c r; decide
theorem bS_yn (c : Dev nD) (r : Fin 2) : bS (yn c) r = bK c r := by revert c r; decide
theorem bK_yn (c : Dev nD) (r : Fin 2) : bK (yn c) r = bS c r := by revert c r; decide
theorem bK_xn (c : Dev nD) (r : Fin 2) : bK (xn c) r = bK c r := by revert c r; decide

theorem chunk_cases (c : Dev nD) (j : Fin 8) :
    (∃ r, j = aK c r) ∨ (∃ r, j = aS c r) ∨ (∃ r, j = bK c r) ∨ (∃ r, j = bS c r) := by revert c j; decide

/-- Chunk j is rows [256 j, 256 j + 256) of a 2048 × 1024 buffer. -/
def chunkOff (j : Fin 8) : Fin 2 → Nat := ![256 * j.val, 0]

theorem chunkOff_inb (j : Fin 8) : ∀ a, chunkOff j a + S256x1024.size a ≤ S2048x1024.size a := by revert j; decide

theorem off1_eq (c : Dev nD) (r : Fin 2) : k0_off1 c (BitVec.ofNat 32 (256 * r.val)) = chunkOff (aS c r) :=
  (k0_off1_eq c r).trans ((by decide : ∀ (c : Dev nD) (r : Fin 2), (![(256 * r.val + 512) - 512 * (c.val / 2), 0] : Fin 2 → Nat) = chunkOff (aS c r)) c r)
theorem off2_eq (c : Dev nD) (r : Fin 2) : k0_off2 c (BitVec.ofNat 32 (256 * r.val)) = chunkOff (aS c r) :=
  (k0_off2_eq c r).trans ((by decide : ∀ (c : Dev nD) (r : Fin 2), (![(256 * r.val + 512) - 512 * (c.val / 2), 0] : Fin 2 → Nat) = chunkOff (aS c r)) c r)
theorem off3_eq (c : Dev nD) (r : Fin 2) : k0_off3 c (BitVec.ofNat 32 (256 * r.val)) = chunkOff (bS c r) :=
  (k0_off3_eq c r).trans ((by decide : ∀ (c : Dev nD) (r : Fin 2), (![(256 * r.val + 1536) - 512 * (c.val % 2), 0] : Fin 2 → Nat) = chunkOff (bS c r)) c r)
theorem off4_eq (c : Dev nD) (r : Fin 2) : k0_off4 c (BitVec.ofNat 32 (256 * r.val)) = chunkOff (bS c r) :=
  (k0_off4_eq c r).trans ((by decide : ∀ (c : Dev nD) (r : Fin 2), (![(256 * r.val + 1536) - 512 * (c.val % 2), 0] : Fin 2 → Nat) = chunkOff (bS c r)) c r)
theorem off5_eq (c : Dev nD) (r : Fin 2) : k0_off5 c (BitVec.ofNat 32 (256 * r.val)) = chunkOff (aK c r) :=
  (k0_off5_eq c r).trans ((by decide : ∀ (c : Dev nD) (r : Fin 2), (![512 * (c.val / 2) + 256 * r.val, 0] : Fin 2 → Nat) = chunkOff (aK c r)) c r)
theorem off6_eq (c : Dev nD) (r : Fin 2) : k0_off6 c (BitVec.ofNat 32 (256 * r.val)) = chunkOff (bK c r) :=
  (k0_off6_eq c r).trans ((by decide : ∀ (c : Dev nD) (r : Fin 2), (![512 * (c.val % 2) + 256 * r.val + 1024, 0] : Fin 2 → Nat) = chunkOff (bK c r)) c r)
theorem off7_eq (c : Dev nD) (r : Fin 2) : k0_off7 c (BitVec.ofNat 32 (256 * r.val)) = chunkOff (aK c r) :=
  (k0_off7_eq c r).trans ((by decide : ∀ (c : Dev nD) (r : Fin 2), (![512 * (c.val / 2) + 256 * r.val, 0] : Fin 2 → Nat) = chunkOff (aK c r)) c r)
theorem off8_eq (c : Dev nD) (r : Fin 2) : k0_off8 c (BitVec.ofNat 32 (256 * r.val)) = chunkOff (bK c r) :=
  (k0_off8_eq c r).trans ((by decide : ∀ (c : Dev nD) (r : Fin 2), (![512 * (c.val % 2) + 256 * r.val + 1024, 0] : Fin 2 → Nat) = chunkOff (bK c r)) c r)

end Cert.KernelIdeal.AllReduce

end
-- ==== Proof.Views.lean ====
import proofs.«900178_g7700000000000179_dist_full2d_reduce_m2048_n1024_v7x_xy2x2_bf16_1_alg».proof.Proof.Mesh
import proofs.«900178_g7700000000000179_dist_full2d_reduce_m2048_n1024_v7x_xy2x2_bf16_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev xM : Memref sig .tc .vmem S2048x1024 .f32 := Memref.whole cc0_stg0_0
abbrev oM : Memref sig .tc .vmem S2048x1024 .bf16 := Memref.whole cc0_stg1_0
abbrev rM : Memref sig .tc .vmem S8x256x1024 .bf16 := Memref.whole cc0_scratch0

abbrev XC (F : FTy → Type) [FloatOps F] : Type := (cc0_stg0_0 : Ref sig .tc).ty.Contents (Elt F)
abbrev OC (F : FTy → Type) [FloatOps F] : Type := (cc0_stg1_0 : Ref sig .tc).ty.Contents (Elt F)
abbrev RC (F : FTy → Type) [FloatOps F] : Type := (cc0_scratch0 : Ref sig .tc).ty.Contents (Elt F)

abbrev chunkRect (j : Fin 8) : Rect S2048x1024 := Rect.unit (s := S2048x1024) (chunkOff j) S256x1024.size (chunkOff_inb j)
abbrev oCh (j : Fin 8) : Memref sig .tc .vmem S256x1024 .bf16 := oM.slice (chunkRect j) (fun _ => rfl)

def slotOff (k : Fin 8) : Fin 3 → Nat := ![k.val, 0, 0]
theorem slotOff_inb (k : Fin 8) : ∀ a, slotOff k a + S1x256x1024.size a ≤ S8x256x1024.size a := by revert k; decide
abbrev slotRect (k : Fin 8) : Rect S8x256x1024 := Rect.unit (s := S8x256x1024) (slotOff k) S1x256x1024.size (slotOff_inb k)
abbrev rSl (k : Fin 8) : Memref sig .tc .vmem S256x1024 .bf16 :=
  (rM.slice (slotRect k) (fun _ => rfl)).squeeze S256x1024 squeezes_S1x256x1024_S256x1024

/-- Ownership is held chunk by chunk (result buffer) and slot by slot (receive buffer): a part is lent to a copy or handed to a neighbour independently of the others. -/
def oPts (c : Dev nD) (j : Fin 8) (f : OC F) : sProp 𝕄 :=
  (oCh j).view.loc (c : Thread nD τ) ↦[(oCh j).view.set]{fullShare} f

def rPts (c : Dev nD) (k : Fin 8) (f : RC F) : sProp 𝕄 :=
  (rSl k).view.loc (c : Thread nD τ) ↦[(rSl k).view.set]{fullShare} f

omit [FloatOps F] in
instance oPts_storable (c : Dev nD) (j : Fin 8) (f : OC F) : BI.Storable (upEmb : UEmb _ 𝕄) (oPts (F := F) c j f) := by unfold oPts; infer_instance
omit [FloatOps F] in
instance rPts_storable (c : Dev nD) (k : Fin 8) (f : RC F) : BI.Storable (upEmb : UEmb _ 𝕄) (rPts (F := F) c k f) := by unfold rPts; infer_instance

def zO : OC F := fun _ => default
def zR : RC F := fun _ => default

/-- Off a part the contents do not matter, so every part is stated over one fixed base overwritten with the part's values. -/
def cO (j : Fin 8) (w : Vec F S256x1024 .bf16) : OC F := (oCh j).view.write (Elt F) zO w Finset.univ
def cR (k : Fin 8) (w : Vec F S256x1024 .bf16) : RC F := (rSl k).view.write (Elt F) zR w Finset.univ

theorem write_univ_eq_on_set {sg : RefSig} {κ : Kind} {sp : Space} {s : Shape} {e : EltTy} {Val : EltTy → Type}
    (v : View sg κ sp s e) (f g : v.ty.Contents Val) (w : s.Idx → Val e) {i : v.ty.Idx} (hi : i ∈ v.set) :
    v.write Val f w Finset.univ i = v.write Val g w Finset.univ i := by
  obtain ⟨y, rfl⟩ := View.exists_emb_of_mem_set v hi
  rw [View.write_emb_of_mem _ _ (Finset.mem_univ y), View.write_emb_of_mem _ _ (Finset.mem_univ y)]

theorem oPts_norm (c : Dev nD) (j : Fin 8) (f : OC F) (w : Vec F S256x1024 .bf16) :
    oPts c j ((oCh j).view.write (Elt F) f w Finset.univ) = oPts c j (cO j w) := by
  unfold oPts cO
  exact pointsTo_congr fun i hi => write_univ_eq_on_set (oCh j).view f zO w hi
theorem rPts_norm (c : Dev nD) (k : Fin 8) (f : RC F) (w : Vec F S256x1024 .bf16) :
    rPts c k ((rSl k).view.write (Elt F) f w Finset.univ) = rPts c k (cR k w) := by
  unfold rPts cR
  exact pointsTo_congr fun i hi => write_univ_eq_on_set (rSl k).view f zR w hi

theorem read_cO (j : Fin 8) (w : Vec F S256x1024 .bf16) : (oCh j).view.read (Elt F) (cO j w) = w :=
  View.read_write_univ _ _

def chunkIdx (i : S2048x1024.Idx) : Fin 8 := ⟨(i 0).val / 256, by have h : (i 0).val < 2048 := (i 0).isLt; omega⟩

def glueO (fs : Fin 8 → OC F) : OC F := fun i => fs (chunkIdx i) i

theorem mem_chunkRect (j : Fin 8) (i : S2048x1024.Idx) : i ∈ (chunkRect j).set ↔ chunkIdx i = j := by
  rw [Rect.mem_set_unit]
  have hi0 : (i 0).val < 2048 := (i 0).isLt
  have hi1 : (i 1).val < 1024 := (i 1).isLt
  constructor
  · intro h
    have h0 : 256 * j.val ≤ (i 0).val ∧ (i 0).val < 256 * j.val + 256 := h 0
    apply Fin.ext
    show (i 0).val / 256 = j.val
    omega
  · intro h a
    have hj : (i 0).val / 256 = j.val := congrArg Fin.val h
    have ha : a = 0 ∨ a = 1 := by revert a; decide
    rcases ha with rfl | rfl
    · show 256 * j.val ≤ (i 0).val ∧ (i 0).val < 256 * j.val + 256
      omega
    · show 0 ≤ (i 1).val ∧ (i 1).val < 0 + 1024
      omega

theorem oCh_mem (j : Fin 8) (i : S2048x1024.Idx) : i ∈ (oCh j).view.set ↔ chunkIdx i = j := by
  rw [show (oCh j).view.set = (chunkRect j).set from View.set_slice_whole _ _]
  exact mem_chunkRect j i

theorem oCh_cover : (Finset.univ : Finset S2048x1024.Idx) = Finset.univ.biUnion (fun j : Fin 8 => (oCh j).view.set) := by
  ext i
  simp only [Finset.mem_univ, Finset.mem_biUnion, true_and, true_iff]
  exact ⟨chunkIdx i, (oCh_mem _ i).mpr rfl⟩
theorem oCh_disj (j j' : Fin 8) (h : j ≠ j') : Disjoint (oCh j).view.set (oCh j').view.set := by
  rw [Finset.disjoint_left]
  intro i hi hi'
  exact h (((oCh_mem j i).mp hi).symm.trans ((oCh_mem j' i).mp hi'))

/-- The chunks partition the buffer's indices (an index lies in chunk row / 256), so the whole buffer is the separating conjunction of its eight chunks. -/
theorem o_split (c : Dev nD) (f : OC F) :
    (((c : Thread nD τ).loc cc0_stg1_0) ↦{fullShare} f : sProp 𝕄) = bigSep Finset.univ (fun j : Fin 8 => oPts c j f) := by
  unfold oPts
  have key : (((c : Thread nD τ).loc cc0_stg1_0) ↦[Finset.univ.biUnion (fun j : Fin 8 => (oCh j).view.set)]{fullShare} f : sProp 𝕄)
      = bigSep Finset.univ (fun j : Fin 8 => ((c : Thread nD τ).loc cc0_stg1_0) ↦[(oCh j).view.set]{fullShare} f) :=
    pointsTo_biUnion Finset.univ _ (fun j _ j' _ h => oCh_disj j j' h)
  rw [← oCh_cover] at key
  exact key
theorem o_join (c : Dev nD) (fs : Fin 8 → OC F) :
    bigSep Finset.univ (fun j : Fin 8 => oPts c j (fs j)) = (((c : Thread nD τ).loc cc0_stg1_0) ↦{fullShare} glueO fs : sProp 𝕄) := by
  rw [o_split c (glueO fs)]
  refine bigSep_congr fun j _ => ?_
  unfold oPts
  refine pointsTo_congr fun i hi => ?_
  show fs j i = fs (chunkIdx i) i
  rw [(oCh_mem j i).mp hi]

theorem mem_slotRect (k : Fin 8) (i : S8x256x1024.Idx) : i ∈ (slotRect k).set ↔ (i 0).val = k.val := by
  rw [Rect.mem_set_unit]
  have hi0 : (i 0).val < 8 := (i 0).isLt
  have hi1 : (i 1).val < 256 := (i 1).isLt
  have hi2 : (i 2).val < 1024 := (i 2).isLt
  constructor
  · intro h
    have h0 : k.val ≤ (i 0).val ∧ (i 0).val < k.val + 1 := h 0
    omega
  · intro h a
    have ha : a = 0 ∨ a = 1 ∨ a = 2 := by revert a; decide
    rcases ha with rfl | rfl | rfl
    · show k.val ≤ (i 0).val ∧ (i 0).val < k.val + 1
      omega
    · show 0 ≤ (i 1).val ∧ (i 1).val < 0 + 256
      omega
    · show 0 ≤ (i 2).val ∧ (i 2).val < 0 + 1024
      omega

theorem rSl_mem (k : Fin 8) (i : S8x256x1024.Idx) : i ∈ (rSl k).view.set ↔ (i 0).val = k.val := by
  rw [show (rSl k).view.set = (slotRect k).set from
    (View.set_reshape _ _).trans (View.set_slice_whole _ _)]
  exact mem_slotRect k i

theorem rSl_cover : (Finset.univ : Finset S8x256x1024.Idx) = Finset.univ.biUnion (fun k : Fin 8 => (rSl k).view.set) := by
  ext i
  simp only [Finset.mem_univ, Finset.mem_biUnion, true_and, true_iff]
  exact ⟨⟨(i 0).val, (i 0).isLt⟩, (rSl_mem _ i).mpr rfl⟩
theorem rSl_disj (k k' : Fin 8) (h : k ≠ k') : Disjoint (rSl k).view.set (rSl k').view.set := by
  rw [Finset.disjoint_left]
  intro i hi hi'
  exact h (Fin.ext (((rSl_mem k i).mp hi).symm.trans ((rSl_mem k' i).mp hi')))

theorem r_split (c : Dev nD) (f : RC F) :
    (((c : Thread nD τ).loc cc0_scratch0) ↦{fullShare} f : sProp 𝕄) = bigSep Finset.univ (fun k : Fin 8 => rPts c k f) := by
  unfold rPts
  have key : (((c : Thread nD τ).loc cc0_scratch0) ↦[Finset.univ.biUnion (fun k : Fin 8 => (rSl k).view.set)]{fullShare} f : sProp 𝕄)
      = bigSep Finset.univ (fun k : Fin 8 => ((c : Thread nD τ).loc cc0_scratch0) ↦[(rSl k).view.set]{fullShare} f) :=
    pointsTo_biUnion Finset.univ _ (fun k _ k' _ h => rSl_disj k k' h)
  rw [← rSl_cover] at key
  exact key
theorem r_join (c : Dev nD) (fs : Fin 8 → RC F) :
    bigSep Finset.univ (fun k : Fin 8 => rPts c k (fs k)) ⊢ (iprop(∃ g : RC F, ((c : Thread nD τ).loc cc0_scratch0) ↦{fullShare} g) : sProp 𝕄) := by
  unfold rPts
  have key := pointsTo_biUnion_join (Val := Elt F) (ℓ := (c : Thread nD τ).loc cc0_scratch0) (q := fullShare)
    (Ix := Unit) (Name := ℕ) (U := UU) (Lvl := ℕ)
    Finset.univ (fun k : Fin 8 => (rSl k).view.set) fs zR (fun k _ k' _ h => rSl_disj k k' h)
  rw [← rSl_cover] at key
  refine key.trans ?_
  iintro ⟨%g, -, H⟩
  iexists g
  iexact H

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

end Cert.KernelIdeal.AllReduce

end
-- ==== Proof.Values.lean ====
import proofs.«900178_g7700000000000179_dist_full2d_reduce_m2048_n1024_v7x_xy2x2_bf16_1_alg».proof.Proof.Views
import proofs.«900178_g7700000000000179_dist_full2d_reduce_m2048_n1024_v7x_xy2x2_bf16_1_alg».proof.Proof.Gen.KernelIdeal.Skeleton

noncomputable section

namespace Cert.KernelIdeal.AllReduce

open Cert.KernelIdeal Cert.KernelIdeal.Gen
open Idealize.ShloMosaic
open Idealize.ShloMosaic.TcCoe
open Idealize.SL Idealize.SL.Sem

variable {F : FTy → Type} [FloatOps F]

abbrev castV (v : Vec F S256x1024 .f32) : FVec F S256x1024 .bf16 := k0_pay1 v
abbrev accV (a : Vec F S256x1024 .bf16) (b : Vec F S1x256x1024 .bf16) : FVec F S256x1024 .bf16 := k0_pay9 a b

theorem pay2_eq : (k0_pay2 : Vec F S256x1024 .f32 → _) = castV := rfl
theorem pay3_eq : (k0_pay3 : Vec F S256x1024 .f32 → _) = castV := rfl
theorem pay4_eq : (k0_pay4 : Vec F S256x1024 .f32 → _) = castV := rfl
theorem pay5_eq : (k0_pay5 : Vec F S256x1024 .f32 → _) = castV := rfl
theorem pay6_eq : (k0_pay6 : Vec F S256x1024 .f32 → _) = castV := rfl
theorem pay7_eq : (k0_pay7 : Vec F S256x1024 .f32 → _) = castV := rfl
theorem pay8_eq : (k0_pay8 : Vec F S256x1024 .f32 → _) = castV := rfl
theorem pay10_eq : (k0_pay10 : Vec F S256x1024 .bf16 → Vec F S1x256x1024 .bf16 → _) = accV := rfl
theorem pay11_eq : (k0_pay11 : Vec F S256x1024 .bf16 → Vec F S1x256x1024 .bf16 → _) = accV := rfl
theorem pay12_eq : (k0_pay12 : Vec F S256x1024 .bf16 → Vec F S1x256x1024 .bf16 → _) = accV := rfl
theorem pay13_eq : (k0_pay13 : Vec F S256x1024 .bf16 → Vec F S1x256x1024 .bf16 → _) = accV := rfl
theorem pay14_eq : (k0_pay14 : Vec F S256x1024 .bf16 → Vec F S1x256x1024 .bf16 → _) = accV := rfl
theorem pay15_eq : (k0_pay15 : Vec F S256x1024 .bf16 → Vec F S1x256x1024 .bf16 → _) = accV := rfl
theorem pay16_eq : (k0_pay16 : Vec F S256x1024 .bf16 → Vec F S1x256x1024 .bf16 → _) = accV := rfl

def xRead (j : Fin 8) (f : XC F) : Vec F S256x1024 .f32 := (xM.access (chunkRect j)).read (Elt F) f
def sRead (k : Fin 8) (f : RC F) : Vec F S1x256x1024 .bf16 := (rM.access (slotRect k)).read (Elt F) f

def sl (b : Fin 4) (r : Fin 2) : Fin 8 := ⟨2 * b.val + r.val, (by decide : ∀ (b : Fin 4) (r : Fin 2), 2 * b.val + r.val < 8) b r⟩

variable (m : (ℓ : Loc nD τ sig) → Buf (Elt F) ℓ)

def xs (c : Dev nD) : XC F := (win0_0.blk (0 : Fin 1)).view.read (Elt F) (m ((c : Thread nD τ).loc main_arg0))

/-- Device c's chunk j of the input, rounded to the result's format. -/
def p0 (c : Dev nD) (j : Fin 8) : Vec F S256x1024 .bf16 := castV (xRead j (xs m c))

/-- Two devices' sum on a kept chunk of the first half: this device's and its first-axis neighbour's. -/
def pa (c : Dev nD) (r : Fin 2) : Vec F S256x1024 .bf16 := accV (p0 m c (aK c r)) (sRead (sl 0 r) (cR (sl 0 r) (p0 m (xn c) (aK c r))))
/-- Two devices' sum on a kept chunk of the second half: this device's and its second-axis neighbour's. -/
def pb (c : Dev nD) (r : Fin 2) : Vec F S256x1024 .bf16 := accV (p0 m c (bK c r)) (sRead (sl 1 r) (cR (sl 1 r) (p0 m (yn c) (bK c r))))

/-- All four devices' sum on a kept chunk of the first half: the two-device sum plus the other neighbour's. -/
def fa (c : Dev nD) (r : Fin 2) : Vec F S256x1024 .bf16 := accV (pa m c r) (sRead (sl 2 r) (cR (sl 2 r) (pa m (yn c) r)))
/-- All four devices' sum on a kept chunk of the second half. -/
def fb (c : Dev nD) (r : Fin 2) : Vec F S256x1024 .bf16 := accV (pb m c r) (sRead (sl 3 r) (cR (sl 3 r) (pb m (xn c) r)))

/-- The device a copy of phase p goes to: the first-axis neighbour in phases 0, 3, 4, the second-axis one in phases 1, 2, 5. -/
def peer (p : Fin 6) (c : Dev nD) : Dev nD := match p with
  | 0 => xn c | 1 => yn c | 2 => yn c | 3 => xn c | 4 => xn c | 5 => yn c

def srcCh (p : Fin 6) (c : Dev nD) (r : Fin 2) : Fin 8 := match p with
  | 0 => aS c r | 1 => bS c r | 2 => aK c r | 3 => bK c r | 4 => aK c r | 5 => bK c r

def srcVal (p : Fin 6) (c : Dev nD) (r : Fin 2) : Vec F S256x1024 .bf16 := match p with
  | 0 => p0 m c (aS c r) | 1 => p0 m c (bS c r) | 2 => pa m c r | 3 => pb m c r | 4 => fa m c r | 5 => fb m c r

omit [FloatOps F] in
theorem peer_peer (p : Fin 6) (c : Dev nD) : peer p (peer p c) = c := by
  fin_cases p <;> first | exact xn_xn c | exact yn_yn c

theorem srcCh0_xn (c : Dev nD) (r : Fin 2) : srcCh 0 (xn c) r = aK c r := aS_xn c r
theorem srcCh1_yn (c : Dev nD) (r : Fin 2) : srcCh 1 (yn c) r = bK c r := bS_yn c r
theorem srcCh4_xn (c : Dev nD) (r : Fin 2) : srcCh 4 (xn c) r = aS c r := aK_xn c r
theorem srcCh5_yn (c : Dev nD) (r : Fin 2) : srcCh 5 (yn c) r = bS c r := bK_yn c r
theorem srcVal0_xn (c : Dev nD) (r : Fin 2) : srcVal m 0 (xn c) r = p0 m (xn c) (aK c r) := by
  show p0 m (xn c) (aS (xn c) r) = _; rw [aS_xn]
theorem srcVal1_yn (c : Dev nD) (r : Fin 2) : srcVal m 1 (yn c) r = p0 m (yn c) (bK c r) := by
  show p0 m (yn c) (bS (yn c) r) = _; rw [bS_yn]
theorem srcVal4_xn (c : Dev nD) (r : Fin 2) : srcVal m 4 (xn c) r = fa m (xn c) r := rfl
theorem srcVal5_yn (c : Dev nD) (r : Fin 2) : srcVal m 5 (yn c) r = fb m (yn c) r := rfl

def semIx (p : Fin 6) (r : Fin 2) : Fin 12 := ⟨2 * p.val + r.val, (by decide : ∀ (p : Fin 6) (r : Fin 2), 2 * p.val + r.val < 12) p r⟩

/-- What chunk j ends with: the full sum, computed here on a kept chunk and at the neighbour on a sent one. -/
def outVal (c : Dev nD) (j : Fin 8) : Vec F S256x1024 .bf16 :=
  if j = aK c 0 then fa m c 0 else if j = aK c 1 then fa m c 1
  else if j = aS c 0 then fa m (xn c) 0 else if j = aS c 1 then fa m (xn c) 1
  else if j = bK c 0 then fb m c 0 else if j = bK c 1 then fb m c 1
  else if j = bS c 0 then fb m (yn c) 0 else fb m (yn c) 1

def outAt (c : Dev nD) : OC F := glueO (fun j => cO j (outVal m c j))

theorem outVal_aK (c : Dev nD) (r : Fin 2) : outVal m c (aK c r) = fa m c r := by fin_cases c <;> fin_cases r <;> rfl
theorem outVal_aS (c : Dev nD) (r : Fin 2) : outVal m c (aS c r) = fa m (xn c) r := by fin_cases c <;> fin_cases r <;> rfl
theorem outVal_bK (c : Dev nD) (r : Fin 2) : outVal m c (bK c r) = fb m c r := by fin_cases c <;> fin_cases r <;> rfl
theorem outVal_bS (c : Dev nD) (r : Fin 2) : outVal m c (bS c r) = fb m (yn c) r := by fin_cases c <;> fin_cases r <;> rfl

end Cert.KernelIdeal.AllReduce

end
-- ==== Proof.Sched.lean ====
import proofs.«900178_g7700000000000179_dist_full2d_reduce_m2048_n1024_v7x_xy2x2_bf16_1_alg».proof.Proof.Values
import Idealize.ShloMosaic.Lib.Exec

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev barS : Sem sig := (SemArray.scalar (sig.barrier 0 rfl) : Sems sig S_).sem
theorem semInb (i : Fin 12) : ∀ a, (![i.val] : Fin 1 → Nat) a + S1.size a ≤ S12.size a := by revert i; decide
abbrev sendS (i : Fin 12) : DmaSem sig := ((cc0_scratch1.slice (Rect.unit (s := S12) ![i.val] S1.size (semInb i))).squeeze S_ squeezes_S1_S_).sem
abbrev recvS (i : Fin 12) : DmaSem sig := ((cc0_scratch2.slice (Rect.unit (s := S12) ![i.val] S1.size (semInb i))).squeeze S_ squeezes_S1_S_).sem

theorem sendS_val (i : Fin 12) : (sendS i).val = 2 + i.val := by revert i; decide
theorem recvS_val (i : Fin 12) : (recvS i).val = 14 + i.val := by revert i; decide

abbrev barCell (c : Dev nD) : GSem nD τ sig := ((c : Thread nD τ), .reg barS)
abbrev sendCell (c : Dev nD) (i : Fin 12) : GSem nD τ sig := ((c : Thread nD τ), .dma (sendS i))
abbrev recvCell (c : Dev nD) (i : Fin 12) : GSem nD τ sig := ((c : Thread nD τ), .dma (recvS i))

inductive CellKind where
  | bar | send (i : Fin 12) | recv (i : Fin 12) | other
  deriving DecidableEq

def kindOf : SemLoc sig → CellKind
  | .reg s => if s = barS then .bar else .other
  | .dma q =>
    if h : 2 ≤ q.val ∧ q.val < 14 then .send ⟨q.val - 2, by omega⟩
    else if h' : 14 ≤ q.val ∧ q.val < 26 then .recv ⟨q.val - 14, by omega⟩ else .other

theorem kindOf_bar : kindOf (.reg barS) = .bar := by
  show (if (barS : Sem sig) = barS then CellKind.bar else CellKind.other) = _
  exact if_pos rfl
theorem kindOf_send (i : Fin 12) : kindOf (.dma (sendS i)) = .send i := by
  have hv := sendS_val i
  have hi := i.isLt
  change dite _ _ _ = _
  rw [dif_pos ⟨by omega, by omega⟩]
  exact congrArg CellKind.send (Fin.ext (by show (sendS i).val - 2 = i.val; omega))
theorem kindOf_recv (i : Fin 12) : kindOf (.dma (recvS i)) = .recv i := by
  have hv := recvS_val i
  have hi := i.isLt
  change dite _ _ _ = _
  rw [dif_neg (by omega), dif_pos ⟨by omega, by omega⟩]
  exact congrArg CellKind.recv (Fin.ext (by show (recvS i).val - 14 = i.val; omega))

abbrev N : ℕ := (oCh 0).view.dmaCredit
theorem N_pos : 0 < N := View.dmaCredit_pos _ (by decide)

def phaseOf (i : Fin 12) : Fin 6 := ⟨i.val / 2, by have := i.isLt; omega⟩
def copyOf (i : Fin 12) : Fin 2 := ⟨i.val % 2, Nat.mod_lt _ (by decide)⟩
theorem phaseOf_semIx (p : Fin 6) (r : Fin 2) : phaseOf (semIx p r) = p := by revert p r; decide
theorem copyOf_semIx (p : Fin 6) (r : Fin 2) : copyOf (semIx p r) = r := by revert p r; decide

variable (m : (ℓ : Loc nD τ sig) → Buf (Elt F) ℓ)

/-- A neighbour's barrier signal hands over the four slots of ITS receive buffer this device is going to write. -/
def barPay (c : Dev nD) (d : Bool) : sProp 𝕄 :=
  if d then iprop(∃ f0 f1 f6 f7 : RC F, rPts (xn c) (sl 0 0) f0 ∗ rPts (xn c) (sl 0 1) f1 ∗ rPts (xn c) (sl 3 0) f6 ∗ rPts (xn c) (sl 3 1) f7)
  else iprop(∃ f2 f3 f4 f5 : RC F, rPts (yn c) (sl 1 0) f2 ∗ rPts (yn c) (sl 1 1) f3 ∗ rPts (yn c) (sl 2 0) f4 ∗ rPts (yn c) (sl 2 1) f5)

def sendPay (p : Fin 6) (c : Dev nD) (r : Fin 2) : sProp 𝕄 :=
  if p.val < 2 then iprop(emp) else oPts c (srcCh p c r) (cO (srcCh p c r) (srcVal m p c r))

/-- A landing hands its owner the slot (or chunk) at the landed values; in phases 0, 1 the issuer's source chunk travels with it, because the finished chunk is later written back into those rows. -/
def recvPay (p : Fin 6) (c : Dev nD) (r : Fin 2) : sProp 𝕄 :=
  match p with
  | 0 => iprop(rPts c (sl 0 r) (cR (sl 0 r) (srcVal m 0 (xn c) r)) ∗ oPts (xn c) (srcCh 0 (xn c) r) (cO (srcCh 0 (xn c) r) (srcVal m 0 (xn c) r)))
  | 1 => iprop(rPts c (sl 1 r) (cR (sl 1 r) (srcVal m 1 (yn c) r)) ∗ oPts (yn c) (srcCh 1 (yn c) r) (cO (srcCh 1 (yn c) r) (srcVal m 1 (yn c) r)))
  | 2 => rPts c (sl 2 r) (cR (sl 2 r) (srcVal m 2 (yn c) r))
  | 3 => rPts c (sl 3 r) (cR (sl 3 r) (srcVal m 3 (xn c) r))
  | 4 => oPts c (srcCh 4 (xn c) r) (cO (srcCh 4 (xn c) r) (srcVal m 4 (xn c) r))
  | 5 => oPts c (srcCh 5 (yn c) r) (cO (srcCh 5 (yn c) r) (srcVal m 5 (yn c) r))

/-- One round a cell: two unit duties on a barrier cell, one duty of a chunk's transfer credit on each send and receive cell. -/
def Rd : Rounds.Schedule (GSem nD τ sig) Bool 𝕄 where
  duties g r :=
    if r = 0 ∧ g.1.2 = .tc then
      (match kindOf g.2 with | .bar => Finset.univ | .send _ => {false} | .recv _ => {false} | .other => ∅)
    else ∅
  unitless _ := False
  amount g _ _ := match kindOf g.2 with | .bar => 1 | _ => N
  payload g _ d := match kindOf g.2 with
    | .bar => barPay g.1.1 d
    | .send i => sendPay m (phaseOf i) g.1.1 (copyOf i)
    | .recv i => recvPay m (phaseOf i) g.1.1 (copyOf i)
    | .other => iprop(emp)
  amount_pos g _ _ _ := by
    cases kindOf g.2 <;> first | exact Nat.one_pos | exact N_pos

instance barPay_storable (c : Dev nD) (d : Bool) : BI.Storable (upEmb : UEmb _ 𝕄) (barPay (F := F) c d) := by
  unfold barPay; split <;> infer_instance
instance sendPay_storable (p : Fin 6) (c : Dev nD) (r : Fin 2) : BI.Storable (upEmb : UEmb _ 𝕄) (sendPay (F := F) m p c r) := by
  unfold sendPay; split <;> infer_instance
instance recvPay_storable (p : Fin 6) (c : Dev nD) (r : Fin 2) : BI.Storable (upEmb : UEmb _ 𝕄) (recvPay (F := F) m p c r) := by
  unfold recvPay; split <;> infer_instance

instance Rd_payload_storable (g : GSem nD τ sig) (r : ℕ) (d : Bool) :
    BI.Storable (upEmb : UEmb _ 𝕄) ((Rd (F := F) m).payload g r d) := by
  dsimp only [Rd]
  split <;> infer_instance

section Tables
variable (c : Dev nD) (p : Fin 6) (r : Fin 2) (d : Bool)

theorem duties_bar : (Rd (F := F) m).duties (barCell c) 0 = Finset.univ := by
  dsimp only [Rd]; rw [if_pos ⟨rfl, rfl⟩]; simp only [kindOf_bar]
theorem duties_send : (Rd (F := F) m).duties (sendCell c (semIx p r)) 0 = {false} := by
  dsimp only [Rd]; rw [if_pos ⟨rfl, rfl⟩]; simp only [kindOf_send]
theorem duties_recv : (Rd (F := F) m).duties (recvCell c (semIx p r)) 0 = {false} := by
  dsimp only [Rd]; rw [if_pos ⟨rfl, rfl⟩]; simp only [kindOf_recv]
theorem duties_later (g : GSem nD τ sig) : ∀ r', 1 ≤ r' → (Rd (F := F) m).duties g r' = ∅ :=
  fun r' hr => by dsimp only [Rd]; rw [if_neg fun h => absurd h.1 (by omega)]

theorem amount_bar : (Rd (F := F) m).amount (barCell c) 0 d = 1 := by
  dsimp only [Rd]; simp only [kindOf_bar]
theorem amount_send : (Rd (F := F) m).amount (sendCell c (semIx p r)) 0 d = N := by
  dsimp only [Rd]; simp only [kindOf_send]
theorem amount_recv : (Rd (F := F) m).amount (recvCell c (semIx p r)) 0 d = N := by
  dsimp only [Rd]; simp only [kindOf_recv]

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (Rd (F := F) m).expect (sendCell c (semIx p r)) 0 = N := by
  unfold Schedule.expect Schedule.amountOf; rw [duties_send, Finset.sum_singleton, amount_send]
theorem expect_recv : (Rd (F := F) m).expect (recvCell c (semIx p r)) 0 = N := by
  unfold Schedule.expect Schedule.amountOf; rw [duties_recv, Finset.sum_singleton, amount_recv]

theorem payload_bar : (Rd (F := F) m).payload (barCell c) 0 d = barPay c d := by
  dsimp only [Rd]; simp only [kindOf_bar]
theorem payload_send : (Rd (F := F) m).payload (sendCell c (semIx p r)) 0 d = sendPay m p c r := by
  dsimp only [Rd]; simp only [kindOf_send, phaseOf_semIx, copyOf_semIx]
theorem payload_recv : (Rd (F := F) m).payload (recvCell c (semIx p r)) 0 d = recvPay m p c r := by
  dsimp only [Rd]; simp only [kindOf_recv, phaseOf_semIx, copyOf_semIx]

theorem rest_bar : bigSep ((Rd (F := F) m).duties (barCell c) 0 \ ∅) (fun d => (Rd (F := F) m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send : bigSep ((Rd (F := F) m).duties (sendCell c (semIx p r)) 0 \ ∅) (fun d => (Rd (F := F) m).payload (sendCell c (semIx p r)) 0 d)
    = sendPay m p c r := by
  rw [Finset.sdiff_empty, duties_send, bigSep_singleton, payload_send]
theorem rest_recv : bigSep ((Rd (F := F) m).duties (recvCell c (semIx p r)) 0 \ ∅) (fun d => (Rd (F := F) m).payload (recvCell c (semIx p r)) 0 d)
    = recvPay m p c r := by
  rw [Finset.sdiff_empty, duties_recv, bigSep_singleton, payload_recv]

end Tables

theorem recv_ne_bar (i : Fin 12) : (SemLoc.dma (recvS i) : SemLoc sig) ≠ .reg barS := fun h => by cases h
theorem recvS_inj : Function.Injective (recvS : Fin 12 → DmaSem sig) := fun i j h => by
  have hk := congrArg (fun q => kindOf (.dma q)) h
  rw [kindOf_recv, kindOf_recv] at hk
  exact CellKind.recv.inj hk

end Cert.KernelIdeal.AllReduce

end
-- ==== Proof.Levels.lean ====
import proofs.«900178_g7700000000000179_dist_full2d_reduce_m2048_n1024_v7x_xy2x2_bf16_1_alg».proof.Proof.Sched

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def payOrder : List (Fin 6 × Fin 2) :=
  [(0, 0), (1, 0), (0, 1), (1, 1), (2, 0), (3, 0), (2, 1), (3, 1), (4, 0), (5, 0), (4, 1), (5, 1)]

def owedFrom (c : Dev nD) (l : List (Fin 6 × Fin 2)) : CellTallies nD τ sig Unit :=
  l.foldr (fun pr acc => acc + tallyAt (recvCell (peer pr.1 c) (semIx pr.1 pr.2)) () N) 0

theorem owedFrom_cons (c : Dev nD) (pr : Fin 6 × Fin 2) (l : List (Fin 6 × Fin 2)) :
    owedFrom c (pr :: l) = owedFrom c l + tallyAt (recvCell (peer pr.1 c) (semIx pr.1 pr.2)) () N := rfl

def O₁ (c : Dev nD) : CellTallies nD τ sig Unit := owedFrom c payOrder + tallyAt (barCell (xn c)) () 1
def O₀ (c : Dev nD) : CellTallies nD τ sig Unit := O₁ c + tallyAt (barCell (yn c)) () 1

theorem pos_add_tallyAt {A : CellTallies nD τ sig Unit} {g' g : GSem nD τ sig} {k : ℕ} {u : Unit}
    (h : 0 < (A + tallyAt g' () k) g u) : 0 < A g u ∨ g = g' := by
  rw [Pi.add_apply, Finsupp.add_apply, tallyAt_apply] at h
  by_cases hg : g = g' ∧ u = ()
  · exact .inr hg.1
  · rw [if_neg hg] at h; exact .inl h

theorem owedFrom_pos {c : Dev nD} {l : List (Fin 6 × Fin 2)} {g : GSem nD τ sig} {u : Unit} (h : 0 < owedFrom c l g u) :
    ∃ pr ∈ l, g = recvCell (peer pr.1 c) (semIx pr.1 pr.2) := by
  induction l with
  | nil => exact absurd h (Nat.lt_irrefl 0)
  | cons pr l ih =>
    rcases pos_add_tallyAt h with h | rfl
    · obtain ⟨pr', hpr', e⟩ := ih h
      exact ⟨pr', List.mem_cons_of_mem _ hpr', e⟩
    · exact ⟨pr, List.mem_cons_self, rfl⟩

def L (g : GSem nD τ sig) : Finset Unit := if g.1.2 = .tc then {()} else ∅
def lv (g : GSem nD τ sig) (_ : Unit) : ℕ :=
  match kindOf g.2 with | .bar => 1 | .recv i => 2 + (phaseOf i).val / 2 | _ => 0

theorem L_of_ne (g : GSem nD τ sig) (h : g.1.2 ≠ .tc) : L g = ∅ := if_neg h

theorem lv_bar (c : Dev nD) : lv (barCell c) () = 1 := by
  simp only [lv, kindOf_bar]
theorem lv_recv (c : Dev nD) (p : Fin 6) (r : Fin 2) : lv (recvCell c (semIx p r)) () = 2 + p.val / 2 := by
  simp only [lv, kindOf_recv, phaseOf_semIx]
theorem lv_send (c : Dev nD) (i : Fin 12) : lv (sendCell c i) () = 0 := by
  simp only [lv, kindOf_send]

theorem O₀_lv {c : Dev nD} {g : GSem nD τ sig} {u : Unit} (h : 0 < O₀ c g u) : g.1.2 = .tc ∧ 0 < lv g () := by
  unfold O₀ O₁ at h
  rcases pos_add_tallyAt h with h | rfl
  · rcases pos_add_tallyAt h with h | rfl
    · obtain ⟨pr, -, rfl⟩ := owedFrom_pos h
      exact ⟨rfl, by rw [lv_recv]; omega⟩
    · exact ⟨rfl, by rw [lv_bar]; omega⟩
  · exact ⟨rfl, by rw [lv_bar]; omega⟩

omit [FloatOps F] in
theorem mayWait_cut (c : Dev nD) (sm : SemLoc sig) (O : CellTallies nD τ sig Unit)
    (h : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L, if_pos rfl]; exact Finset.mem_singleton_self _)
    (fun g u hg => by rw [L, if_pos (h g u hg).1]; exact Finset.mem_singleton_self _)
    (fun p hp => by rw [Finset.mem_singleton.mp hp])
    (fun g u hg => (h g u hg).2)

omit [FloatOps F] in

theorem mayWait_list (c : Dev nD) (sm : SemLoc sig) (l : List (Fin 6 × Fin 2))
    (h : ∀ pr ∈ l, lv ((c : Thread nD τ), sm) () < 2 + pr.1.val / 2) :
    (levAts L lv : sProp 𝕄) ⊢ MayWait (c : Thread nD τ) sm () (owedFrom c l) :=
  mayWait_cut c sm _ fun g u hg => by
    obtain ⟨pr, hpr, rfl⟩ := owedFrom_pos hg
    exact ⟨rfl, by rw [lv_recv]; exact h pr hpr⟩

omit [FloatOps F] in

theorem mayWait_low (c : Dev nD) (sm : SemLoc sig) (hsm : lv ((c : Thread nD τ), sm) () = 0)
    (O : CellTallies nD τ sig Unit) (hO : O = O₀ c ∨ O = 0) :
    (levAts L lv : sProp 𝕄) ⊢ MayWait (c : Thread nD τ) sm () O := by
  rcases hO with rfl | rfl
  · exact mayWait_cut c sm _ fun g u hg => hsm ▸ O₀_lv hg
  · rw [MayWait_zero]; iintro -; iempintro

theorem semIx_eq_iff (i : Fin 12) (pr : Fin 6 × Fin 2) : i = semIx pr.1 pr.2 ↔ pr = (phaseOf i, copyOf i) := by
  revert i pr; decide
theorem payOrder_count (i : Fin 12) : payOrder.count (phaseOf i, copyOf i) = 1 := by revert i; decide

theorem sum_tallyAt (f : Dev nD → Dev nD) (hf : ∀ x, f (f x) = x) (sm sm' : SemLoc sig) (c : Dev nD) (k : ℕ) :
    ∑ d : Dev nD, tallyAt ((f d : Thread nD τ), sm) () k ((c : Thread nD τ), sm') () = if sm' = sm then k else 0 := by
  by_cases h : sm' = sm
  · subst h
    rw [if_pos rfl, Finset.sum_eq_single (f c) (fun d _ hd => ?_) (fun h => absurd (Finset.mem_univ _) h), hf, tallyAt_apply, if_pos ⟨rfl, rfl⟩]
    refine (tallyAt_apply _ _ _ _ _).trans (if_neg fun e => hd ?_)
    rw [show c = f d from Fin.ext (congrArg (fun g : GSem nD τ sig => g.1.1.val) e.1), hf]
  · rw [if_neg h]; exact Finset.sum_eq_zero fun d _ => (tallyAt_apply _ _ _ _ _).trans (if_neg fun e => h (congrArg Prod.snd e.1))

theorem sum_owedFrom (c : Dev nD) (i : Fin 12) (l : List (Fin 6 × Fin 2)) :
    ∑ d : Dev nD, owedFrom d l (recvCell c i) () = l.count (phaseOf i, copyOf i) * N := by
  induction l with
  | nil => rw [List.count_nil, Nat.zero_mul]; exact Finset.sum_eq_zero fun _ _ => rfl
  | cons pr l ih =>
    simp only [owedFrom_cons, Pi.add_apply, Finsupp.add_apply]
    rw [Finset.sum_add_distrib, ih, sum_tallyAt (peer pr.1) (peer_peer pr.1)]
    rcases eq_or_ne pr (phaseOf i, copyOf i) with rfl | hpr
    · rw [List.count_cons_self, Nat.succ_mul, if_pos (congrArg (fun j => SemLoc.dma (recvS j)) ((semIx_eq_iff i _).mpr rfl))]
    · rw [List.count_cons_of_ne hpr, if_neg fun h => hpr ((semIx_eq_iff i pr).mp (recvS_inj (SemLoc.dma.inj h))), Nat.add_zero]

theorem owedFrom_bar (d c : Dev nD) (l : List (Fin 6 × Fin 2)) (u : Unit) : owedFrom d l (barCell c) u = 0 :=
  Nat.eq_zero_of_not_pos fun h => by
    obtain ⟨pr, -, e⟩ := owedFrom_pos h
    exact recv_ne_bar _ (congrArg Prod.snd e).symm

theorem owed_sum_bar (c : Dev nD) : ∑ d : Dev nD, O₀ d (barCell c) () = 2 := by
  simp only [O₀, O₁, Pi.add_apply, Finsupp.add_apply, Finset.sum_add_distrib, owedFrom_bar]
  rw [sum_tallyAt xn xn_xn, sum_tallyAt yn yn_yn, if_pos rfl, Finset.sum_const_zero]

theorem owed_sum_recv (c : Dev nD) (i : Fin 12) : ∑ d : Dev nD, O₀ d (recvCell c i) () = N := by
  simp only [O₀, O₁, Pi.add_apply, Finsupp.add_apply, Finset.sum_add_distrib]
  rw [sum_owedFrom, payOrder_count, Nat.one_mul, sum_tallyAt xn xn_xn, sum_tallyAt yn yn_yn, if_neg (recv_ne_bar i), Nat.add_zero]

theorem launch_eq (g : GSem nD τ sig) (k : ℕ) (h : ∑ d : Dev nD, O₀ d g () = k) :
    tallyOn g (launchCredit (Pipeline.owing O₀) 0 g) = (tallyAt g () k : CellTallies nD τ sig Unit) := by
  unfold tallyAt; refine congrArg _ (Finsupp.ext fun u => ?_); cases u
  rw [Pipeline.launchCredit_owing, Finsupp.single_eq_same, h]

def recvEmb : Fin 12 ↪ SemLoc sig := ⟨fun i => .dma (recvS i), fun i j h => recvS_inj (SemLoc.dma.inj h)⟩

omit [FloatOps F] in

theorem creds (c : Dev nD) :
    (Pipeline.launchCred O₀ c : sProp 𝕄)
      ⊢ iprop(cred (tallyAt (barCell c) () 2) ∗ bigSep Finset.univ (fun i : Fin 12 => cred (tallyAt (recvCell c i) () N))) := by
  unfold Pipeline.launchCred
  rw [bigSep_univ_at _ (SemLoc.reg barS), launch_eq _ 2 (owed_sum_bar c)]
  refine sep_mono_right ?_
  have hsub : Finset.univ.map recvEmb ⊆ Finset.univ.erase (SemLoc.reg barS : SemLoc sig) := fun sm hsm => by
    obtain ⟨i, -, rfl⟩ := Finset.mem_map.mp hsm
    exact Finset.mem_erase.mpr ⟨recv_ne_bar i, Finset.mem_univ _⟩
  refine (bigSep_subset hsub).trans ?_
  rw [BI.bigSep_map recvEmb]
  exact Entails.of_eq (bigSep_congr fun i _ => congrArg cred (launch_eq _ N (owed_sum_recv c i)))

end Cert.KernelIdeal.AllReduce

end
-- ==== Proof.Ghost.lean ====
import proofs.«900178_g7700000000000179_dist_full2d_reduce_m2048_n1024_v7x_xy2x2_bf16_1_alg».proof.Proof.Levels
import proofs.«900178_g7700000000000179_dist_full2d_reduce_m2048_n1024_v7x_xy2x2_bf16_1_alg».proof.Proof.Gen.KernelIdeal.Frame

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

abbrev 𝒱₀ : Variants := Variants.none

abbrev CIx : Type := Option (Bool × Fin 12)
abbrev bI : CIx := none
abbrev sI (i : Fin 12) : CIx := some (false, i)
abbrev rI (i : Fin 12) : CIx := some (true, i)
def csem : CIx → SemLoc sig
  | none => .reg barS
  | some (false, i) => .dma (sendS i)
  | some (true, i) => .dma (recvS i)
abbrev kcell (ck : Dev nD × CIx) : GSem nD τ sig := ((ck.1 : Thread nD τ), csem ck.2)

variable (K : Dev nD × CIx → ℕ)

/-- What every device knows for good: every cell's invariant, and that every cell has reached round 0. -/
def records : sProp 𝕄 :=
  iprop((bigSep Finset.univ fun ck : Dev nD × CIx => cellInv ER (Rd m) (K ck) (kcell ck))
    ∗ bigSep Finset.univ fun ck : Dev nD × CIx => reached ER (kcell ck) 0)

instance records_persistent : BI.Persistent (records m K) := by unfold records; infer_instance

theorem inv_at (ck : Dev nD × CIx) : records m K ⊢ cellInv ER (Rd m) (K ck) (kcell ck) := by
  unfold records; exact sep_elim_left.trans (bigSep_elim (Finset.mem_univ ck))
theorem reached_at (ck : Dev nD × CIx) : records m K ⊢ (reached ER (kcell ck) 0 : sProp 𝕄) := by
  unfold records; exact sep_elim_right.trans (bigSep_elim (Finset.mem_univ ck))

/-- The cells of copy (p, r) as its issuer holds them before issue: both positions, the receive credit, the tokens of the two duties it pays. -/
def cp0 (c : Dev nD) (p : Fin 6) (r : Fin 2) : sProp 𝕄 :=
  iprop(atPos ER (sendCell c (semIx p r)) 0 ∅ 0 ∗ atPos ER (recvCell c (semIx p r)) 0 ∅ 0 ∗ cred (tallyAt (recvCell c (semIx p r)) () N)
    ∗ dutyTok ER (sendCell c (semIx p r)) 0 false ∗ dutyTok ER (recvCell (peer p c) (semIx p r)) 0 false)
/-- Once issued: the tokens spent, the send credit held. -/
def cp1 (c : Dev nD) (p : Fin 6) (r : Fin 2) : sProp 𝕄 :=
  iprop(atPos ER (sendCell c (semIx p r)) 0 ∅ 0 ∗ atPos ER (recvCell c (semIx p r)) 0 ∅ 0 ∗ cred (tallyAt (recvCell c (semIx p r)) () N)
    ∗ cred (tallyAt (sendCell c (semIx p r)) () N))
/-- Once its send cell is waited and closed. -/
def cp2 (c : Dev nD) (p : Fin 6) (r : Fin 2) : sProp 𝕄 :=
  iprop(semVal (sendCell c (semIx p r)) 0 ∗ atPos ER (recvCell c (semIx p r)) 0 ∅ 0 ∗ cred (tallyAt (recvCell c (semIx p r)) () N))
/-- Once both cells are closed. -/
def cp3 (c : Dev nD) (p : Fin 6) (r : Fin 2) : sProp 𝕄 :=
  iprop(semVal (sendCell c (semIx p r)) 0 ∗ semVal (recvCell c (semIx p r)) 0)

def barToks (c : Dev nD) : sProp 𝕄 := iprop(dutyTok ER (barCell (yn c)) 0 false ∗ dutyTok ER (barCell (xn c)) 0 true)

def linear (c : Dev nD) : sProp 𝕄 :=
  iprop(atPos ER (barCell c) 0 ∅ 0 ∗ barToks c ∗ cred (tallyAt (barCell c) () 2)
    ∗ bigSep Finset.univ fun pr : Fin 6 × Fin 2 => cp0 c pr.1 pr.2)

def start (c : Dev nD) : sProp 𝕄 := iprop((∃ K, records m K ∗ linear c) ∗ levAts L lv)

def Φ₀ (c : Dev nD) : sProp 𝕄 := iprop(start m c ∗ ∃ f : RC F, (((c : Thread nD τ).loc cc0_scratch0) ↦{fullShare} f))

def Φ₁ (c : Dev nD) : sProp 𝕄 :=
  iprop((∃ f : RC F, (((c : Thread nD τ).loc cc0_scratch0) ↦{fullShare} f)) ∗ bigSep Finset.univ fun pr : Fin 6 × Fin 2 => cp3 c pr.1 pr.2)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((records m K ∗ linear c ∗ levAts L lv ∗ ∃ f : RC F, (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xs m c) ∗ stg c cc0_stg1_0 (outAt m c))

/-- The state once the first exchange is issued: every chunk rounded, the four given away gone with their copies. -/
def mid1 (c : Dev nD) : sProp 𝕄 :=
  iprop(records m K ∗ levAts L lv ∗ atPos ER (barCell c) 1 ∅ 0
    ∗ (cp1 c 0 0 ∗ cp1 c 0 1 ∗ cp1 c 1 0 ∗ cp1 c 1 1)
    ∗ (cp0 c 2 0 ∗ cp0 c 2 1 ∗ cp0 c 3 0 ∗ cp0 c 3 1 ∗ cp0 c 4 0 ∗ cp0 c 4 1 ∗ cp0 c 5 0 ∗ cp0 c 5 1)
    ∗ (∃ W, owes (c : Thread nD τ) (owedFrom c (payOrder.drop 4)) W)
    ∗ (((c : Thread nD τ).loc cc0_stg0_0) ↦{fullShare} xs m c)
    ∗ (oPts c (aK c 0) (cO (aK c 0) (p0 m c (aK c 0))) ∗ oPts c (aK c 1) (cO (aK c 1) (p0 m c (aK c 1)))
        ∗ oPts c (bK c 0) (cO (bK c 0) (p0 m c (bK c 0))) ∗ oPts c (bK c 1) (cO (bK c 1) (p0 m c (bK c 1))))
    ∗ ((∃ f : RC F, rPts (yn c) (sl 2 0) f) ∗ (∃ f : RC F, rPts (yn c) (sl 2 1) f)
        ∗ (∃ f : RC F, rPts (xn c) (sl 3 0) f) ∗ (∃ f : RC F, rPts (xn c) (sl 3 1) f)))

/-- The state once the first exchange is received and added in and the second is issued, its first send waited. -/
def mid2 (c : Dev nD) : sProp 𝕄 :=
  iprop(records m K ∗ levAts L lv ∗ atPos ER (barCell c) 1 ∅ 0
    ∗ (cp3 c 0 0 ∗ cp3 c 0 1 ∗ cp3 c 1 0 ∗ cp3 c 1 1)
    ∗ (cp2 c 2 0 ∗ cp1 c 2 1 ∗ cp1 c 3 0 ∗ cp1 c 3 1)
    ∗ (cp0 c 4 0 ∗ cp0 c 4 1 ∗ cp0 c 5 0 ∗ cp0 c 5 1)
    ∗ (∃ W, owes (c : Thread nD τ) (owedFrom c (payOrder.drop 8)) W)
    ∗ (((c : Thread nD τ).loc cc0_stg0_0) ↦{fullShare} xs m c)
    ∗ oPts c (aK c 0) (cO (aK c 0) (pa m c 0))
    ∗ (rPts c (sl 0 0) (cR (sl 0 0) (srcVal m 0 (xn c) 0)) ∗ rPts c (sl 0 1) (cR (sl 0 1) (srcVal m 0 (xn c) 1))
        ∗ rPts c (sl 1 0) (cR (sl 1 0) (srcVal m 1 (yn c) 0)) ∗ rPts c (sl 1 1) (cR (sl 1 1) (srcVal m 1 (yn c) 1)))
    ∗ (oPts (xn c) (srcCh 0 (xn c) 0) (cO (srcCh 0 (xn c) 0) (srcVal m 0 (xn c) 0)) ∗ oPts (xn c) (srcCh 0 (xn c) 1) (cO (srcCh 0 (xn c) 1) (srcVal m 0 (xn c) 1))
        ∗ oPts (yn c) (srcCh 1 (yn c) 0) (cO (srcCh 1 (yn c) 0) (srcVal m 1 (yn c) 0)) ∗ oPts (yn c) (srcCh 1 (yn c) 1) (cO (srcCh 1 (yn c) 1) (srcVal m 1 (yn c) 1))))

omit [FloatOps F] in
theorem bigSep_pr (Φ : Fin 6 × Fin 2 → sProp 𝕄) :
    bigSep Finset.univ Φ = iprop(Φ (0, 0) ∗ Φ (0, 1) ∗ Φ (1, 0) ∗ Φ (1, 1) ∗ Φ (2, 0) ∗ Φ (2, 1) ∗ Φ (3, 0) ∗ Φ (3, 1) ∗ Φ (4, 0) ∗ Φ (4, 1) ∗ Φ (5, 0) ∗ Φ (5, 1)) :=
  bigSep_univ_eq_bigSepL [(0, 0), (0, 1), (1, 0), (1, 1), (2, 0), (2, 1), (3, 0), (3, 1), (4, 0), (4, 1), (5, 0), (5, 1)] (by decide) (by decide) Φ

end Cert.KernelIdeal.AllReduce

end
-- ==== Proof.Launch.lean ====
import proofs.«900178_g7700000000000179_dist_full2d_reduce_m2048_n1024_v7x_xy2x2_bf16_1_alg».proof.Proof.Ghost
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def semEquiv : Fin 6 × Fin 2 ≃ Fin 12 where
  toFun pr := semIx pr.1 pr.2
  invFun i := (phaseOf i, copyOf i)
  left_inv pr := Prod.ext (phaseOf_semIx pr.1 pr.2) (copyOf_semIx pr.1 pr.2)
  right_inv := by intro i; revert i; decide

theorem bigSep_sem (Φ : Fin 12 → sProp 𝕄) :
    bigSep Finset.univ Φ = bigSep Finset.univ fun pr : Fin 6 × Fin 2 => Φ (semIx pr.1 pr.2) :=
  bigSep_univ_equiv semEquiv Φ

theorem bigSep_bool (Φ : Bool → sProp 𝕄) : bigSep Finset.univ Φ = iprop(Φ false ∗ Φ true) :=
  bigSep_univ_eq_bigSepL [false, true] (by decide) (by decide) Φ

theorem bigSep_option {α : Type} [Fintype α] (Φ : Option α → sProp 𝕄) :
    bigSep Finset.univ Φ = iprop(bigSep Finset.univ (fun a => Φ (some a)) ∗ Φ none) := by
  rw [bigSep_univ_equiv (Equiv.optionEquivSumPUnit.{0, 0} α).symm Φ, bigSep_univ_sum, bigSep_univ_of_subsingleton PUnit.unit.{1}]
  rfl

theorem bigSep_bi (Φ : Bool × Fin 12 → sProp 𝕄) :
    bigSep Finset.univ Φ = iprop((bigSep Finset.univ fun pr : Fin 6 × Fin 2 => Φ (false, semIx pr.1 pr.2))
      ∗ bigSep Finset.univ fun pr : Fin 6 × Fin 2 => Φ (true, semIx pr.1 pr.2)) := by
  rw [bigSep_univ_prod, bigSep_bool, bigSep_sem (fun i => Φ (false, i)), bigSep_sem (fun i => Φ (true, i))]

theorem bigSep_cells (c : Dev nD) (Φ : GSem nD τ sig → sProp 𝕄) :
    (bigSep Finset.univ fun k : CIx => Φ (kcell (c, k)))
      = iprop(((bigSep Finset.univ fun pr : Fin 6 × Fin 2 => Φ (sendCell c (semIx pr.1 pr.2)))
        ∗ bigSep Finset.univ fun pr : Fin 6 × Fin 2 => Φ (recvCell c (semIx pr.1 pr.2))) ∗ Φ (barCell c)) := by
  rw [bigSep_option, bigSep_bi]; rfl

abbrev osem : Bool × Fin 12 → SemLoc sig := fun bi => csem (some bi)

theorem csem_injective : Function.Injective csem :=
  Function.LeftInverse.injective (g := fun s => match kindOf s with | .send i => sI i | .recv i => rI i | _ => bI) fun k => by
    rcases k with _ | ⟨_ | _, i⟩ <;> simp only [csem, kindOf_bar, kindOf_send, kindOf_recv]

theorem ownSemFacts : Pipeline.OwnSemFacts cfg0.spec osem :=
  ⟨by decide, fun a b h => Option.some_injective _ (csem_injective h), by decide⟩

theorem share_eq (c : Dev nD) (w : Fin cfg0.W) : (dats m ρ 0 c).share w = fullShare := by unfold Dat.share; split <;> rfl

theorem kcell_injective : Function.Injective (kcell : Dev nD × CIx → GSem nD τ sig) :=
  fun _ _ h => Prod.ext (congrArg (fun g : GSem nD τ sig => g.1.1) h) (csem_injective (congrArg Prod.snd h))
def protoCells : Finset (GSem nD τ sig) := Finset.univ.map ⟨kcell, kcell_injective⟩

def tokOf (ct : Dev nD × Option CIx) : GSem nD τ sig × ℕ × Bool := (kcell (ct.1, ct.2.getD bI), 0, ct.2.isNone)
theorem tokOf_injective : Function.Injective (tokOf : Dev nD × Option CIx → GSem nD τ sig × ℕ × Bool) := by
  rintro ⟨c, t⟩ ⟨c', t'⟩ h
  obtain ⟨rfl, hk⟩ := Prod.ext_iff.mp (kcell_injective (Prod.ext_iff.mp h).1)
  have hd : t.isNone = t'.isNone := (Prod.ext_iff.mp (Prod.ext_iff.mp h).2).2
  cases t <;> cases t' <;> first | rfl | exact congrArg (fun k => (c, some k)) hk | cases hd
def protoToks : Finset (GSem nD τ sig × ℕ × Bool) := Finset.univ.map ⟨tokOf, tokOf_injective⟩

def u₀ : UU :=
  (initOf (Pipeline.cells cfgs cellOf_inj) (Pipeline.launchToks cfgs cellOf_inj), initOf protoCells protoToks)

def toks (c : Dev nD) : sProp 𝕄 :=
  iprop((bigSep Finset.univ fun k : CIx => dutyTok ER (kcell (c, k)) 0 false) ∗ dutyTok ER (barCell c) 0 true)

def GG (P : GSem nD τ sig → sProp 𝕄) (c : Dev nD) : sProp 𝕄 :=
  iprop((bigSep Finset.univ fun k : CIx => P (kcell (c, k)))
    ∗ (bigSep Finset.univ fun k : CIx => iprop(atPos ER (kcell (c, k)) 0 ∅ 0 ∗ reached ER (kcell (c, k)) 0)) ∗ toks c)
abbrev G : Dev nD → sProp 𝕄 := GG fun g => roundState ER (Rd m) g 0
abbrev G₁ : Dev nD → sProp 𝕄 := GG fun g => iprop(∃ κ : ℕ, cellInv ER (Rd m) κ g)

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : CIx => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]; exact bigSep_congr fun c _ => bigSep_option _
  refine (Rounds.fund ER (Rd m) protoCells protoToks).trans (Laws.bupd_mono ?_)
  rw [hX, hX, hX, hT]
  unfold G GG; simp only [bigSep_sep']
  iintro ⟨Hst, Hr, Hat, Htok⟩; iframe

theorem sems0_eq (c : Dev nD) :
    (iprop(Pipeline.ownSems0 osem c ∗ unscopedSems0 c) : sProp 𝕄) ⊢ bigSep Finset.univ fun k : CIx => semVal (kcell (c, k)) 0 := by
  unfold unscopedSems0 Pipeline.ownSems0
  rw [bigSep_eq_bigSepL_of_eq [SemLoc.reg barS] (by decide) (by decide), bigSep_option]
  exact Entails.of_eq rfl

theorem core_alloc (c : Dev nD) : (iprop(Pipeline.ownSems0 osem c ∗ unscopedSems0 c ∗ G m c) : sProp 𝕄) ⊢ |={Set.univ}=> G₁ m c :=
  sep_assoc.2.trans <| (sep_mono_left (sems0_eq c)).trans <| sep_assoc.2.trans <|
    (sep_mono_left <| (Entails.of_eq (bigSep_sep' _ _ _).symm).trans <|
      (bigSep_mono fun k _ => (Rounds.body_intro ER (Rd m) (kcell (c, k))).trans inv_alloc).trans (bigSep_fupd _ _)).trans fupd_frame_right

def payToks (c : Dev nD) : sProp 𝕄 :=
  iprop(barToks c ∗ (bigSep Finset.univ fun pr : Fin 6 × Fin 2 => dutyTok ER (sendCell c (semIx pr.1 pr.2)) 0 false)
    ∗ bigSep Finset.univ fun pr : Fin 6 × Fin 2 => dutyTok ER (recvCell (peer pr.1 c) (semIx pr.1 pr.2)) 0 false)

def G' (c : Dev nD) : sProp 𝕄 :=
  iprop(∃ K, records m K ∗ (bigSep Finset.univ fun k : CIx => atPos ER (kcell (c, k)) 0 ∅ 0) ∗ payToks c)

theorem bigSep_peer (Φ : Dev nD → Fin 6 × Fin 2 → sProp 𝕄) :
    (bigSep Finset.univ fun c : Dev nD => bigSep Finset.univ fun pr : Fin 6 × Fin 2 => Φ c pr)
      = bigSep Finset.univ fun c : Dev nD => bigSep Finset.univ fun pr : Fin 6 × Fin 2 => Φ (peer pr.1 c) pr := by
  rw [bigSep_univ_comm, bigSep_univ_comm (fun c pr => Φ (peer pr.1 c) pr)]
  exact bigSep_congr fun pr _ => bigSep_univ_equiv ⟨peer pr.1, peer pr.1, peer_peer pr.1, peer_peer pr.1⟩ (fun c => Φ c pr)

theorem toks_around : (bigSep Finset.univ fun c : Dev nD => (toks c : sProp 𝕄)) ⊢ bigSep Finset.univ fun c : Dev nD => payToks c := by
  unfold payToks barToks toks
  simp only [bigSep_cells _ fun g => dutyTok ER g 0 false, bigSep_sep']
  rw [bigSep_univ_equiv yEquiv (fun c : Dev nD => (dutyTok ER (barCell c) 0 false : sProp 𝕄)),
    bigSep_univ_equiv xEquiv (fun c : Dev nD => (dutyTok ER (barCell c) 0 true : sProp 𝕄)),
    bigSep_peer (fun c pr => (dutyTok ER (recvCell c (semIx pr.1 pr.2)) 0 false : sProp 𝕄))]
  iintro ⟨⟨⟨HS, HR⟩, Hf⟩, Ht⟩; iframe HS HR
  isplitl [Hf]; · iexact Hf
  iexact Ht

theorem regroup : (bigSep Finset.univ (G₁ m) : sProp 𝕄) ⊢ bigSep Finset.univ (G' m) := by
  unfold G₁ GG
  simp only [bigSep_sep']
  rw [← bigSep_univ_prod (fun ck : Dev nD × CIx => iprop(∃ κ : ℕ, cellInv ER (Rd m) κ (kcell ck))),
    ← bigSep_univ_prod (fun ck : Dev nD × CIx => (reached ER (kcell ck) 0 : sProp 𝕄))]
  iintro ⟨HI, ⟨Hat, #HR⟩, Htok⟩
  ihave HK := (BI.bigSep_exists_pi _ _) $$ HI
  icases HK with ⟨%K, #HI⟩
  ihave Htk := (toks_around (F := F)) $$ Htok
  iapply (bigSep_with_persistent (R := records m K) fun c _ => by unfold G'; iintro H; iexists K; iexact H)
  simp only [records, bigSep_sep']; iframe ∗ #

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' linear payToks cp0
  rw [bigSep_cells c fun g => atPos ER g 0 ∅ 0]
  simp only [bigSep_sep']
  iintro ⟨-, Hlev, Hcr, -, %K, Hrec, ⟨⟨HaS, HaR⟩, HaB⟩, Hbt, HtS, HtR⟩
  ihave Hc := ((creds (F := F) c).trans (sep_mono_right (Entails.of_eq (bigSep_sem _)))) $$ Hcr
  imodintro
  iframe Hlev
  iexists K; iframe

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩; iframe

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, Pipeline.ownSems0, bigSep_bi]
  unfold Φ₁ cp3
  rw [bigSep_sep']
  iintro ⟨Hr, HzS, HzV⟩; iframe Hr
  isplitl [HzS]; · iexact HzS
  iexact HzV

theorem lv_stage (c : Dev nD) (w : Fin cfg0.W) (s : Fin (cfg0.win w).nbuf) :
    lv ((c : Thread nD τ), .dma ((cfg0.win w).sem s)) () = 0 := by
  fin_cases w <;> fin_cases s <;> (revert c; decide)

theorem waits (c : Dev nD) : (levAts L lv : sProp 𝕄) ⊢ Pipeline.cellsWaits cfgs (dats m ρ) () 0 c :=
  Pipeline.cellsWaits_intro cfgs (dats m ρ) () 0 c fun w s t =>
    mayWait_low c _ (lv_stage c w s) _ (by rcases t with ⟨_ | _, ht⟩; exacts [.inl rfl, .inr rfl])

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Given one device's body, the whole mesh runs: every device's ghost state is allocated and dealt, the tokens of a cell's duties going to the peers that pay them. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro; iframe)
    (hglob := ((bigSep_mono fun c _ => core_alloc m c).trans (bigSep_fupd _ _)).trans (BI.fupd_mono (regroup m)))
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro; iframe)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

theorem finalA_out (c : Dev nD) : finalA m ρ c (1 : Fin 2) = outAt m c := by
  have h := (dats (F := F) m ρ 0 c).arrAt_succ (1 : Fin 2) t₀
  rw [flush0_1 t₀, if_pos rfl] at h
  refine Eq.trans (show finalA m ρ c (1 : Fin 2) = (dats m ρ 0 c).arrAt (1 : Fin 2) (t₀.val + 1) from rfl) (h.trans ?_)
  exact Memref.write_access_unit_zero_univ (Elt F) main_v1 (funext fun a => Nat.zero_mul _) _ _ _

end Cert.KernelIdeal.AllReduce

end
-- ==== Proof.Rules.lean ====
import proofs.«900178_g7700000000000179_dist_full2d_reduce_m2048_n1024_v7x_xy2x2_bf16_1_alg».proof.Proof.Ghost

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

theorem wp_load_x (c : Dev nD) (j : Fin 8) (off : Fin 2 → Nat) (hoff : off = chunkOff j) (inb : ∀ a, off a + S256x1024.size a ≤ S2048x1024.size a)
    {hl}
    {α : Type} {Q : α → sProp 𝕄} {k : Vec F S256x1024 .f32 → Prog (TpuEff nD τ sig (Elt F) Λ₀ .tc) α} :
    (((c : Thread nD τ).loc cc0_stg0_0) ↦{fullShare} xs m c : sProp 𝕄)
      ⊢ iprop((((((c : Thread nD τ).loc cc0_stg0_0) ↦{fullShare} xs m c)) -∗ wp frame (wpE (defs₀ (F := F)) 𝒱₀ (c : Thread nD τ) none) Set.univ (k (xRead j (xs m c))) Q)
          -∗ wp frame (wpE (defs₀ (F := F)) 𝒱₀ (c : Thread nD τ) none) Set.univ
              (.op (.load xM (Rect.unit (s := S2048x1024) off S256x1024.size inb).toLoadRect hl) k) Q) := by
  subst hoff
  exact wp_load_rect (defs := defs₀ (F := F)) 𝒱₀ (c : Thread nD τ) none Set.univ (m := xM) (r := chunkRect j) (hl := hl) (k := k)
    (S := Finset.univ) (q := fullShare) (f := xs m c) (Finset.subset_univ _)

theorem wp_load_o (c : Dev nD) (j : Fin 8) (off : Fin 2 → Nat) (hoff : off = chunkOff j) (inb : ∀ a, off a + S256x1024.size a ≤ S2048x1024.size a)
    (f : OC F) {hl}
    {α : Type} {Q : α → sProp 𝕄} {k : Vec F S256x1024 .bf16 → Prog (TpuEff nD τ sig (Elt F) Λ₀ .tc) α} :
    (oPts c j f : sProp 𝕄)
      ⊢ iprop((oPts c j f -∗ wp frame (wpE (defs₀ (F := F)) 𝒱₀ (c : Thread nD τ) none) Set.univ (k ((oCh j).view.read (Elt F) f)) Q)
          -∗ wp frame (wpE (defs₀ (F := F)) 𝒱₀ (c : Thread nD τ) none) Set.univ
              (.op (.load oM (Rect.unit (s := S2048x1024) off S256x1024.size inb).toLoadRect hl) k) Q) := by
  subst hoff
  unfold oPts
  exact wp_load_rect (defs := defs₀ (F := F)) 𝒱₀ (c : Thread nD τ) none Set.univ (m := oM) (r := chunkRect j) (hl := hl) (k := k)
    (S := (oCh j).view.set) (q := fullShare) (f := f) (Finset.Subset.refl _)

theorem wp_store_o (c : Dev nD) (j : Fin 8) (off : Fin 2 → Nat) (hoff : off = chunkOff j) (inb : ∀ a, off a + S256x1024.size a ≤ S2048x1024.size a)
    (f : OC F) (w : Vec F S256x1024 .bf16)
    {hx hm}
    {α : Type} {Q : α → sProp 𝕄} {k : PUnit → Prog (TpuEff nD τ sig (Elt F) Λ₀ .tc) α} :
    (oPts c j f : sProp 𝕄)
      ⊢ iprop((oPts c j (cO j w) -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S2048x1024) off S256x1024.size inb) w Finset.univ hx hm) k) Q) := by
  subst hoff
  rw [← oPts_norm c j f w]
  unfold oPts
  exact wp_store (defs := defs₀ (F := F)) 𝒱₀ (c : Thread nD τ) none Set.univ (m := oM) (r := chunkRect j) (w := w) (Mk := Finset.univ)
    (hx := hx) (hm := hm) (k := k) (S := (oCh j).view.set) (f := f) (Finset.Subset.refl _)

theorem wp_load_slot (c : Dev nD) (k' : Fin 8) (f : RC F)
    {hl}
    {α : Type} {Q : α → sProp 𝕄} {k : Vec F S1x256x1024 .bf16 → Prog (TpuEff nD τ sig (Elt F) Λ₀ .tc) α} :
    (rPts c k' f : sProp 𝕄)
      ⊢ iprop((rPts c k' f -∗ wp frame (wpE (defs₀ (F := F)) 𝒱₀ (c : Thread nD τ) none) Set.univ (k (sRead k' f)) Q)
          -∗ wp frame (wpE (defs₀ (F := F)) 𝒱₀ (c : Thread nD τ) none) Set.univ
              (.op (.load rM (slotRect k').toLoadRect hl) k) Q) := by
  unfold rPts
  exact wp_load_rect (defs := defs₀ (F := F)) 𝒱₀ (c : Thread nD τ) none Set.univ (m := rM) (r := slotRect k') (hl := hl) (k := k)
    (S := (rSl k').view.set) (q := fullShare) (f := f) (View.set_reshape _ _).symm.subset

theorem wait_core (c : Dev nD) (s : DmaSem sig) {κ P} (O W)
    (hinv : records m K ⊢ cellInv ER (Rd m) κ (c, .dma s)) (hexp : (Rd m).expect (c, .dma s) 0 = N)
    (hrest : bigSep ((Rd m).duties (c, .dma s) 0 \ ∅) (fun d => (Rd m).payload (c, .dma s) 0 d) = P)
    {sp' s' e' κ' sp sh e} {src : Memref sig .tc sp' s' e'} {dst : Memref sig κ' sp sh e} {hsrc hdst}
    (hN : dst.view.dmaCredit = N) {α} {Q : α → sProp 𝕄} {k : PUnit → Prog (TpuEff nD τ sig (Elt F) Λ₀ .tc) α} :
    iprop(records m K ∗ cred (tallyAt (c, .dma s) () N) ∗ owes c O W ∗ MayWait c (.dma s) () O ∗ atPos ER (c, .dma s) 0 ∅ 0)
      ⊢ iprop(((owes c O (insert (.dma s, ()) W) ∗ semVal (c, .dma s) 0 ∗ P) -∗ wp frame (wpE (defs₀ (F := F)) 𝒱₀ c none) Set.univ (k ⟨⟩) Q)
          -∗ wp frame (wpE (defs₀ (F := F)) 𝒱₀ c none) Set.univ (.op (.waitDma2 s src dst hsrc hdst) k) Q) := by
  subst hrest
  iintro ⟨#Hrec, Hc, HL, Hlev, Hat⟩ Hk
  ihave #Hi := hinv $$ Hrec
  iapply (wp_wait_rest_token 𝒱₀ ER (Rd m) c none (w := .waitDma2 s src dst hsrc hdst) (sm := .dma s) (k' := N) (fun _ => by rw [← hN]; rfl) (Set.mem_univ κ) () (R := 0) (T := ∅) (m := 0)
    (by rw [Nat.zero_add, hexp])) $$ [Hc HL Hlev Hat]
  · iframe ∗ #
  iintro ⟨HL, Hat, -, Hrest⟩
  imod (cell_close ER (Rd m) (Set.mem_univ κ) (fun h => h) (R := 0 + 1) (duties_later m _)) $$ [Hat] with Hv
  · iframe ∗ #
  iapply Hk
  iframe ∗

theorem send_pre (a b : Dev nD × CIx) {A B C D E : sProp 𝕄} :
    iprop(records m K ∗ A ∗ B ∗ C ∗ D ∗ E) ⊢ iprop(cellInv ER (Rd m) (K a) (kcell a) ∗ cellInv ER (Rd m) (K b) (kcell b)
      ∗ A ∗ B ∗ C ∗ D ∗ reached ER (kcell a) 0 ∗ E ∗ reached ER (kcell b) 0) := by
  iintro ⟨#H, HA, HB, HC, HD, HE⟩
  ihave #H₁ := inv_at m K a $$ H
  ihave #H₂ := inv_at m K b $$ H
  ihave #H₃ := reached_at m K a $$ H
  ihave #H₄ := reached_at m K b $$ H
  iframe ∗ #

theorem step_of {R A₁ A₂ A₃ T₁ T₂ S D O C G Wk Wop : sProp 𝕄} (h : iprop(R ∗ S ∗ D ∗ O ∗ T₁ ∗ T₂) ⊢ iprop((iprop(C ∗ G) -∗ Wk) -∗ Wop)) :
    R ⊢ iprop(iprop(A₁ ∗ A₂ ∗ A₃ ∗ T₁ ∗ T₂) -∗ S -∗ D -∗ O -∗ (iprop(iprop(A₁ ∗ A₂ ∗ A₃ ∗ C) ∗ G) -∗ Wk) -∗ Wop) := by
  iintro HR ⟨H₁, H₂, H₃, HT₁, HT₂⟩ HS HD HO Hk
  iapply h $$ [HR HS HD HO HT₁ HT₂]
  · iframe ∗
  iintro ⟨HC, HG⟩
  iapply Hk
  iframe ∗

local notation "WP[" c "]" => wp frame (wpE (defs₀ (F := F)) 𝒱₀ (c : Thread nD τ) none) Set.univ

theorem credit_chunk (off : Fin 2 → Nat) (inb : ∀ a, off a + S256x1024.size a ≤ S2048x1024.size a) :
    (oM.slice (Rect.unit (s := S2048x1024) off S256x1024.size inb) (fun _ => rfl)).view.dmaCredit = N := rfl
theorem credit_slot (k : Fin 8) : (rSl k).view.dmaCredit = N := rfl
theorem recvPay0 (c : Dev nD) (r : Fin 2) : recvPay m 0 c r =
    iprop(rPts c (sl 0 r) (cR (sl 0 r) (srcVal m 0 (xn c) r)) ∗ oPts (xn c) (srcCh 0 (xn c) r) (cO (srcCh 0 (xn c) r) (srcVal m 0 (xn c) r))) := rfl
theorem recvPay1 (c : Dev nD) (r : Fin 2) : recvPay m 1 c r =
    iprop(rPts c (sl 1 r) (cR (sl 1 r) (srcVal m 1 (yn c) r)) ∗ oPts (yn c) (srcCh 1 (yn c) r) (cO (srcCh 1 (yn c) r) (srcVal m 1 (yn c) r))) := rfl
theorem recvPay2 (c : Dev nD) (r : Fin 2) : recvPay m 2 c r = rPts c (sl 2 r) (cR (sl 2 r) (srcVal m 2 (yn c) r)) := rfl
theorem recvPay3 (c : Dev nD) (r : Fin 2) : recvPay m 3 c r = rPts c (sl 3 r) (cR (sl 3 r) (srcVal m 3 (xn c) r)) := rfl
theorem recvPay4 (c : Dev nD) (r : Fin 2) : recvPay m 4 c r = oPts c (aS c r) (cO (aS c r) (fa m (xn c) r)) := by
  show oPts c (srcCh 4 (xn c) r) (cO (srcCh 4 (xn c) r) (srcVal m 4 (xn c) r)) = _
  rw [srcCh4_xn, srcVal4_xn]
theorem recvPay5 (c : Dev nD) (r : Fin 2) : recvPay m 5 c r = oPts c (bS c r) (cO (bS c r) (fb m (yn c) r)) := by
  show oPts c (srcCh 5 (yn c) r) (cO (srcCh 5 (yn c) r) (srcVal m 5 (yn c) r)) = _
  rw [srcCh5_yn, srcVal5_yn]
theorem sendPay2 (c : Dev nD) (r : Fin 2) : sendPay m 2 c r = oPts c (aK c r) (cO (aK c r) (pa m c r)) := if_neg (by decide)
theorem sendPay3 (c : Dev nD) (r : Fin 2) : sendPay m 3 c r = oPts c (bK c r) (cO (bK c r) (pb m c r)) := if_neg (by decide)
theorem sendPay4 (c : Dev nD) (r : Fin 2) : sendPay m 4 c r = oPts c (aK c r) (cO (aK c r) (fa m c r)) := if_neg (by decide)
theorem sendPay5 (c : Dev nD) (r : Fin 2) : sendPay m 5 c r = oPts c (bK c r) (cO (bK c r) (fb m c r)) := if_neg (by decide)

/-- A copy's send wait: nothing still owed lies below a send cell. -/
theorem step_wait_send (c : Dev nD) (p : Fin 6) (r : Fin 2) (l : List (Fin 6 × Fin 2)) (W : Waits sig Unit)
    (S : sProp 𝕄) (hS : sendPay m p c r = S)
    {sp' : Space} {s' : Shape} {e' : EltTy} {κ : Kind} {sp : Space} {s : Shape} {e : EltTy}
    {src : Memref sig .tc sp' s' e'} {dst : Memref sig κ sp s e} {hsrc hdst}
    (hN : dst.view.dmaCredit = N)
    {α : Type} {Q : α → sProp 𝕄} {k : PUnit → Prog (TpuEff nD τ sig (Elt F) Λ₀ .tc) α} :
    records m K ⊢ iprop(levAts L lv -∗ cp1 c p r -∗ owes (c : Thread nD τ) (owedFrom c l) W
      -∗ ((owes (c : Thread nD τ) (owedFrom c l) (insert (SemLoc.dma (sendS (semIx p r)), ()) W) ∗ cp2 c p r ∗ S) -∗ WP[c] (k ⟨⟩) Q)
      -∗ WP[c] (.op (.waitDma2 (sendS (semIx p r)) src dst hsrc hdst) k) Q) := by
  subst hS
  unfold cp1 cp2
  iintro #Hrec #Hlev ⟨Has, Har, Hcr, Hcs⟩ HO Hk
  iapply (wait_core m K c _ (owedFrom c l) W (inv_at m K (c, sI (semIx p r))) (expect_send m c p r) (rest_send m c p r) hN) $$ [Hcs HO Has]
  · iframe ∗ #; iapply (mayWait_list c (.dma (sendS (semIx p r))) l (fun pr _ => by rw [lv_send]; omega)); iexact Hlev
  iintro ⟨HO, Hv, Hpay⟩
  iapply Hk
  iframe ∗ #

/-- A copy's receive wait: allowed while every copy still owed belongs to a later exchange. -/
theorem step_wait_recv (c : Dev nD) (p : Fin 6) (r : Fin 2) (l : List (Fin 6 × Fin 2)) (W : Waits sig Unit)
    (hl : ∀ pr ∈ l, 2 + p.val / 2 < 2 + pr.1.val / 2)
    (R : sProp 𝕄) (hR : recvPay m p c r = R)
    {sp' : Space} {s' : Shape} {e' : EltTy} {κ : Kind} {sp : Space} {s : Shape} {e : EltTy}
    {src : Memref sig .tc sp' s' e'} {dst : Memref sig κ sp s e} {hsrc hdst}
    (hN : dst.view.dmaCredit = N)
    {α : Type} {Q : α → sProp 𝕄} {k : PUnit → Prog (TpuEff nD τ sig (Elt F) Λ₀ .tc) α} :
    records m K ⊢ iprop(levAts L lv -∗ cp2 c p r -∗ owes (c : Thread nD τ) (owedFrom c l) W
      -∗ ((owes (c : Thread nD τ) (owedFrom c l) (insert (SemLoc.dma (recvS (semIx p r)), ()) W) ∗ cp3 c p r ∗ R) -∗ WP[c] (k ⟨⟩) Q)
      -∗ WP[c] (.op (.waitDma2 (recvS (semIx p r)) src dst hsrc hdst) k) Q) := by
  subst hR
  unfold cp2 cp3
  iintro #Hrec #Hlev ⟨Hvs, Har, Hcr⟩ HO Hk
  iapply (wait_core m K c _ (owedFrom c l) W (inv_at m K (c, rI (semIx p r))) (expect_recv m c p r) (rest_recv m c p r) hN) $$ [Hcr HO Har]
  · iframe ∗ #; iapply (mayWait_list c (.dma (recvS (semIx p r))) l (fun pr hpr => by rw [lv_recv]; exact hl pr hpr)); iexact Hlev
  iintro ⟨HO, Hv, Hpay⟩
  iapply Hk
  iframe ∗ #

/-- Issuing copy (p, r), p < 4, into slot sl b r of the target, which the issuer holds. -/
theorem step_copy_slot (c n n' : Dev nD) (p : Fin 6) (b : Fin 4) (hb : b.val = p.val) (r : Fin 2) (hn : n = n') (hn' : n' = peer p c)
    (j : Fin 8) (hj : j = srcCh p c r) (v : Vec F S256x1024 .bf16) (hv : v = srcVal m p c r)
    (off : Fin 2 → Nat) (hoff : off = chunkOff j) (inb : ∀ a, off a + S256x1024.size a ≤ S2048x1024.size a)
    {hsc hsrc hdst hsem}
    {α : Type} {Q : α → sProp 𝕄} {k : PUnit → Prog (TpuEff nD τ sig (Elt F) Λ₀ .tc) α}
    (fn : RC F) (l' l : List (Fin 6 × Fin 2)) (hl : l' = (p, r) :: l) (W : Waits sig Unit) :
    records m K ⊢ iprop(cp0 c p r -∗ oPts c j (cO j v) -∗ rPts n' (sl b r) fn -∗ owes (c : Thread nD τ) (owedFrom c l') W
      -∗ ((cp1 c p r ∗ owes (c : Thread nD τ) (owedFrom c l) W) -∗ WP[c] (k ⟨⟩) Q)
      -∗ WP[c] (.op (.enqueueDma (oM.slice (Rect.unit (s := S2048x1024) off S256x1024.size inb) (fun _ => rfl))
              (.remote (Dev.tc n : Thread nD τ) (rSl (sl b r)) (.dma (sendS (semIx p r))) hsc) (.dma (recvS (semIx p r))) hsrc hdst hsem) k) Q) := by
  subst hn hn' hj hv hl hoff
  obtain ⟨n, rfl⟩ : ∃ n, c = peer p n := ⟨_, (peer_peer p c).symm⟩
  obtain ⟨b, hb'⟩ := b
  cases hb
  unfold cp0 cp1
  refine step_of ((send_pre m K (peer p n, sI (semIx p r)) (peer p (peer p n), rI (semIx p r))).trans
    ((sep_mono_right (sep_mono_right (sep_mono_right (sep_mono_left (pointsTo_writeUpdate _ subset_rfl))))).trans
    (wp_send_bif 𝒱₀ ER (Rd m) _ none (decide (p.val < 2)) (duties_send m _ p r ▸ Finset.mem_singleton_self _) (duties_recv m _ p r ▸ Finset.mem_singleton_self _)
      () () N rfl (amount_send m _ p r _) (amount_recv m _ p r _) (owedFrom _ l) rfl
      (by rw [payload_send, sendPay, Bool.cond_decide]; exact .rfl) ?_)))
  change (bif _ then iprop(rPts _ _ _ ∗ oPts _ _ _) else rPts _ _ _) ⊢ _
  rw [payload_recv, read_cO, rPts_norm, peer_peer]
  fin_cases p <;> first | exact .rfl | exact absurd hb' (by decide)

/-- Issuing copy (p, r), 4 ≤ p, into the same chunk of the target, which the issuer holds. -/
theorem step_copy_chunk (c n n' : Dev nD) (p : Fin 6) (hp : 4 ≤ p.val) (r : Fin 2) (hn : n = n') (hn' : n' = peer p c)
    (j : Fin 8) (hj : j = srcCh p c r) (v : Vec F S256x1024 .bf16) (hv : v = srcVal m p c r)
    (off : Fin 2 → Nat) (hoff : off = chunkOff j) (inb : ∀ a, off a + S256x1024.size a ≤ S2048x1024.size a)
    {hsc hsrc hdst hsem}
    {α : Type} {Q : α → sProp 𝕄} {k : PUnit → Prog (TpuEff nD τ sig (Elt F) Λ₀ .tc) α}
    (fd : OC F) (l' l : List (Fin 6 × Fin 2)) (hl : l' = (p, r) :: l) (W : Waits sig Unit) :
    records m K ⊢ iprop(cp0 c p r -∗ oPts c j (cO j v) -∗ oPts n' j fd -∗ owes (c : Thread nD τ) (owedFrom c l') W
      -∗ ((cp1 c p r ∗ owes (c : Thread nD τ) (owedFrom c l) W) -∗ WP[c] (k ⟨⟩) Q)
      -∗ WP[c] (.op (.enqueueDma (oM.slice (Rect.unit (s := S2048x1024) off S256x1024.size inb) (fun _ => rfl))
              (.remote (Dev.tc n : Thread nD τ) (oM.slice (Rect.unit (s := S2048x1024) off S256x1024.size inb) (fun _ => rfl)) (.dma (sendS (semIx p r))) hsc)
              (.dma (recvS (semIx p r))) hsrc hdst hsem) k) Q) := by
  subst hn hn' hj hv hl hoff
  obtain ⟨n, rfl⟩ : ∃ n, c = peer p n := ⟨_, (peer_peer p c).symm⟩
  have h2 : ¬ p.val < 2 := by omega
  unfold cp0 cp1
  refine step_of ((send_pre m K (peer p n, sI (semIx p r)) (peer p (peer p n), rI (semIx p r))).trans
    (wp_send_pointsTo 𝒱₀ ER (Rd m) _ none (duties_send m _ p r ▸ Finset.mem_singleton_self _) (duties_recv m _ p r ▸ Finset.mem_singleton_self _)
      () () N rfl (amount_send m _ p r _) (amount_recv m _ p r _) (owedFrom _ l) rfl
      (by rw [payload_send, sendPay, if_neg h2]; exact .rfl) ?_))
  change oPts _ _ _ ⊢ _
  rw [payload_recv, read_cO, oPts_norm, peer_peer]
  fin_cases p <;> first | exact .rfl | exact absurd hp (by decide)

/-- Rounding chunk j of the input into the result buffer. -/
theorem step_cast (c : Dev nD) (j : Fin 8) (off : Fin 2 → Nat) (hoff : off = chunkOff j) (inb : ∀ a, off a + S256x1024.size a ≤ S2048x1024.size a)
    (g : OC F) (pay : Vec F S256x1024 .f32 → FVec F S256x1024 .bf16) (hpay : pay = castV)
    {hlx hlo} {hx hm}
    {α : Type} {Q : α → sProp 𝕄} {k : PUnit → Prog (TpuEff nD τ sig (Elt F) Λ₀ .tc) α} :
    (((c : Thread nD τ).loc cc0_stg0_0) ↦{fullShare} xs m c : sProp 𝕄) ⊢ iprop(oPts c j g
      -∗ (((((c : Thread nD τ).loc cc0_stg0_0) ↦{fullShare} xs m c) ∗ oPts c j (cO j (p0 m c j))) -∗ WP[c] (k ⟨⟩) Q)
      -∗ WP[c] (.op (.load xM (Rect.unit (s := S2048x1024) off S256x1024.size inb).toLoadRect hlx) fun v =>
            .op (.load oM (Rect.unit (s := S2048x1024) off S256x1024.size inb).toLoadRect hlo) fun _ =>
            .op (.store oM (Rect.unit (s := S2048x1024) off S256x1024.size inb) (pay v) Finset.univ hx hm) k) Q) := by
  subst hpay
  iintro Hx Ho Hk
  iapply (wp_load_x m c j off hoff inb) $$ Hx; iintro Hx
  iapply (wp_load_o c j off hoff inb g) $$ Ho; iintro Ho
  iapply (wp_store_o c j off hoff inb g (castV (xRead j (xs m c)))) $$ Ho; iintro Ho
  iapply Hk
  iframe ∗; iexact Ho

/-- Adding what landed in slot k' to chunk j. -/
theorem step_acc (c : Dev nD) (j k' : Fin 8) (off : Fin 2 → Nat) (hoff : off = chunkOff j) (inb : ∀ a, off a + S256x1024.size a ≤ S2048x1024.size a)
    (a b : Vec F S256x1024 .bf16)
    (pay : Vec F S256x1024 .bf16 → Vec F S1x256x1024 .bf16 → FVec F S256x1024 .bf16) (hpay : pay = accV)
    (v : Vec F S256x1024 .bf16) (hv : accV a (sRead k' (cR k' b)) = v)
    {hl₁ hl₂ hls} {hx hm}
    {α : Type} {Q : α → sProp 𝕄} {k : PUnit → Prog (TpuEff nD τ sig (Elt F) Λ₀ .tc) α} :
    (oPts c j (cO j a) : sProp 𝕄) ⊢ iprop(rPts c k' (cR k' b)
      -∗ ((oPts c j (cO j v) ∗ rPts c k' (cR k' b)) -∗ WP[c] (k ⟨⟩) Q)
      -∗ WP[c] (.op (.load oM (Rect.unit (s := S2048x1024) off S256x1024.size inb).toLoadRect hl₁) fun v₁ =>
            .op (.load rM (slotRect k').toLoadRect hls) fun v₂ =>
            .op (.load oM (Rect.unit (s := S2048x1024) off S256x1024.size inb).toLoadRect hl₂) fun _ =>
            .op (.store oM (Rect.unit (s := S2048x1024) off S256x1024.size inb) (pay v₁ v₂) Finset.univ hx hm) k) Q) := by
  subst hpay hv
  iintro Ho Hr Hk
  iapply (wp_load_o c j off hoff inb (cO j a)) $$ Ho; iintro Ho
  iapply (wp_load_slot c k' (cR k' b)) $$ Hr; iintro Hr
  iapply (wp_load_o c j off hoff inb (cO j a)) $$ Ho; iintro Ho
  iapply (wp_store_o c j off hoff inb (cO j a) (accV ((oCh j).view.read (Elt F) (cO j a)) (sRead k' (cR k' b)))) $$ Ho; iintro Ho
  rw [read_cO]
  iapply Hk
  iframe ∗

end Cert.KernelIdeal.AllReduce

end
-- ==== Proof.Parts.lean ====
import proofs.«900178_g7700000000000179_dist_full2d_reduce_m2048_n1024_v7x_xy2x2_bf16_1_alg».proof.Proof.Rules

noncomputable section

namespace Cert.KernelIdeal.AllReduce

open Cert.KernelIdeal Cert.KernelIdeal.Gen
open Idealize.ShloMosaic Idealize.SL.Sem
open Idealize.ShloMosaic.TcCoe

variable {F : FTy → Type} [FloatOps F]

abbrev T1 (F : FTy → Type) [FloatOps F] : Type :=
  Σ' (d0 : Dev nD) (v2 v5 v6 v7 v8 v10 v12 v15 v25 : BitVec 32), FVec F S256x1024 .bf16

/-- A function of the body's five arguments, at the buffers the kernel is called with. -/
abbrev atBufs {β : Type 1} (f : (a0 : Memref sig .tc .vmem S2048x1024 .f32) → a0.IsWhole → (a1 : Memref sig .tc .vmem S2048x1024 .bf16) → a1.IsWhole
    → (a2 : Memref sig .tc .vmem S8x256x1024 .bf16) → a2.IsWhole → DmaSems sig S12 → DmaSems sig S12 → β) : β :=
  f (Memref.whole cc0_stg0_0) (Memref.isWhole_whole _) (Memref.whole cc0_stg1_0) (Memref.isWhole_whole _) (Memref.whole cc0_scratch0) (Memref.isWhole_whole _) cc0_scratch1 cc0_scratch2

abbrev P1 : Prog (TpuEff nD τ sig (Elt F) Λ₀ .tc) (T1 F) := atBufs (k0_part1 (F := F))
abbrev P2 (d0 : Dev nD) (v2 v5 v6 v7 v10 v15 v25 : BitVec 32) (v29 : FVec F S256x1024 .bf16) : Prog (TpuEff nD τ sig (Elt F) Λ₀ .tc) PUnit :=
  atBufs (k0_part2 (F := F)) d0 v2 v5 v6 v7 v10 v15 v25 v29
abbrev P3 (d0 : Dev nD) (v2 v5 v6 v7 v10 v15 : BitVec 32) : Prog (TpuEff nD τ sig (Elt F) Λ₀ .tc) PUnit :=
  atBufs (k0_part3 (F := F)) d0 v2 v5 v6 v7 v10 v15
abbrev P4 (d0 : Dev nD) (v8 v12 : BitVec 32) : Prog (TpuEff nD τ sig (Elt F) Λ₀ .tc) PUnit :=
  atBufs (k0_part4 (F := F)) d0 v8 v12
abbrev P5 (d0 : Dev nD) (v2 v5 v6 v7 v8 : BitVec 32) : Prog (TpuEff nD τ sig (Elt F) Λ₀ .tc) PUnit :=
  atBufs (k0_part5 (F := F)) d0 v2 v5 v6 v7 v8
abbrev P6 (d0 : Dev nD) (v2 v6 v7 v12 : BitVec 32) : Prog (TpuEff nD τ sig (Elt F) Λ₀ .tc) (Σ' (v188 : BitVec 32) , BitVec 32) :=
  atBufs (k0_part6 (F := F)) d0 v2 v6 v7 v12
abbrev P7 (d0 : Dev nD) (v5 v7 v8 v188 c0 : BitVec 32) : Prog (TpuEff nD τ sig (Elt F) Λ₀ .tc) (FVec F S256x1024 .bf16) :=
  atBufs (k0_part7 (F := F)) d0 v5 v7 v8 v188 c0
abbrev P8 (d0 : Dev nD) (v2 v6 v8 v12 : BitVec 32) (v219 : FVec F S256x1024 .bf16) : Prog (TpuEff nD τ sig (Elt F) Λ₀ .tc) (BitVec 32) :=
  atBufs (k0_part8 (F := F)) d0 v2 v6 v8 v12 v219
abbrev P9 (d0 : Dev nD) (v2 v5 v6 v7 v12 v248 : BitVec 32) : Prog (TpuEff nD τ sig (Elt F) Λ₀ .tc) PUnit :=
  atBufs (k0_part9 (F := F)) d0 v2 v5 v6 v7 v12 v248
abbrev P10 (d0 : Dev nD) (v5 v7 v8 : BitVec 32) : Prog (TpuEff nD τ sig (Elt F) Λ₀ .tc) PUnit :=
  atBufs (k0_part10 (F := F)) d0 v5 v7 v8
abbrev P11 (d0 : Dev nD) (v2 v5 v6 v7 v12 : BitVec 32) : Prog (TpuEff nD τ sig (Elt F) Λ₀ .tc) PUnit :=
  atBufs (k0_part11 (F := F)) d0 v2 v5 v6 v7 v12
abbrev P12 (d0 : Dev nD) (v2 v5 v6 v7 v8 : BitVec 32) : Prog (TpuEff nD τ sig (Elt F) Λ₀ .tc) PUnit :=
  atBufs (k0_part12 (F := F)) d0 v2 v5 v6 v7 v8
abbrev P13 (d0 : Dev nD) (v2 v5 v6 v7 v12 : BitVec 32) : Prog (TpuEff nD τ sig (Elt F) Λ₀ .tc) PUnit :=
  atBufs (k0_part13 (F := F)) d0 v2 v5 v6 v7 v12
abbrev P14 (d0 : Dev nD) (v5 v7 : BitVec 32) : Prog (TpuEff nD τ sig (Elt F) Λ₀ .tc) PUnit :=
  atBufs (k0_part14 (F := F)) d0 v5 v7

def tail15g (arg0 : Memref sig .tc .vmem S2048x1024 .f32) (harg0 : arg0.IsWhole) (arg1 : Memref sig .tc .vmem S2048x1024 .bf16) (harg1 : arg1.IsWhole) (arg2 : Memref sig .tc .vmem S8x256x1024 .bf16) (harg2 : arg2.IsWhole) (arg3 : DmaSems sig S12) (arg4 : DmaSems sig S12) (d0 : Dev nD) : Prog (TpuEff nD τ sig (Elt F) Λ₀ .tc) (Dev nD) := do
  let v425 : DmaSems sig S1 := arg4.slice (Rect.unit (s := S12) ![9] S1.size inb_S12_S1_9)
  let v426 : DmaSems sig S_ := v425.squeeze S_ squeezes_S1_S_
  let v427 : Memref sig .tc .vmem S256x1024 .bf16 := arg1.slice (Rect.unit (s := S2048x1024) (k0_off7 d0 256#32) S256x1024.size (k0_off7_inb d0 1)) (fun _ => rfl)
  let v428 : Memref sig .tc .vmem S256x1024 .bf16 := arg1.slice (Rect.unit (s := S2048x1024) (k0_off7 d0 256#32) S256x1024.size (k0_off7_inb d0 1)) (fun _ => rfl)
  Prog.lift (.waitDma2 v426.sem v428 v427 (harg1.wordExact_slice rfl _ (k0_off7_wordsbf16 d0 1)) (harg1.wordExact_slice rfl _ (k0_off7_wordsbf16 d0 1)))
  let v429 : DmaSems sig S1 := arg3.slice (Rect.unit (s := S12) ![10] S1.size inb_S12_S1_10)
  let v430 : DmaSems sig S_ := v429.squeeze S_ squeezes_S1_S_
  let v431 : Memref sig .tc .vmem S256x1024 .bf16 := arg1.slice (Rect.unit (s := S2048x1024) (k0_off8 d0 0#32) S256x1024.size (k0_off8_inb d0 0)) (fun _ => rfl)
  let v432 : Memref sig .tc .vmem S256x1024 .bf16 := arg1.slice (Rect.unit (s := S2048x1024) (k0_off8 d0 0#32) S256x1024.size (k0_off8_inb d0 0)) (fun _ => rfl)
  Prog.lift (.waitDma2 v430.sem v432 v431 (harg1.wordExact_slice rfl _ (k0_off8_wordsbf16 d0 0)) (harg1.wordExact_slice rfl _ (k0_off8_wordsbf16 d0 0)))

  let v437 : DmaSems sig S1 := arg4.slice (Rect.unit (s := S12) ![10] S1.size inb_S12_S1_10)
  let v438 : DmaSems sig S_ := v437.squeeze S_ squeezes_S1_S_
  let v439 : Memref sig .tc .vmem S256x1024 .bf16 := arg1.slice (Rect.unit (s := S2048x1024) (k0_off8 d0 0#32) S256x1024.size (k0_off8_inb d0 0)) (fun _ => rfl)
  let v440 : Memref sig .tc .vmem S256x1024 .bf16 := arg1.slice (Rect.unit (s := S2048x1024) (k0_off8 d0 0#32) S256x1024.size (k0_off8_inb d0 0)) (fun _ => rfl)
  Prog.lift (.waitDma2 v438.sem v440 v439 (harg1.wordExact_slice rfl _ (k0_off8_wordsbf16 d0 0)) (harg1.wordExact_slice rfl _ (k0_off8_wordsbf16 d0 0)))
  let v441 : DmaSems sig S1 := arg3.slice (Rect.unit (s := S12) ![11] S1.size inb_S12_S1_11)
  let v442 : DmaSems sig S_ := v441.squeeze S_ squeezes_S1_S_
  let v443 : Memref sig .tc .vmem S256x1024 .bf16 := arg1.slice (Rect.unit (s := S2048x1024) (k0_off8 d0 256#32) S256x1024.size (k0_off8_inb d0 1)) (fun _ => rfl)
  let v444 : Memref sig .tc .vmem S256x1024 .bf16 := arg1.slice (Rect.unit (s := S2048x1024) (k0_off8 d0 256#32) S256x1024.size (k0_off8_inb d0 1)) (fun _ => rfl)
  Prog.lift (.waitDma2 v442.sem v444 v443 (harg1.wordExact_slice rfl _ (k0_off8_wordsbf16 d0 1)) (harg1.wordExact_slice rfl _ (k0_off8_wordsbf16 d0 1)))

  pure d0

def tailBodyg (arg0 : Memref sig .tc .vmem S2048x1024 .f32) (harg0 : arg0.IsWhole) (arg1 : Memref sig .tc .vmem S2048x1024 .bf16) (harg1 : arg1.IsWhole) (arg2 : Memref sig .tc .vmem S8x256x1024 .bf16) (harg2 : arg2.IsWhole) (arg3 : DmaSems sig S12) (arg4 : DmaSems sig S12) (d0 : Dev nD) : Prog (TpuEff nD τ sig (Elt F) Λ₀ .tc) PUnit := do
  let v449 : DmaSems sig S1 := arg4.slice (Rect.unit (s := S12) ![11] S1.size inb_S12_S1_11)
  let v450 : DmaSems sig S_ := v449.squeeze S_ squeezes_S1_S_
  let v451 : Memref sig .tc .vmem S256x1024 .bf16 := arg1.slice (Rect.unit (s := S2048x1024) (k0_off8 d0 256#32) S256x1024.size (k0_off8_inb d0 1)) (fun _ => rfl)
  let v452 : Memref sig .tc .vmem S256x1024 .bf16 := arg1.slice (Rect.unit (s := S2048x1024) (k0_off8 d0 256#32) S256x1024.size (k0_off8_inb d0 1)) (fun _ => rfl)
  Prog.lift (.waitDma2 v450.sem v452 v451 (harg1.wordExact_slice rfl _ (k0_off8_wordsbf16 d0 1)) (harg1.wordExact_slice rfl _ (k0_off8_wordsbf16 d0 1)))
  pure ⟨⟩

abbrev tail15 (d0 : Dev nD) : Prog (TpuEff nD τ sig (Elt F) Λ₀ .tc) (Dev nD) := atBufs (tail15g (F := F)) d0
abbrev tailBody (d0 : Dev nD) : Prog (TpuEff nD τ sig (Elt F) Λ₀ .tc) PUnit := atBufs (tailBodyg (F := F)) d0

theorem body_eq :
    atBufs (cc0_body (F := F))
      = (do
          let d0 ← (do
            let r ← (P1 (F := F))
            P2 r.1 r.2.1 r.2.2.1 r.2.2.2.1 r.2.2.2.2.1 r.2.2.2.2.2.2.1 r.2.2.2.2.2.2.2.2.1 r.2.2.2.2.2.2.2.2.2.1 r.2.2.2.2.2.2.2.2.2.2
            P3 r.1 r.2.1 r.2.2.1 r.2.2.2.1 r.2.2.2.2.1 r.2.2.2.2.2.2.1 r.2.2.2.2.2.2.2.2.1
            P4 r.1 r.2.2.2.2.2.1 r.2.2.2.2.2.2.2.1
            P5 r.1 r.2.1 r.2.2.1 r.2.2.2.1 r.2.2.2.2.1 r.2.2.2.2.2.1
            let r6 ← P6 r.1 r.2.1 r.2.2.2.1 r.2.2.2.2.1 r.2.2.2.2.2.2.2.1
            let v219 ← P7 r.1 r.2.2.1 r.2.2.2.2.1 r.2.2.2.2.2.1 r6.1 r6.2
            let v248 ← P8 r.1 r.2.1 r.2.2.2.1 r.2.2.2.2.2.1 r.2.2.2.2.2.2.2.1 v219
            P9 r.1 r.2.1 r.2.2.1 r.2.2.2.1 r.2.2.2.2.1 r.2.2.2.2.2.2.2.1 v248
            P10 r.1 r.2.2.1 r.2.2.2.2.1 r.2.2.2.2.2.1
            P11 r.1 r.2.1 r.2.2.1 r.2.2.2.1 r.2.2.2.2.1 r.2.2.2.2.2.2.2.1
            P12 r.1 r.2.1 r.2.2.1 r.2.2.2.1 r.2.2.2.2.1 r.2.2.2.2.2.1
            P13 r.1 r.2.1 r.2.2.1 r.2.2.2.1 r.2.2.2.2.1 r.2.2.2.2.2.2.2.1
            P14 r.1 r.2.2.1 r.2.2.2.2.1
            tail15 r.1)
          tailBody d0) := by
  rfl

open Idealize.SL Idealize.SL.RA Idealize.SL.BI
open scoped Idealize.SL.BI
open Idealize.SL.BI.BIBase Idealize.SL.BI.Laws Idealize.SL.ProofMode
open Idealize.ShloMosaic.Rounds

local notation "𝕄" => MT nD τ sig Unit (Elt F) ℕ UU ℕ

def S14 (m : (ℓ : Loc nD τ sig) → Buf (Elt F) ℓ) (K : Dev nD × CIx → ℕ) (c : Dev nD) : sProp 𝕄 :=
  iprop(records m K ∗ levAts L lv ∗ atPos ER (barCell c) 1 ∅ 0
    ∗ (cp3 c 0 0 ∗ cp3 c 0 1 ∗ cp3 c 1 0 ∗ cp3 c 1 1 ∗ cp3 c 2 0 ∗ cp3 c 2 1 ∗ cp3 c 3 0 ∗ cp3 c 3 1)
    ∗ (cp3 c 4 0 ∗ cp2 c 4 1 ∗ cp1 c 5 0 ∗ cp1 c 5 1)
    ∗ (∃ W, owes (c : Thread nD τ) (owedFrom c []) W)
    ∗ (((c : Thread nD τ).loc cc0_stg0_0) ↦{fullShare} xs m c)
    ∗ (rPts c (sl 0 0) (cR (sl 0 0) (srcVal m 0 (xn c) 0)) ∗ rPts c (sl 0 1) (cR (sl 0 1) (srcVal m 0 (xn c) 1))
        ∗ rPts c (sl 1 0) (cR (sl 1 0) (srcVal m 1 (yn c) 0)) ∗ rPts c (sl 1 1) (cR (sl 1 1) (srcVal m 1 (yn c) 1))
        ∗ rPts c (sl 2 0) (cR (sl 2 0) (srcVal m 2 (yn c) 0)) ∗ rPts c (sl 2 1) (cR (sl 2 1) (srcVal m 2 (yn c) 1))
        ∗ rPts c (sl 3 0) (cR (sl 3 0) (srcVal m 3 (xn c) 0)) ∗ rPts c (sl 3 1) (cR (sl 3 1) (srcVal m 3 (xn c) 1)))
    ∗ (oPts c (aK c 0) (cO (aK c 0) (fa m c 0)) ∗ oPts c (aK c 1) (cO (aK c 1) (fa m c 1))
        ∗ oPts c (aS c 0) (cO (aS c 0) (fa m (xn c) 0))))

omit [FloatOps F] in
theorem bigSep_chunks (c : Dev nD) (Φ : Fin 8 → sProp 𝕄) :
    bigSep Finset.univ Φ = iprop(Φ (aK c 0) ∗ Φ (aK c 1) ∗ Φ (aS c 0) ∗ Φ (aS c 1) ∗ Φ (bK c 0) ∗ Φ (bK c 1) ∗ Φ (bS c 0) ∗ Φ (bS c 1)) :=
  bigSep_univ_eq_bigSepL [aK c 0, aK c 1, aS c 0, aS c 1, bK c 0, bK c 1, bS c 0, bS c 1]
    ((by decide : ∀ c : Dev nD, (Finset.univ : Finset (Fin 8)) = [aK c 0, aK c 1, aS c 0, aS c 1, bK c 0, bK c 1, bS c 0, bS c 1].toFinset) c)
    ((by decide : ∀ c : Dev nD, [aK c 0, aK c 1, aS c 0, aS c 1, bK c 0, bK c 1, bS c 0, bS c 1].Nodup) c) Φ

end Cert.KernelIdeal.AllReduce

end
-- ==== Proof.BodyA.lean ====
import proofs.«900178_g7700000000000179_dist_full2d_reduce_m2048_n1024_v7x_xy2x2_bf16_1_alg».proof.Proof.Parts

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "WP[" c "]" => wp frame (wpE (defs₀ (F := F)) 𝒱₀ (c : Thread nD τ) none) Set.univ

variable (m : (ℓ : Loc nD τ sig) → Buf (Elt F) ℓ) (ρ : Dev nD → PrngReg) (K : Dev nD × CIx → ℕ)

def S1 (m : (ℓ : Loc nD τ sig) → Buf (Elt F) ℓ) (K : Dev nD × CIx → ℕ) (c : Dev nD) : sProp 𝕄 :=
  iprop(records m K ∗ levAts L lv ∗ atPos ER (barCell c) 1 ∅ 0
    ∗ (cp0 c 0 0 ∗ cp0 c 0 1 ∗ cp0 c 1 0 ∗ cp0 c 1 1)
    ∗ (cp0 c 2 0 ∗ cp0 c 2 1 ∗ cp0 c 3 0 ∗ cp0 c 3 1 ∗ cp0 c 4 0 ∗ cp0 c 4 1 ∗ cp0 c 5 0 ∗ cp0 c 5 1)
    ∗ (∃ W, owes (c : Thread nD τ) (owedFrom c payOrder) W)
    ∗ (((c : Thread nD τ).loc cc0_stg0_0) ↦{fullShare} xs m c)
    ∗ (∃ g : OC F, oPts c (aK c 0) g ∗ oPts c (aK c 1) g ∗ oPts c (aS c 0) g ∗ oPts c (aS c 1) g
        ∗ oPts c (bK c 0) g ∗ oPts c (bK c 1) g ∗ oPts c (bS c 0) g ∗ oPts c (bS c 1) g)
    ∗ barPay c false ∗ barPay c true)

/-- Entry: signal both neighbours' barrier cells, handing each the slots it will write, and wait for theirs. -/
theorem part1_spec (c : Dev nD) (Q : T1 F → sProp 𝕄) :
    iprop(bodyPre m ρ K c
        ∗ (∀ v2 v5 v6 v7 v8 v10 v12 v15 v25,
            S1 m K c -∗ Q ⟨c, v2, v5, v6, v7, v8, v10, v12, v15, v25, castV (xRead (aS c 0) (xs m c))⟩))
      ⊢ WP[c] (P1 (F := F)) Q := by
  dsimp only [P1, atBufs]
  simp only [k0_part1_eq_skeleton]; unfold k0_part1_skel
  simp only [semSignalWord, semWaitWord, Prog.lift, Prog.bind_op, Prog.bind_ret, Prog.pure_eq_ret, wp_deviceId]
  unfold bodyPre linear barToks
  iintro ⟨⟨⟨#Hrec, ⟨HatB, ⟨HtF, HtT⟩, HcB, Hcps⟩, #Hlev, ⟨%f0, Hscr⟩⟩, Ho, ⟨%d0, %g0, %hg0, Hx⟩, ⟨%d1, %g1, %hg1, Hout⟩⟩, Hk⟩
  have hx : g0 = xs m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c]
  ihave Hsl := (Entails.of_eq ((r_split c f0).trans (bigSep_fin8 _))) $$ Hscr
  icases Hsl with ⟨Hs0, Hs1, Hs2, Hs3, Hs4, Hs5, Hs6, Hs7⟩
  iapply (Rounds.wp_signal 𝒱₀ ER (Rd m) (c : Thread nD τ) none (dst := (yn c : Thread nD τ)) (κ := K (yn c, bI))
      (d := false) (by rw [duties_bar]; exact Finset.mem_univ _) ((amount_bar m (yn c) false).trans (by decide)) () (O₁ c) rfl)
    $$ [HO HtF Hs2 Hs3 Hs4 Hs5]
  · isplitr; · iapply (inv_at m K (yn c, bI)); iexact Hrec
    isplitl [HO]; · iexact HO
    isplitl [HtF]; · iexact HtF
    isplitl [Hs2 Hs3 Hs4 Hs5]
    · rw [payload_bar]; unfold barPay; rw [if_neg (by decide), yn_yn]
      iexists f0, f0, f0, f0
      isplitl [Hs2]; · iexact Hs2
      isplitl [Hs3]; · iexact Hs3
      isplitl [Hs4]; · iexact Hs4
      iexact Hs5
    · iapply (reached_at m K (yn c, bI)); iexact Hrec
  iintro HO
  unfold O₁
  iapply (Rounds.wp_signal 𝒱₀ ER (Rd m) (c : Thread nD τ) none (dst := (xn c : Thread nD τ)) (κ := K (xn c, bI))
      (d := true) (by rw [duties_bar]; exact Finset.mem_univ _) ((amount_bar m (xn c) true).trans (by decide)) () (owedFrom c payOrder) rfl)
    $$ [HO HtT Hs0 Hs1 Hs6 Hs7]
  · isplitr; · iapply (inv_at m K (xn c, bI)); iexact Hrec
    isplitl [HO]; · iexact HO
    isplitl [HtT]; · iexact HtT
    isplitl [Hs0 Hs1 Hs6 Hs7]
    · rw [payload_bar]; unfold barPay; rw [if_pos rfl, xn_xn]
      iexists f0, f0, f0, f0
      isplitl [Hs0]; · iexact Hs0
      isplitl [Hs1]; · iexact Hs1
      isplitl [Hs6]; · iexact Hs6
      iexact Hs7
    · iapply (reached_at m K (xn c, bI)); iexact Hrec
  iintro HO
  have hk2 : 0 + (2#32).toNat = (Rd (F := F) m).expect (barCell c) 0 := by rw [expect_bar]; decide
  have hmw : (levAts L lv : sProp 𝕄) ⊢ MayWait (c : Thread nD τ) (.reg barS) () (owedFrom c payOrder) :=
    mayWait_list c (.reg barS) payOrder (fun pr _ => by rw [lv_bar]; omega)
  have hw : ∀ K' : PUnit → sProp 𝕄, wpE' (defs₀ (F := F)) 𝒱₀ (c : Thread nD τ) none .empty Set.univ
      (.semWait barS (2#32).toNat) K' = waitSpec (c : Thread nD τ) Set.univ (.reg barS) (2#32).toNat K' := fun K' => rfl
  iapply (Rounds.wp_wait_rest_token (defs := defs₀ (F := F)) 𝒱₀ ER (Rd m) (c : Thread nD τ) none (κ := K (c, bI)) (sm := .reg barS) (k' := (2#32).toNat)
      hw (Set.mem_univ _) () (O := owedFrom c payOrder) (W := W) (R := 0) (m := 0) (T := ∅) hk2) $$ [HcB HO HatB]
  · isplitr; · iapply (inv_at m K (c, bI)); iexact Hrec
    isplitl [HcB]; · iexact HcB
    isplitl [HO]; · iexact HO
    isplitr; · iapply hmw; iexact Hlev
    iexact HatB
  iintro ⟨HO, HatB, -, Hpay⟩
  ihave Hp := (Entails.of_eq (rest_bar m c)) $$ Hpay
  iapply (wp_load_x m c (aS c 0) (k0_off1 c 0#32) (off1_eq c 0) (k0_off1_inb c 0)) $$ Hx
  iintro Hx
  rw [wp_ret]; imodintro
  iapply Hk
  unfold S1
  ihave Hch := (Entails.of_eq ((o_split c g1).trans (bigSep_chunks c _))) $$ Hout
  ihave Hcp := (Entails.of_eq (bigSep_pr _)) $$ Hcps
  icases Hcp with ⟨H00, H01, H10, H11, Hrest⟩
  iframe ∗ #
  isplitl [HO]; · iexists _; iexact HO
  iexists g1; iexact Hch

/-- Every chunk rounded into the result buffer; the four chunks given away sent at once. -/
theorem parts2_4_spec (c : Dev nD) (v2 v5 v6 v7 v8 v10 v12 v15 v25 : BitVec 32) (Q : PUnit → sProp 𝕄) :
    iprop(S1 m K c ∗ (mid1 m K c -∗ Q ⟨⟩))
      ⊢ WP[c] (P2 c v2 v5 v6 v7 v10 v15 v25 (castV (xRead (aS c 0) (xs m c))))
          (fun _ => WP[c] (P3 (F := F) c v2 v5 v6 v7 v10 v15) (fun _ => WP[c] (P4 (F := F) c v8 v12) Q)) := by
  dsimp only [P2, P3, P4, atBufs]
  simp only [k0_part2_eq_skeleton, k0_part3_eq_skeleton, k0_part4_eq_skeleton]
  unfold k0_part2_skel k0_part3_skel k0_part4_skel
  simp only [Prog.lift, Prog.bind_op, Prog.bind_ret, Prog.pure_eq_ret]
  unfold S1 barPay
  rw [if_neg (by decide : ¬ (false = true)), if_pos (rfl : true = true)]
  iintro ⟨⟨#Hrec, #Hlev, HatB, ⟨H00, H01, H10, H11⟩, Hrest, ⟨%W, HO⟩, Hx,
      ⟨%g, HaK0, HaK1, HaS0, HaS1, HbK0, HbK1, HbS0, HbS1⟩,
      ⟨%f2, %f3, %f4, %f5, Hy2, Hy3, Hy4, Hy5⟩, ⟨%f0, %f1, %f6, %f7, Hx0, Hx1, Hx6, Hx7⟩⟩, Hk⟩
  iapply (wp_load_o c (aS c 0) (k0_off1 c 0#32) (off1_eq c 0) (k0_off1_inb c 0) g) $$ HaS0; iintro HaS0
  iapply (wp_store_o c (aS c 0) (k0_off1 c 0#32) (off1_eq c 0) (k0_off1_inb c 0) g (p0 m c (aS c 0))) $$ HaS0; iintro HaS0
  iapply (step_copy_slot m K c _ (xn c) 0 0 rfl 0 (dev3_eq c) rfl (aS c 0) rfl (p0 m c (aS c 0)) rfl (k0_off2 c 0#32) (off2_eq c 0) (k0_off2_inb c 0)
    f0 payOrder (payOrder.drop 1) rfl W) $$ Hrec H00 HaS0 Hx0 HO
  iintro ⟨H00, HO⟩
  iapply (step_cast m c (bS c 0) (k0_off3 c 0#32) (off3_eq c 0) (k0_off3_inb c 0) g k0_pay2 pay2_eq) $$ Hx HbS0; iintro ⟨Hx, HbS0⟩
  rw [wp_ret]; imodintro
  iapply (step_copy_slot m K c _ (yn c) 1 1 rfl 0 (dev4_eq c) rfl (bS c 0) rfl (p0 m c (bS c 0)) rfl (k0_off4 c 0#32) (off4_eq c 0) (k0_off4_inb c 0)
    f2 (payOrder.drop 1) (payOrder.drop 2) rfl W) $$ Hrec H10 HbS0 Hy2 HO
  iintro ⟨H10, HO⟩
  iapply (step_cast m c (aS c 1) (k0_off1 c 256#32) (off1_eq c 1) (k0_off1_inb c 1) g k0_pay3 pay3_eq) $$ Hx HaS1; iintro ⟨Hx, HaS1⟩
  iapply (step_copy_slot m K c _ (xn c) 0 0 rfl 1 (dev5_eq c) rfl (aS c 1) rfl (p0 m c (aS c 1)) rfl (k0_off2 c 256#32) (off2_eq c 1) (k0_off2_inb c 1)
    f1 (payOrder.drop 2) (payOrder.drop 3) rfl W) $$ Hrec H01 HaS1 Hx1 HO
  iintro ⟨H01, HO⟩
  iapply (step_cast m c (bS c 1) (k0_off3 c 256#32) (off3_eq c 1) (k0_off3_inb c 1) g k0_pay4 pay4_eq) $$ Hx HbS1; iintro ⟨Hx, HbS1⟩
  rw [wp_ret]; imodintro
  iapply (step_copy_slot m K c _ (yn c) 1 1 rfl 1 (dev6_eq c) rfl (bS c 1) rfl (p0 m c (bS c 1)) rfl (k0_off4 c 256#32) (off4_eq c 1) (k0_off4_inb c 1)
    f3 (payOrder.drop 3) (payOrder.drop 4) rfl W) $$ Hrec H11 HbS1 Hy3 HO
  iintro ⟨H11, HO⟩
  iapply (step_cast m c (aK c 0) (k0_off5 c 0#32) (off5_eq c 0) (k0_off5_inb c 0) g k0_pay5 pay5_eq) $$ Hx HaK0; iintro ⟨Hx, HaK0⟩
  iapply (step_cast m c (bK c 0) (k0_off6 c 0#32) (off6_eq c 0) (k0_off6_inb c 0) g k0_pay6 pay6_eq) $$ Hx HbK0; iintro ⟨Hx, HbK0⟩
  iapply (step_cast m c (aK c 1) (k0_off5 c 256#32) (off5_eq c 1) (k0_off5_inb c 1) g k0_pay7 pay7_eq) $$ Hx HaK1; iintro ⟨Hx, HaK1⟩
  iapply (step_cast m c (bK c 1) (k0_off6 c 256#32) (off6_eq c 1) (k0_off6_inb c 1) g k0_pay8 pay8_eq) $$ Hx HbK1; iintro ⟨Hx, HbK1⟩
  rw [wp_ret]; imodintro
  iapply Hk
  unfold mid1
  iframe ∗ #
  isplitl [HO]; · iexists _; iexact HO
  isplitl [Hy4]; · iexists _; iexact Hy4
  isplitl [Hy5]; · iexists _; iexact Hy5
  isplitl [Hx6]; · iexists _; iexact Hx6
  iexists _; iexact Hx7

end Cert.KernelIdeal.AllReduce

end
-- ==== Proof.BodyB.lean ====
import proofs.«900178_g7700000000000179_dist_full2d_reduce_m2048_n1024_v7x_xy2x2_bf16_1_alg».proof.Proof.Parts

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "WP[" c "]" => wp frame (wpE (defs₀ (F := F)) 𝒱₀ (c : Thread nD τ) none) Set.univ

variable (m : (ℓ : Loc nD τ sig) → Buf (Elt F) ℓ) (ρ : Dev nD → PrngReg) (K : Dev nD × CIx → ℕ)

theorem pa_eq (c : Dev nD) (r : Fin 2) : accV (p0 m c (aK c r)) (sRead (sl 0 r) (cR (sl 0 r) (srcVal m 0 (xn c) r))) = pa m c r := by
  rw [srcVal0_xn]; rfl
theorem pb_eq (c : Dev nD) (r : Fin 2) : accV (p0 m c (bK c r)) (sRead (sl 1 r) (cR (sl 1 r) (srcVal m 1 (yn c) r))) = pb m c r := by
  rw [srcVal1_yn]; rfl

/-- Parts 5 – 9: exchange 1 received and added in, exchange 2 issued, its first send waited. -/
theorem parts5_9_spec (c : Dev nD) (v2 v5 v6 v7 v8 v12 : BitVec 32) (Q : PUnit → sProp 𝕄) :
    iprop(mid1 m K c ∗ (mid2 m K c -∗ Q ⟨⟩))
      ⊢ WP[c] (P5 (F := F) c v2 v5 v6 v7 v8) (fun _ => WP[c] (P6 (F := F) c v2 v6 v7 v12) (fun r6 => WP[c] (P7 (F := F) c v5 v7 v8 r6.1 r6.2)
          (fun v219 => WP[c] (P8 c v2 v6 v8 v12 v219) (fun v248 => WP[c] (P9 (F := F) c v2 v5 v6 v7 v12 v248) Q)))) := by
  dsimp only [P5, atBufs]
  simp only [k0_part5_eq_skeleton]; unfold k0_part5_skel
  simp only [Prog.lift, Prog.bind_op, Prog.bind_ret, Prog.pure_eq_ret]
  unfold mid1
  iintro ⟨⟨#Hrec, #Hlev, HatB, ⟨H00, H01, H10, H11⟩, ⟨H20, H21, H30, H31, Hcp45⟩, ⟨%W, HO⟩, Hx, ⟨Ha0, Ha1, Hb0, Hb1⟩,
    ⟨⟨%f20, Hy20⟩, ⟨%f21, Hy21⟩, ⟨%f30, Hx30⟩, ⟨%f31, Hx31⟩⟩⟩, Hk⟩
  iapply (step_wait_send m K c 0 0 (payOrder.drop 4) W _ rfl (credit_chunk _ _)) $$ Hrec Hlev H00 HO
  iintro ⟨HO, H00, -⟩
  iapply (step_wait_recv m K c 0 0 (payOrder.drop 4) _ (by decide) _ (recvPay0 m c 0) (credit_slot (sl 0 0))) $$ Hrec Hlev H00 HO
  iintro ⟨HO, H00, Hs00, Hn00⟩
  iapply (step_acc c (aK c 0) (sl 0 0) (k0_off5 c 0#32) (off5_eq c 0) (k0_off5_inb c 0) (p0 m c (aK c 0)) (srcVal m 0 (xn c) 0)
    k0_pay9 rfl (pa m c 0) (pa_eq m c 0)) $$ Ha0 Hs00
  iintro ⟨Ha0, Hs00⟩
  rw [wp_ret]; imodintro
  dsimp only [P6, atBufs]
  simp only [k0_part6_eq_skeleton]; unfold k0_part6_skel
  simp only [Prog.lift, Prog.bind_op, Prog.bind_ret, Prog.pure_eq_ret]
  iapply (step_copy_slot m K c _ (yn c) 2 2 rfl 0 (dev7_eq c) rfl (aK c 0) rfl (pa m c 0) rfl (k0_off7 c 0#32) (off7_eq c 0) (k0_off7_inb c 0)
    f20 (payOrder.drop 4) (payOrder.drop 5) rfl _) $$ Hrec H20 Ha0 Hy20 HO
  iintro ⟨H20, HO⟩
  iapply (step_wait_send m K c 1 0 (payOrder.drop 5) _ _ rfl (credit_chunk _ _)) $$ Hrec Hlev H10 HO
  iintro ⟨HO, H10, -⟩
  iapply (step_wait_recv m K c 1 0 (payOrder.drop 5) _ (by decide) _ (recvPay1 m c 0) (credit_slot (sl 1 0))) $$ Hrec Hlev H10 HO
  iintro ⟨HO, H10, Hs10, Hn10⟩
  iapply (step_acc c (bK c 0) (sl 1 0) (k0_off6 c 0#32) (off6_eq c 0) (k0_off6_inb c 0) (p0 m c (bK c 0)) (srcVal m 1 (yn c) 0)
    k0_pay10 pay10_eq (pb m c 0) (pb_eq m c 0)) $$ Hb0 Hs10
  iintro ⟨Hb0, Hs10⟩
  rw [wp_ret]; imodintro
  dsimp only [P7, atBufs]
  simp only [k0_part7_eq_skeleton]; unfold k0_part7_skel
  simp only [Prog.lift, Prog.bind_op, Prog.bind_ret, Prog.pure_eq_ret]
  iapply (step_copy_slot m K c _ (xn c) 3 3 rfl 0 (dev8_eq c) rfl (bK c 0) rfl (pb m c 0) rfl (k0_off8 c 0#32) (off8_eq c 0) (k0_off8_inb c 0)
    f30 (payOrder.drop 5) (payOrder.drop 6) rfl _) $$ Hrec H30 Hb0 Hx30 HO
  iintro ⟨H30, HO⟩
  iapply (step_wait_send m K c 0 1 (payOrder.drop 6) _ _ rfl (credit_chunk _ _)) $$ Hrec Hlev H01 HO
  iintro ⟨HO, H01, -⟩
  iapply (step_wait_recv m K c 0 1 (payOrder.drop 6) _ (by decide) _ (recvPay0 m c 1) (credit_slot (sl 0 1))) $$ Hrec Hlev H01 HO
  iintro ⟨HO, H01, Hs01, Hn01⟩
  iapply (wp_load_o c (aK c 1) (k0_off5 c 256#32) (off5_eq c 1) (k0_off5_inb c 1) (cO (aK c 1) (p0 m c (aK c 1)))) $$ Ha1; iintro Ha1
  rw [read_cO]
  iapply (wp_load_slot c (sl 0 1) (cR (sl 0 1) (srcVal m 0 (xn c) 1))) $$ Hs01; iintro Hs01
  rw [pay11_eq, pa_eq m c 1, wp_ret]; imodintro
  dsimp only [P8, atBufs]
  simp only [k0_part8_eq_skeleton]; unfold k0_part8_skel
  simp only [Prog.lift, Prog.bind_op, Prog.bind_ret, Prog.pure_eq_ret]
  iapply (wp_load_o c (aK c 1) (k0_off5 c 256#32) (off5_eq c 1) (k0_off5_inb c 1) (cO (aK c 1) (p0 m c (aK c 1)))) $$ Ha1; iintro Ha1
  iapply (wp_store_o c (aK c 1) (k0_off5 c 256#32) (off5_eq c 1) (k0_off5_inb c 1) (cO (aK c 1) (p0 m c (aK c 1))) (pa m c 1)) $$ Ha1; iintro Ha1
  iapply (step_copy_slot m K c _ (yn c) 2 2 rfl 1 (dev9_eq c) rfl (aK c 1) rfl (pa m c 1) rfl (k0_off7 c 256#32) (off7_eq c 1) (k0_off7_inb c 1)
    f21 (payOrder.drop 6) (payOrder.drop 7) rfl _) $$ Hrec H21 Ha1 Hy21 HO
  iintro ⟨H21, HO⟩
  iapply (step_wait_send m K c 1 1 (payOrder.drop 7) _ _ rfl (credit_chunk _ _)) $$ Hrec Hlev H11 HO
  iintro ⟨HO, H11, -⟩
  iapply (step_wait_recv m K c 1 1 (payOrder.drop 7) _ (by decide) _ (recvPay1 m c 1) (credit_slot (sl 1 1))) $$ Hrec Hlev H11 HO
  iintro ⟨HO, H11, Hs11, Hn11⟩
  rw [wp_ret]; imodintro
  dsimp only [P9, atBufs]
  simp only [k0_part9_eq_skeleton]; unfold k0_part9_skel
  simp only [Prog.lift, Prog.bind_op, Prog.bind_ret, Prog.pure_eq_ret]
  iapply (step_acc c (bK c 1) (sl 1 1) (k0_off6 c 256#32) (off6_eq c 1) (k0_off6_inb c 1) (p0 m c (bK c 1)) (srcVal m 1 (yn c) 1)
    k0_pay12 pay12_eq (pb m c 1) (pb_eq m c 1)) $$ Hb1 Hs11
  iintro ⟨Hb1, Hs11⟩
  iapply (step_copy_slot m K c _ (xn c) 3 3 rfl 1 (dev10_eq c) rfl (bK c 1) rfl (pb m c 1) rfl (k0_off8 c 256#32) (off8_eq c 1) (k0_off8_inb c 1)
    f31 (payOrder.drop 7) (payOrder.drop 8) rfl _) $$ Hrec H31 Hb1 Hx31 HO
  iintro ⟨H31, HO⟩
  iapply (step_wait_send m K c 2 0 (payOrder.drop 8) _ _ (sendPay2 m c 0) (credit_chunk _ _)) $$ Hrec Hlev H20 HO
  iintro ⟨HO, H20, Ha0⟩
  rw [wp_ret]; imodintro
  iapply Hk
  unfold mid2
  iframe ∗ #
  iexists _; iexact HO

end Cert.KernelIdeal.AllReduce

end
-- ==== Proof.BodyC.lean ====
import proofs.«900178_g7700000000000179_dist_full2d_reduce_m2048_n1024_v7x_xy2x2_bf16_1_alg».proof.Proof.Parts

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "WP[" c "]" => wp frame (wpE (defs₀ (F := F)) 𝒱₀ (c : Thread nD τ) none) Set.univ

variable (m : (ℓ : Loc nD τ sig) → Buf (Elt F) ℓ) (ρ : Dev nD → PrngReg) (K : Dev nD × CIx → ℕ)

/-- Parts 10 – 14: exchange 2 received and added in, exchange 3 issued, its first chunk back. -/
theorem parts10_14_spec (c : Dev nD) (v2 v5 v6 v7 v8 v12 : BitVec 32) (Q : PUnit → sProp 𝕄) :
    iprop(mid2 m K c ∗ (S14 m K c -∗ Q ⟨⟩))
      ⊢ WP[c] (P10 (F := F) c v5 v7 v8) (fun _ => WP[c] (P11 (F := F) c v2 v5 v6 v7 v12) (fun _ => WP[c] (P12 (F := F) c v2 v5 v6 v7 v8)
          (fun _ => WP[c] (P13 (F := F) c v2 v5 v6 v7 v12) (fun _ => WP[c] (P14 (F := F) c v5 v7) Q)))) := by
  dsimp only [P10, atBufs]
  simp only [k0_part10_eq_skeleton]; unfold k0_part10_skel
  simp only [Prog.lift, Prog.bind_op, Prog.bind_ret, Prog.pure_eq_ret]
  unfold mid2
  rw [srcCh0_xn c 0, srcCh0_xn c 1, srcCh1_yn c 0, srcCh1_yn c 1]
  iintro ⟨⟨#Hrec, #Hlev, Hbar, ⟨C00, C01, C10, C11⟩, ⟨H20, H21, H30, H31⟩, ⟨H40, H41, H50, H51⟩, ⟨%W, HO⟩, Hx, Ha0, ⟨Hs00, Hs01, Hs10, Hs11⟩,
    ⟨Hxa0, Hxa1, Hyb0, Hyb1⟩⟩, Hk⟩
  iapply (step_wait_recv m K c 2 0 (payOrder.drop 8) W (by decide) _ (recvPay2 m c 0) (credit_slot (sl 2 0))) $$ Hrec Hlev H20 HO
  iintro ⟨HO, H20, Hs20⟩
  iapply (step_acc c (aK c 0) (sl 2 0) (k0_off5 c 0#32) (off5_eq c 0) (k0_off5_inb c 0) (pa m c 0) (srcVal m 2 (yn c) 0)
    k0_pay13 pay13_eq (fa m c 0) rfl) $$ Ha0 Hs20
  iintro ⟨Ha0, Hs20⟩
  iapply (step_copy_chunk m K c _ (xn c) 4 (by decide) 0 (dev11_eq c) rfl (aK c 0) rfl (fa m c 0) rfl (k0_off7 c 0#32) (off7_eq c 0) (k0_off7_inb c 0)
    (cO (aK c 0) (srcVal m 0 (xn c) 0)) (payOrder.drop 8) (payOrder.drop 9) rfl _) $$ Hrec H40 Ha0 Hxa0 HO
  iintro ⟨H40, HO⟩
  iapply (step_wait_send m K c 3 0 (payOrder.drop 9) _ _ (sendPay3 m c 0) (credit_chunk _ _)) $$ Hrec Hlev H30 HO
  iintro ⟨HO, H30, Hb0⟩
  rw [wp_ret]; imodintro
  dsimp only [P11, atBufs]
  simp only [k0_part11_eq_skeleton]; unfold k0_part11_skel
  simp only [Prog.lift, Prog.bind_op, Prog.bind_ret, Prog.pure_eq_ret]
  iapply (step_wait_recv m K c 3 0 (payOrder.drop 9) _ (by decide) _ (recvPay3 m c 0) (credit_slot (sl 3 0))) $$ Hrec Hlev H30 HO
  iintro ⟨HO, H30, Hs30⟩
  iapply (step_acc c (bK c 0) (sl 3 0) (k0_off6 c 0#32) (off6_eq c 0) (k0_off6_inb c 0) (pb m c 0) (srcVal m 3 (xn c) 0)
    k0_pay14 pay14_eq (fb m c 0) rfl) $$ Hb0 Hs30
  iintro ⟨Hb0, Hs30⟩
  iapply (step_copy_chunk m K c _ (yn c) 5 (by decide) 0 (dev12_eq c) rfl (bK c 0) rfl (fb m c 0) rfl (k0_off8 c 0#32) (off8_eq c 0) (k0_off8_inb c 0)
    (cO (bK c 0) (srcVal m 1 (yn c) 0)) (payOrder.drop 9) (payOrder.drop 10) rfl _) $$ Hrec H50 Hb0 Hyb0 HO
  iintro ⟨H50, HO⟩
  rw [wp_ret]; imodintro
  dsimp only [P12, atBufs]
  simp only [k0_part12_eq_skeleton]; unfold k0_part12_skel
  simp only [Prog.lift, Prog.bind_op, Prog.bind_ret, Prog.pure_eq_ret]
  iapply (step_wait_send m K c 2 1 (payOrder.drop 10) _ _ (sendPay2 m c 1) (credit_chunk _ _)) $$ Hrec Hlev H21 HO
  iintro ⟨HO, H21, Ha1⟩
  iapply (step_wait_recv m K c 2 1 (payOrder.drop 10) _ (by decide) _ (recvPay2 m c 1) (credit_slot (sl 2 1))) $$ Hrec Hlev H21 HO
  iintro ⟨HO, H21, Hs21⟩
  iapply (step_acc c (aK c 1) (sl 2 1) (k0_off5 c 256#32) (off5_eq c 1) (k0_off5_inb c 1) (pa m c 1) (srcVal m 2 (yn c) 1)
    k0_pay15 pay15_eq (fa m c 1) rfl) $$ Ha1 Hs21
  iintro ⟨Ha1, Hs21⟩
  rw [wp_ret]; imodintro
  dsimp only [P13, atBufs]
  simp only [k0_part13_eq_skeleton]; unfold k0_part13_skel
  simp only [Prog.lift, Prog.bind_op, Prog.bind_ret, Prog.pure_eq_ret]
  iapply (step_copy_chunk m K c _ (xn c) 4 (by decide) 1 (dev13_eq c) rfl (aK c 1) rfl (fa m c 1) rfl (k0_off7 c 256#32) (off7_eq c 1) (k0_off7_inb c 1)
    (cO (aK c 1) (srcVal m 0 (xn c) 1)) (payOrder.drop 10) (payOrder.drop 11) rfl _) $$ Hrec H41 Ha1 Hxa1 HO
  iintro ⟨H41, HO⟩
  iapply (step_wait_send m K c 3 1 (payOrder.drop 11) _ _ (sendPay3 m c 1) (credit_chunk _ _)) $$ Hrec Hlev H31 HO
  iintro ⟨HO, H31, Hb1⟩
  iapply (step_wait_recv m K c 3 1 (payOrder.drop 11) _ (by decide) _ (recvPay3 m c 1) (credit_slot (sl 3 1))) $$ Hrec Hlev H31 HO
  iintro ⟨HO, H31, Hs31⟩
  iapply (step_acc c (bK c 1) (sl 3 1) (k0_off6 c 256#32) (off6_eq c 1) (k0_off6_inb c 1) (pb m c 1) (srcVal m 3 (xn c) 1)
    k0_pay16 pay16_eq (fb m c 1) rfl) $$ Hb1 Hs31
  iintro ⟨Hb1, Hs31⟩
  rw [wp_ret]; imodintro
  dsimp only [P14, atBufs]
  simp only [k0_part14_eq_skeleton]; unfold k0_part14_skel
  simp only [Prog.lift, Prog.bind_op, Prog.bind_ret, Prog.pure_eq_ret]
  iapply (step_copy_chunk m K c _ (yn c) 5 (by decide) 1 (dev14_eq c) rfl (bK c 1) rfl (fb m c 1) rfl (k0_off8 c 256#32) (off8_eq c 1) (k0_off8_inb c 1)
    (cO (bK c 1) (srcVal m 1 (yn c) 1)) (payOrder.drop 11) [] rfl _) $$ Hrec H51 Hb1 Hyb1 HO
  iintro ⟨H51, HO⟩
  iapply (step_wait_send m K c 4 0 [] _ _ (sendPay4 m c 0) (credit_chunk _ _)) $$ Hrec Hlev H40 HO
  iintro ⟨HO, H40, Ha0⟩
  iapply (step_wait_recv m K c 4 0 [] _ (by decide) _ (recvPay4 m c 0) (credit_chunk _ _)) $$ Hrec Hlev H40 HO
  iintro ⟨HO, H40, Hn0⟩
  iapply (step_wait_send m K c 4 1 [] _ _ (sendPay4 m c 1) (credit_chunk _ _)) $$ Hrec Hlev H41 HO
  iintro ⟨HO, H41, Ha1⟩
  rw [wp_ret]; imodintro
  iapply Hk
  unfold S14
  iframe ∗ #
  iexists _; iexact HO

end Cert.KernelIdeal.AllReduce

end
-- ==== Proof.BodyD.lean ====
import proofs.«900178_g7700000000000179_dist_full2d_reduce_m2048_n1024_v7x_xy2x2_bf16_1_alg».proof.Proof.Parts

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "WP[" c "]" => wp frame (wpE (defs₀ (F := F)) 𝒱₀ (c : Thread nD τ) none) Set.univ

variable (m : (ℓ : Loc nD τ sig) → Buf (Elt F) ℓ) (ρ : Dev nD → PrngReg) (K : Dev nD × CIx → ℕ)

/-- Eight chunks at the full sum are the whole result buffer at the final contents. -/
theorem chunks_join (c : Dev nD) :
    (iprop(oPts c (aK c 0) (cO (aK c 0) (fa m c 0)) ∗ oPts c (aK c 1) (cO (aK c 1) (fa m c 1))
      ∗ oPts c (aS c 0) (cO (aS c 0) (fa m (xn c) 0)) ∗ oPts c (aS c 1) (cO (aS c 1) (fa m (xn c) 1))
      ∗ oPts c (bK c 0) (cO (bK c 0) (fb m c 0)) ∗ oPts c (bK c 1) (cO (bK c 1) (fb m c 1))
      ∗ oPts c (bS c 0) (cO (bS c 0) (fb m (yn c) 0)) ∗ oPts c (bS c 1) (cO (bS c 1) (fb m (yn c) 1))) : sProp 𝕄)
    = (((c : Thread nD τ).loc cc0_stg1_0) ↦{fullShare} outAt m c : sProp 𝕄) := by
  unfold outAt
  rw [← o_join c (fun j => cO j (outVal m c j)), bigSep_chunks c]
  simp only [outVal_aK, outVal_aS, outVal_bK, outVal_bS]

theorem slots_join (c : Dev nD) (f00 f01 f10 f11 f20 f21 f30 f31 : RC F) :
    (iprop(rPts c (sl 0 0) f00 ∗ rPts c (sl 0 1) f01 ∗ rPts c (sl 1 0) f10 ∗ rPts c (sl 1 1) f11
      ∗ rPts c (sl 2 0) f20 ∗ rPts c (sl 2 1) f21 ∗ rPts c (sl 3 0) f30 ∗ rPts c (sl 3 1) f31) : sProp 𝕄)
    ⊢ (iprop(∃ g : RC F, ((c : Thread nD τ).loc cc0_scratch0) ↦{fullShare} g) : sProp 𝕄) := by
  have h := r_join (F := F) c ![f00, f01, f10, f11, f20, f21, f30, f31]
  rw [bigSep_fin8] at h
  exact h

theorem bodyPost_of_parts (c : Dev nD) (W : Waits sig Unit) (f00 f01 f10 f11 f20 f21 f30 f31 : RC F) :
    (iprop((rPts c (sl 0 0) f00 ∗ rPts c (sl 0 1) f01 ∗ rPts c (sl 1 0) f10 ∗ rPts c (sl 1 1) f11
          ∗ rPts c (sl 2 0) f20 ∗ rPts c (sl 2 1) f21 ∗ rPts c (sl 3 0) f30 ∗ rPts c (sl 3 1) f31)
        ∗ (cp3 c 0 0 ∗ cp3 c 0 1 ∗ cp3 c 1 0 ∗ cp3 c 1 1 ∗ cp3 c 2 0 ∗ cp3 c 2 1 ∗ cp3 c 3 0 ∗ cp3 c 3 1)
        ∗ (cp3 c 4 0 ∗ cp3 c 4 1 ∗ cp3 c 5 0 ∗ cp3 c 5 1)
        ∗ owes (c : Thread nD τ) (owedFrom c []) W
        ∗ (((c : Thread nD τ).loc cc0_stg0_0) ↦{fullShare} xs m c)
        ∗ (oPts c (aK c 0) (cO (aK c 0) (fa m c 0)) ∗ oPts c (aK c 1) (cO (aK c 1) (fa m c 1))
            ∗ oPts c (aS c 0) (cO (aS c 0) (fa m (xn c) 0)) ∗ oPts c (aS c 1) (cO (aS c 1) (fa m (xn c) 1))
            ∗ oPts c (bK c 0) (cO (bK c 0) (fb m c 0)) ∗ oPts c (bK c 1) (cO (bK c 1) (fb m c 1))
            ∗ oPts c (bS c 0) (cO (bS c 0) (fb m (yn c) 0)) ∗ oPts c (bS c 1) (cO (bS c 1) (fb m (yn c) 1)))) : sProp 𝕄)
      ⊢ bodyPost m ρ c := by
  unfold bodyPost Φ₁ Dat.owesAt Pipeline.owesWithin
  rw [show (dats m ρ 0 c).owed t₀.succ = owedFrom c [] from rfl]
  simp only [bigSep_pr]
  iintro ⟨R, ⟨C00, C01, C10, C11, C20, C21, C30, C31⟩, ⟨C40, C41, C50, C51⟩, HO, Hx, Ho⟩
  isplitl [R C00 C01 C10 C11 C20 C21 C30 C31 C40 C41 C50 C51]
  · isplitl [R]
    · iapply (slots_join c f00 f01 f10 f11 f20 f21 f30 f31); iexact R
    · iframe ∗
  isplitl [HO]
  · iexists W
    isplitr; · ipureintro; exact fun p _ => Or.inl (Set.mem_univ p)
    iexact HO
  isplitl [Hx]
  · iexists (xs m c); isplitr; · (ipureintro; rfl)
    iexact Hx
  iexists (outAt m c); isplitr; · (ipureintro; rfl)
  iapply (Entails.of_eq (chunks_join m c)); iexact Ho

/-- The last five waits: every chunk given away has come back finished. -/
theorem tail_spec (c : Dev nD) (Kt : PUnit → sProp 𝕄) :
    iprop(S14 m K c ∗ (bodyPost m ρ c -∗ Kt ⟨⟩))
      ⊢ WP[c] (tail15 (F := F) c) (fun d0 => WP[c] (tailBody (F := F) d0) Kt) := by
  unfold S14
  dsimp only [tail15, tailBody, atBufs]
  unfold tail15g tailBodyg
  simp only [Prog.lift, Prog.bind_op, Prog.bind_ret, Prog.pure_eq_ret]
  iintro ⟨⟨#Hrec, #Hlev, -, C, ⟨C40, C41, C50, C51⟩, ⟨%W, HO⟩, Hx, R, ⟨OK0, OK1, OS0⟩⟩, Hk⟩
  iapply (step_wait_recv m K c 4 1 [] W (by decide) _ (recvPay4 m c 1) (credit_chunk _ _)) $$ Hrec Hlev C41 HO
  iintro ⟨HO, C41, OS1⟩
  iapply (step_wait_send m K c 5 0 [] _ _ (sendPay5 m c 0) (credit_chunk _ _)) $$ Hrec Hlev C50 HO
  iintro ⟨HO, C50, OB0⟩
  iapply (step_wait_recv m K c 5 0 [] _ (by decide) _ (recvPay5 m c 0) (credit_chunk _ _)) $$ Hrec Hlev C50 HO
  iintro ⟨HO, C50, OT0⟩
  iapply (step_wait_send m K c 5 1 [] _ _ (sendPay5 m c 1) (credit_chunk _ _)) $$ Hrec Hlev C51 HO
  iintro ⟨HO, C51, OB1⟩
  rw [wp_ret]; imodintro
  iapply (step_wait_recv m K c 5 1 [] _ (by decide) _ (recvPay5 m c 1) (credit_chunk _ _)) $$ Hrec Hlev C51 HO
  iintro ⟨HO, C51, OT1⟩
  rw [wp_ret]; imodintro
  iapply Hk
  iapply (bodyPost_of_parts m ρ c _ (cR (sl 0 0) (srcVal m 0 (xn c) 0)) (cR (sl 0 1) (srcVal m 0 (xn c) 1)) (cR (sl 1 0) (srcVal m 1 (yn c) 0))
    (cR (sl 1 1) (srcVal m 1 (yn c) 1)) (cR (sl 2 0) (srcVal m 2 (yn c) 0)) (cR (sl 2 1) (srcVal m 2 (yn c) 1)) (cR (sl 3 0) (srcVal m 3 (xn c) 0))
    (cR (sl 3 1) (srcVal m 3 (xn c) 1)))
  iframe ∗

end Cert.KernelIdeal.AllReduce

end
-- ==== Proof.Body.lean ====
import proofs.«900178_g7700000000000179_dist_full2d_reduce_m2048_n1024_v7x_xy2x2_bf16_1_alg».proof.Proof.BodyA
import proofs.«900178_g7700000000000179_dist_full2d_reduce_m2048_n1024_v7x_xy2x2_bf16_1_alg».proof.Proof.BodyB
import proofs.«900178_g7700000000000179_dist_full2d_reduce_m2048_n1024_v7x_xy2x2_bf16_1_alg».proof.Proof.BodyC
import proofs.«900178_g7700000000000179_dist_full2d_reduce_m2048_n1024_v7x_xy2x2_bf16_1_alg».proof.Proof.BodyD

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "WP[" c "]" => wp frame (wpE (defs₀ (F := F)) 𝒱₀ (c : Thread nD τ) none) Set.univ

variable (m : (ℓ : Loc nD τ sig) → Buf (Elt F) ℓ) (ρ : Dev nD → PrngReg) (K : Dev nD × CIx → ℕ)

/-- The body is its parts in order; each stage's state is the next one's. -/
theorem sound_body (c : Dev nD) (Kt : PUnit → sProp 𝕄) :
    iprop(bodyPre m ρ K c ∗ (bodyPost m ρ c -∗ Kt ⟨⟩))
      ⊢ WP[c] (atBufs (cc0_body (F := F))) Kt := by
  rw [body_eq]
  simp only [wp_bind]
  iintro ⟨Hpre, Hk⟩
  iapply (part1_spec m ρ K c _)
  isplitl [Hpre]; · iexact Hpre
  iintro %v2 %v5 %v6 %v7 %v8 %v10 %v12 %v15 %v25 HS
  dsimp only
  iapply (parts2_4_spec m K c v2 v5 v6 v7 v8 v10 v12 v15 v25 _)
  isplitl [HS]; · iexact HS
  iintro HS
  iapply (parts5_9_spec m K c v2 v5 v6 v7 v8 v12 _)
  isplitl [HS]; · iexact HS
  iintro HS
  iapply (parts10_14_spec m K c v2 v5 v6 v7 v8 v12 _)
  isplitl [HS]; · iexact HS
  iintro HS
  iapply (tail_spec m ρ K c Kt)
  isplitl [HS]; · iexact HS
  iexact Hk

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ WP[c]
    (atBufs (cc0_body (F := F))) (fun _ => bodyPost m ρ c)
  unfold bodyPre' Φ₀ start
  iintro ⟨⟨⟨⟨%K, Hrec, Hlin⟩, Hlev⟩, Hscr⟩, Ho, Hx, Hout⟩
  iapply (sound_body m ρ K c fun _ => bodyPost m ρ c)
  unfold bodyPre
  isplitr []
  · isplitl [Hrec Hlin Hlev Hscr]
    · iframe ∗ #
    isplitl [Ho]; · iexact Ho
    isplitl [Hx] <;> iassumption
  · iintro H; iexact H

end Cert.KernelIdeal.AllReduce

end
-- ==== Proof.Spec.lean ====
import Idealize.ShloMosaic.PureOps.Ideal

noncomputable section

namespace Cert.Spec

open Idealize.ShloMosaic

abbrev Blk : Shape := ⟨2, ![2048, 1024]⟩

def total (b : Fin 4 → Blk.Idx → EReal) : Blk.Idx → EReal :=
  fun i => (b 0 i + b 1 i) + (b 2 i + b 3 i)

end Cert.Spec

end
-- ==== Proof.KernelValue.lean ====
import proofs.«900178_g7700000000000179_dist_full2d_reduce_m2048_n1024_v7x_xy2x2_bf16_1_alg».proof.Proof.Values
import proofs.«900178_g7700000000000179_dist_full2d_reduce_m2048_n1024_v7x_xy2x2_bf16_1_alg».proof.Proof.Spec
import Idealize.ShloMosaic.Lib.ValueIdx
import Idealize.ShloMosaic.Lib.Pipeline.Value

noncomputable section

namespace Cert.KernelIdeal.AllReduce

open Cert.KernelIdeal Cert.KernelIdeal.Gen
open Idealize.ShloMosaic Idealize.ShloMosaic.TcCoe Idealize.ShloMosaic.ValueIdx
open Idealize.SL Idealize.SL.Sem

def rowAt (j : Fin 8) (p : Fin 256) (q : Fin 1024) : S2048x1024.Idx :=
  ix2 (⟨256 * j.val + p.val, by have := j.isLt; have := p.isLt; omega⟩ : Fin 2048) q

theorem eq_rowAt (i : S2048x1024.Idx) :
    i = rowAt (chunkIdx i) (⟨(i 0).val % 256, Nat.mod_lt _ (by decide)⟩ : Fin 256) (i 1) := by
  funext a
  match a with
  | ⟨0, _⟩ => exact Fin.ext (show (i 0).val = 256 * ((i 0).val / 256) + (i 0).val % 256 by omega)
  | ⟨1, _⟩ => rfl

theorem chunkIdx_rowAt (j : Fin 8) (p : Fin 256) (q : Fin 1024) : chunkIdx (rowAt j p q) = j := by
  have := j.isLt; have := p.isLt
  exact Fin.ext (show (256 * j.val + p.val) / 256 = j.val by omega)

theorem xs_eq (m : (ℓ : Loc nD τ sig) → Buf (Elt Ideal) ℓ) (c : Dev nD) :
    xs (F := Ideal) m c = m ((c : Thread nD τ).loc main_arg0) := by
  unfold xs
  funext i
  show m ((c : Thread nD τ).loc main_arg0) ((win0_0.blk (0 : Fin 1)).view.emb i) = _
  refine congrArg (m ((c : Thread nD τ).loc main_arg0)) (funext fun a => Fin.ext ?_)
  show 0 * _ + 1 * (i a).val = (i a).val
  omega

theorem xRead_at (j : Fin 8) (f : XC Ideal) (p : Fin 256) (q : Fin 1024) :
    xRead (F := Ideal) j f (ix2 p q) = f (rowAt j p q) := by
  unfold xRead rowAt
  show f ((xM.access (chunkRect j)).emb (ix2 p q)) = _
  refine congrArg f (funext fun a => Fin.ext ?_)
  match a with
  | ⟨0, _⟩ => show 256 * j.val + 1 * p.val = 256 * j.val + p.val; omega
  | ⟨1, _⟩ => show 0 + 1 * q.val = q.val; omega

theorem castV_eq (v : Vec Ideal S256x1024 .f32) : castV (F := Ideal) v = v := by
  show truncf (F := Ideal) .bf16 (shapeCast S256x1024 v _) _ = v
  rw [shapeCast_self]
  rfl

theorem p0_at (m : (ℓ : Loc nD τ sig) → Buf (Elt Ideal) ℓ) (d : Dev nD) (j : Fin 8) (p : Fin 256) (q : Fin 1024) :
    (p0 (F := Ideal) m d j (ix2 p q) : EReal) = m ((d : Thread nD τ).loc main_arg0) (rowAt j p q) := by
  unfold p0
  rw [castV_eq, xRead_at, xs_eq]

theorem sRead_cR (k : Fin 8) (w : Vec Ideal S256x1024 .bf16) (y : S256x1024.Idx) :
    sRead (F := Ideal) k (cR k w) (Shape.reshapeEquiv shapeCasts_S1x256x1024_S256x1024 y) = w y := by
  unfold sRead cR
  rw [View.read_apply]
  have he : (rM.access (slotRect k)).emb (Shape.reshapeEquiv shapeCasts_S1x256x1024_S256x1024 y) = (rSl k).view.emb y := rfl
  rw [he, View.write_emb_of_mem _ _ (Finset.mem_univ y), cast_cast, cast_eq]

theorem accV_slot (k : Fin 8) (a w : Vec Ideal S256x1024 .bf16) (y : S256x1024.Idx) :
    (accV (F := Ideal) a (sRead k (cR k w)) y : EReal) = a y + w y := by
  show (shapeCast S256x1024 a _ y : EReal) + shapeCast S256x1024 (sRead (F := Ideal) k (cR k w)) shapeCasts_S1x256x1024_S256x1024 y = _
  rw [shapeCast_self]
  unfold shapeCast
  rw [sRead_cR]

theorem cO_at (j : Fin 8) (w : Vec Ideal S256x1024 .bf16) (p : Fin 256) (q : Fin 1024) :
    cO (F := Ideal) j w (rowAt j p q) = w (ix2 p q) := by
  have he : (oCh j).view.emb (ix2 p q) = rowAt j p q := by
    unfold rowAt
    refine funext fun a => Fin.ext ?_
    match a with
    | ⟨0, _⟩ => show 256 * j.val + 1 * p.val = 256 * j.val + p.val; omega
    | ⟨1, _⟩ => show 0 + 1 * q.val = q.val; omega
  rw [← congrFun (read_cO (F := Ideal) j w) (ix2 p q), ← he]
  rfl

theorem outAt_at (m : (ℓ : Loc nD τ sig) → Buf (Elt Ideal) ℓ) (c : Dev nD) (j : Fin 8) (p : Fin 256) (q : Fin 1024) :
    outAt (F := Ideal) m c (rowAt j p q) = outVal m c j (ix2 p q) := by
  unfold outAt glueO
  show cO (chunkIdx (rowAt j p q)) (outVal m c (chunkIdx (rowAt j p q))) (rowAt j p q) = _
  rw [chunkIdx_rowAt]
  exact cO_at j _ p q

/-- c, its two neighbours and the opposite corner are the four devices, in some order; addition of extended reals is commutative and associative. -/
theorem four_sum (g : Dev nD → EReal) (c : Dev nD) :
    (g c + g (xn c)) + (g (yn c) + g (xn (yn c))) = (g 0 + g 1) + (g 2 + g 3) := by
  have h : (c = 0 ∧ xn c = 2 ∧ yn c = 1 ∧ xn (yn c) = 3) ∨ (c = 1 ∧ xn c = 3 ∧ yn c = 0 ∧ xn (yn c) = 2)
      ∨ (c = 2 ∧ xn c = 0 ∧ yn c = 3 ∧ xn (yn c) = 1) ∨ (c = 3 ∧ xn c = 1 ∧ yn c = 2 ∧ xn (yn c) = 0) := by
    revert c; decide
  rcases h with ⟨h0, h1, h2, h3⟩ | ⟨h0, h1, h2, h3⟩ | ⟨h0, h1, h2, h3⟩ | ⟨h0, h1, h2, h3⟩
  · rw [h3, h2, h1, h0, add_add_add_comm]
  · rw [h3, h2, h1, h0, add_comm (g 1 + g 3), add_add_add_comm]
  · rw [h3, h2, h1, h0, add_comm (g 2), add_comm (g 3), add_add_add_comm]
  · rw [h3, h2, h1, h0, add_comm (g 3), add_comm (g 2), add_comm (g 1 + g 3), add_add_add_comm]

def inAt (m : (ℓ : Loc nD τ sig) → Buf (Elt Ideal) ℓ) (d : Dev nD) (j : Fin 8) (p : Fin 256) (q : Fin 1024) : EReal :=
  m ((d : Thread nD τ).loc main_arg0) (rowAt j p q)

theorem total_at (m : (ℓ : Loc nD τ sig) → Buf (Elt Ideal) ℓ) (j : Fin 8) (p : Fin 256) (q : Fin 1024) :
    Cert.Spec.total (fun d : Fin 4 => (m (((d : Dev nD) : Thread nD τ).loc main_arg0) : S2048x1024.Idx → EReal)) (rowAt j p q)
      = (inAt m 0 j p q + inAt m 1 j p q) + (inAt m 2 j p q + inAt m 3 j p q) := rfl

theorem pa_at (m : (ℓ : Loc nD τ sig) → Buf (Elt Ideal) ℓ) (c : Dev nD) (r : Fin 2) (p : Fin 256) (q : Fin 1024) :
    (pa (F := Ideal) m c r (ix2 p q) : EReal) = inAt m c (aK c r) p q + inAt m (xn c) (aK c r) p q := by
  unfold pa inAt
  rw [accV_slot, p0_at, p0_at]

theorem pb_at (m : (ℓ : Loc nD τ sig) → Buf (Elt Ideal) ℓ) (c : Dev nD) (r : Fin 2) (p : Fin 256) (q : Fin 1024) :
    (pb (F := Ideal) m c r (ix2 p q) : EReal) = inAt m c (bK c r) p q + inAt m (yn c) (bK c r) p q := by
  unfold pb inAt
  rw [accV_slot, p0_at, p0_at]

theorem fa_at (m : (ℓ : Loc nD τ sig) → Buf (Elt Ideal) ℓ) (c : Dev nD) (r : Fin 2) (p : Fin 256) (q : Fin 1024) :
    (fa (F := Ideal) m c r (ix2 p q) : EReal)
      = (inAt m 0 (aK c r) p q + inAt m 1 (aK c r) p q) + (inAt m 2 (aK c r) p q + inAt m 3 (aK c r) p q) := by
  unfold fa
  rw [accV_slot, pa_at, pa_at, aK_yn]
  exact four_sum (fun d => inAt m d (aK c r) p q) c

theorem fb_at (m : (ℓ : Loc nD τ sig) → Buf (Elt Ideal) ℓ) (c : Dev nD) (r : Fin 2) (p : Fin 256) (q : Fin 1024) :
    (fb (F := Ideal) m c r (ix2 p q) : EReal)
      = (inAt m 0 (bK c r) p q + inAt m 1 (bK c r) p q) + (inAt m 2 (bK c r) p q + inAt m 3 (bK c r) p q) := by
  unfold fb
  rw [accV_slot, pb_at, pb_at, bK_xn, add_add_add_comm, ← xn_yn]
  exact four_sum (fun d => inAt m d (bK c r) p q) c

theorem outVal_at (m : (ℓ : Loc nD τ sig) → Buf (Elt Ideal) ℓ) (c : Dev nD) (j : Fin 8) (p : Fin 256) (q : Fin 1024) :
    (outVal (F := Ideal) m c j (ix2 p q) : EReal)
      = (inAt m 0 j p q + inAt m 1 j p q) + (inAt m 2 j p q + inAt m 3 j p q) := by
  rcases chunk_cases c j with ⟨r, rfl⟩ | ⟨r, rfl⟩ | ⟨r, rfl⟩ | ⟨r, rfl⟩
  · rw [outVal_aK, fa_at]
  · rw [outVal_aS, fa_at, aK_xn]
  · rw [outVal_bK, fb_at]
  · rw [outVal_bS, fb_at, bK_yn]

/-- Entry by entry a device's result is the sum of the four devices' inputs: each chunk is a kept or a sent one, and both end at the four-device sum. -/
theorem outAt_total (m : (ℓ : Loc nD τ sig) → Buf (Elt Ideal) ℓ) (c : Dev nD) :
    (outAt (F := Ideal) m c : S2048x1024.Idx → EReal)
      = Cert.Spec.total (fun d : Fin 4 => (m (((d : Dev nD) : Thread nD τ).loc main_arg0) : S2048x1024.Idx → EReal)) := by
  refine funext fun (i : S2048x1024.Idx) => ?_
  obtain ⟨j, p, q, rfl⟩ : ∃ (j : Fin 8) (p : Fin 256) (q : Fin 1024), i = rowAt j p q := ⟨_, _, _, eq_rowAt i⟩
  rw [outAt_at, outVal_at, total_at]

end Cert.KernelIdeal.AllReduce

end
-- ==== Proof.RefValue.lean ====
import proofs.«900178_g7700000000000179_dist_full2d_reduce_m2048_n1024_v7x_xy2x2_bf16_1_alg».proof.Proof.Gen.ReferenceIdeal.Run
import proofs.«900178_g7700000000000179_dist_full2d_reduce_m2048_n1024_v7x_xy2x2_bf16_1_alg».proof.Proof.Gen.ReferenceIdeal.Read
import proofs.«900178_g7700000000000179_dist_full2d_reduce_m2048_n1024_v7x_xy2x2_bf16_1_alg».proof.Proof.Spec
import proofs.«900178_g7700000000000179_dist_full2d_reduce_m2048_n1024_v7x_xy2x2_bf16_1_alg».proof.Defs
import Idealize.ShloMosaic.Lib.Layout
import Idealize.ShloMosaic.Lib.IdealHost
import Idealize.ShloMosaic.Lib.ValueIdx
import Idealize.ShloMosaic.PureOps.Reduce

noncomputable section

namespace Cert.ReferenceIdeal.RefValue

open Idealize.ShloMosaic Idealize.SL.Sem Idealize.ShloMosaic.ValueIdx
open Cert.ReferenceIdeal
open scoped BigOperators

def entry (X : (⟨S4096x2048, .f32⟩ : BufTy).Contents (Elt Ideal)) (a c : Fin 2) (p : Fin 2048) (q : Fin 1024) : EReal :=
  X (ix2 (⟨2048 * a.val + p.val, by have := a.isLt; have := p.isLt; omega⟩ : Fin 4096)
    (⟨1024 * c.val + q.val, by have := c.isLt; have := q.isLt; omega⟩ : Fin 2048))

theorem reshaped_at (X : (⟨S4096x2048, .f32⟩ : BufTy).Contents (Elt Ideal)) (a c : Fin 2) (p : Fin 2048) (q : Fin 1024) :
    Read.val_main_v0 (F := Ideal) X (ix4 a p c q) = entry X a c p q := by
  rw [Read.val_main_v0_apply]
  unfold entry
  refine congrArg X (funext fun b => Fin.ext ?_)
  have ha := a.isLt; have hp := p.isLt; have hc := c.isLt; have hq := q.isLt
  match b with
  | ⟨0, _⟩ =>
    show (((a.val * 2048 + p.val) * 2 + c.val) * 1024 + q.val) / 2048 = 2048 * a.val + p.val
    omega
  | ⟨1, _⟩ =>
    show (((a.val * 2048 + p.val) * 2 + c.val) * 1024 + q.val) % 2048 = 1024 * c.val + q.val
    omega

theorem sum_dropped (h : S2x2048x2x1024.ReducesTo [0, 2] S2048x1024) (y : S2x2048x2x1024.Idx → EReal)
    (p : Fin 2048) (q : Fin 1024) [DecidablePred fun i : S2x2048x2x1024.Idx => h.drop i = ix2 p q] :
    ∑ i ∈ Finset.univ.filter (fun i : S2x2048x2x1024.Idx => h.drop i = ix2 p q), y i
      = ∑ a : Fin 2, ∑ c : Fin 2, y (ix4 a p c q) := by
  have hv0 : ∀ i : S2x2048x2x1024.Idx, (h.drop i 0 : Nat) = i 1 := fun i =>
    Shape.ReducesTo.drop_apply_val_of_eq h i 0 1
  have hv1 : ∀ i : S2x2048x2x1024.Idx, (h.drop i 1 : Nat) = i 3 := fun i =>
    Shape.ReducesTo.drop_apply_val_of_eq h i 1 3
  have hdrop : ∀ (a c : Fin 2), h.drop (ix4 a p c q) = ix2 p q := fun a c => by
    funext b
    match b with
    | ⟨0, _⟩ => exact Fin.ext (hv0 _)
    | ⟨1, _⟩ => exact Fin.ext (hv1 _)
  have hback : ∀ i : S2x2048x2x1024.Idx, h.drop i = ix2 p q → ix4 (i 0) p (i 2) q = i := fun i e => by
    have e0 : (i 1 : Nat) = p := by rw [← hv0 i, e]
    have e1 : (i 3 : Nat) = q := by rw [← hv1 i, e]
    funext b
    match b with
    | ⟨0, _⟩ => rfl
    | ⟨1, _⟩ => exact Fin.ext e0.symm
    | ⟨2, _⟩ => rfl
    | ⟨3, _⟩ => exact Fin.ext e1.symm
  rw [← Fintype.sum_prod_type' (f := fun (a c : Fin 2) => y (ix4 a p c q))]
  refine Finset.sum_bij' (fun i _ => ((i 0, i 2) : Fin 2 × Fin 2)) (fun ac _ => ix4 ac.1 p ac.2 q)
    (fun _ _ => Finset.mem_univ _)
    (fun ac _ => Finset.mem_filter.2 ⟨Finset.mem_univ _, hdrop ac.1 ac.2⟩)
    (fun i hi => hback i (Finset.mem_filter.1 hi).2) (fun _ _ => rfl) ?_
  intro i hi
  exact (congrArg y (hback i (Finset.mem_filter.1 hi).2)).symm

/-- The reference reshapes to 2 × 2048 × 2 × 1024 and sums over the two block axes: at (p, q) the four entries one from each block. -/
theorem summed_at (X : (⟨S4096x2048, .f32⟩ : BufTy).Contents (Elt Ideal)) (p : Fin 2048) (q : Fin 1024) :
    Read.val_main_v1 (F := Ideal) X (ix2 p q)
      = (entry X 0 0 p q + entry X 0 1 p q) + (entry X 1 0 p q + entry X 1 1 p q) := by
  unfold Read.val_main_v1
  rw [hostReduceAdd_apply]
  unfold Ideal.hostReduceAdd
  rw [sum_dropped, Read.val_main_cst_apply, Ideal.ofBits_def, Ideal.ofBits_zero_f32, zero_add,
    Fin.sum_univ_two, Fin.sum_univ_two, Fin.sum_univ_two]
  simp only [reshaped_at]

/-- Device d = 2 a + c holds block (a, c) of the whole array. -/
theorem block_at (X : (⟨S4096x2048, .f32⟩ : BufTy).Contents (Elt Ideal)) (a c : Fin 2) (p : Fin 2048) (q : Fin 1024)
    (d : Fin 4) (hd : d.val = 2 * a.val + c.val) :
    (Layout.blockN ⟨2, ![2048, 1024]⟩ ⟨2, ![4096, 2048]⟩ (Layout.meshBlock [2, 2] ![[0], [1]] d) X) (ix2 p q)
      = entry X a c p q := by
  rw [Layout.blockN_apply]
  unfold entry
  refine congrArg X (funext fun b => Fin.ext ?_)
  have ha := a.isLt; have hc := c.isLt
  rw [Layout.TilesN.idx_val]
  match b with
  | ⟨0, _⟩ =>
    show Layout.meshLin [2, 2] d.val [0] * 2048 + p.val = 2048 * a.val + p.val
    have : Layout.meshLin [2, 2] d.val [0] = a.val := by
      show d.val / 2 % 2 * 1 + 0 = a.val
      omega
    omega
  | ⟨1, _⟩ =>
    show Layout.meshLin [2, 2] d.val [1] * 1024 + q.val = 1024 * c.val + q.val
    have : Layout.meshLin [2, 2] d.val [1] = c.val := by
      show d.val / 1 % 2 * 1 + 0 = c.val
      omega
    omega

theorem ref_total [hReferenceIdeal : Cert.ReferenceIdeal.Facts] (X : (⟨S4096x2048, .f32⟩ : BufTy).Contents (Elt Ideal)) :
    truncf (F := Ideal) .bf16 (Host.reduceAdd (F := Ideal) (shapeCast _ X Facts₀.shapeCasts_S4096x2048_S2x2048x2x1024) (constant (F := Ideal) S_ .f32 0x00000000#32) Facts₀.reducesTo_S2x2048x2x1024_S2048x1024_d0_2 Facts₀.h_S_) Facts₀.bitsLt_bf16_f32
      = Cert.Spec.total (fun d : Fin 4 =>
          Layout.blockN ⟨2, ![2048, 1024]⟩ ⟨2, ![4096, 2048]⟩ (Layout.meshBlock [2, 2] ![[0], [1]] d) X) := by
  rw [Read.val_main_v2_eq]
  funext i
  obtain ⟨p, q, rfl⟩ : ∃ (p : Fin 2048) (q : Fin 1024), i = ix2 p q := ⟨i 0, i 1, eq_ix2 i⟩
  rw [Read.val_main_v2_apply, Ideal.truncf_def, summed_at]
  unfold Cert.Spec.total
  beta_reduce
  rw [block_at X 0 0 p q 0 rfl, block_at X 0 1 p q 1 rfl, block_at X 1 0 p q 2 rfl, block_at X 1 1 p q 3 rfl]

theorem frame_ri [hReferenceIdeal : Cert.ReferenceIdeal.Facts]
    [hPre_finite_inputs_ReferenceIdeal : Cert.Pre_finite_inputs_ReferenceIdeal.Facts] :
    Cert.frame_ReferenceIdeal :=
  fun m ρ _ => (θ_run Cert.ReferenceIdeal.defs _ _).mono (fun _ h c => (h c).2) (Cert.ReferenceIdeal.Value.run (F := Ideal) m ρ)

theorem ref_run [hReferenceIdeal : Cert.ReferenceIdeal.Facts]
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v2)
          = Cert.Spec.total (fun d : Fin 4 =>
              Layout.blockN ⟨2, ![2048, 1024]⟩ ⟨2, ![4096, 2048]⟩ (Layout.meshBlock [2, 2] ![[0], [1]] d)
                (m' (((0 : Dev Cert.ReferenceIdeal.nD).tc : Thread Cert.ReferenceIdeal.nD Cert.ReferenceIdeal.τ).loc Cert.ReferenceIdeal.main_arg0)))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (ref_total _), (h 0).2⟩)
    (Cert.ReferenceIdeal.Value.run (F := Ideal) m' g')

end Cert.ReferenceIdeal.RefValue

end
-- ==== Proof.Claims.lean ====
import proofs.«900178_g7700000000000179_dist_full2d_reduce_m2048_n1024_v7x_xy2x2_bf16_1_alg».proof.Defs
import proofs.«900178_g7700000000000179_dist_full2d_reduce_m2048_n1024_v7x_xy2x2_bf16_1_alg».proof.Proof.Launch
import proofs.«900178_g7700000000000179_dist_full2d_reduce_m2048_n1024_v7x_xy2x2_bf16_1_alg».proof.Proof.Body
import proofs.«900178_g7700000000000179_dist_full2d_reduce_m2048_n1024_v7x_xy2x2_bf16_1_alg».proof.Proof.KernelValue
import proofs.«900178_g7700000000000179_dist_full2d_reduce_m2048_n1024_v7x_xy2x2_bf16_1_alg».proof.Proof.RefValue
import proofs.«900178_g7700000000000179_dist_full2d_reduce_m2048_n1024_v7x_xy2x2_bf16_1_alg».proof.Proof.Gen.KernelIdeal
import proofs.«900178_g7700000000000179_dist_full2d_reduce_m2048_n1024_v7x_xy2x2_bf16_1_alg».proof.Proof.Gen.ReferenceIdeal
import proofs.«900178_g7700000000000179_dist_full2d_reduce_m2048_n1024_v7x_xy2x2_bf16_1_alg».proof.Proof.Gen.Pre_finite_inputs_Kernel

noncomputable section

namespace Cert.KernelIdeal.AllReduce

open Cert.KernelIdeal Cert.KernelIdeal.Gen
open Idealize.ShloMosaic
open Idealize.ShloMosaic.TcCoe
open Idealize.SL Idealize.SL.Sem
open Idealize.ShloMosaic.Pipeline (Dat Cfg Window BodyObligation cellOf)

theorem frame_pi : Cert.frame_KernelIdeal :=
  fun m ρ _ => (θ_run _ _ _).mono (fun r h c => ((h c) (0 : Fin 2)).trans (finalA_x m ρ c))
    (run_main (F := Ideal) m ρ (body_obligation m ρ))

/-- Each device's argument is its block of the reference's array, so the kernel's sum of the four devices' inputs is the reference's sum of the four blocks. -/
theorem algebraic : Cert.algebraic_KernelIdeal_ReferenceIdeal := by
  intro m ρ m' ρ' _ hagree
  refine ⟨Cert.Spec.total (fun d : Fin 4 =>
      Layout.blockN ⟨2, ![2048, 1024]⟩ ⟨2, ![4096, 2048]⟩ (Layout.meshBlock [2, 2] ![[0], [1]] d)
        (m' (((0 : Dev Cert.ReferenceIdeal.nD).tc : Thread Cert.ReferenceIdeal.nD Cert.ReferenceIdeal.τ).loc Cert.ReferenceIdeal.main_arg0))),
    ?_, Cert.ReferenceIdeal.RefValue.ref_run m' ρ'⟩
  refine (θ_run _ _ _).mono (fun r h c => ⟨?_, ((h c) (0 : Fin 2)).trans (finalA_x m ρ c)⟩)
    (run_main (F := Ideal) m ρ (body_obligation m ρ))
  refine ((h c) (1 : Fin 2)).trans ((finalA_out m ρ c).trans ((outAt_total m c).trans ?_))
  exact congrArg Cert.Spec.total (funext fun d => hagree d)

end Cert.KernelIdeal.AllReduce

end
-- ==== Proof.Bits.Mesh.lean ====
import proofs.«900178_g7700000000000179_dist_full2d_reduce_m2048_n1024_v7x_xy2x2_bf16_1_alg».proof.Proof.Gen.Kernel

noncomputable section

namespace Cert.Kernel.AllReduce

open Idealize.ShloMosaic
open Cert.Kernel Cert.Kernel.Gen

/-- The neighbour along the second mesh axis: c % 2 flipped. -/
def yn (c : Dev nD) : Dev nD := ⟨(2 * (c.val / 2) + 1) - (c.val % 2), (by decide : ∀ c : Dev nD, (2 * (c.val / 2) + 1) - (c.val % 2) < nD) c⟩

/-- The neighbour along the first mesh axis: c / 2 flipped. -/
def xn (c : Dev nD) : Dev nD := ⟨((c.val % 2) + 2) - 2 * (c.val / 2), (by decide : ∀ c : Dev nD, ((c.val % 2) + 2) - 2 * (c.val / 2) < nD) c⟩

theorem xn_xn (c : Dev nD) : xn (xn c) = c := by revert c; decide
theorem yn_yn (c : Dev nD) : yn (yn c) = c := by revert c; decide
theorem xn_yn (c : Dev nD) : xn (yn c) = yn (xn c) := by revert c; decide

def xEquiv : Dev nD ≃ Dev nD := ⟨xn, xn, xn_xn, xn_xn⟩
def yEquiv : Dev nD ≃ Dev nD := ⟨yn, yn, yn_yn, yn_yn⟩

theorem dev1_eq (c : Dev nD) : (⟨k0_dev1 c, k0_dev1_lt c⟩ : Dev nD) = yn c := Fin.ext (k0_dev1_eq c)
theorem dev2_eq (c : Dev nD) : (⟨k0_dev2 c, k0_dev2_lt c⟩ : Dev nD) = xn c := Fin.ext (k0_dev2_eq c)
theorem dev3_eq (c : Dev nD) : (⟨k0_dev3 c, k0_dev3_lt c⟩ : Dev nD) = xn c := Fin.ext (k0_dev3_eq c)
theorem dev4_eq (c : Dev nD) : (⟨k0_dev4 c, k0_dev4_lt c⟩ : Dev nD) = yn c := Fin.ext (k0_dev4_eq c)
theorem dev5_eq (c : Dev nD) : (⟨k0_dev5 c, k0_dev5_lt c⟩ : Dev nD) = xn c := Fin.ext (k0_dev5_eq c)
theorem dev6_eq (c : Dev nD) : (⟨k0_dev6 c, k0_dev6_lt c⟩ : Dev nD) = yn c := Fin.ext (k0_dev6_eq c)
theorem dev7_eq (c : Dev nD) : (⟨k0_dev7 c, k0_dev7_lt c⟩ : Dev nD) = yn c := Fin.ext (k0_dev7_eq c)
theorem dev8_eq (c : Dev nD) : (⟨k0_dev8 c, k0_dev8_lt c⟩ : Dev nD) = xn c := Fin.ext (k0_dev8_eq c)
theorem dev9_eq (c : Dev nD) : (⟨k0_dev9 c, k0_dev9_lt c⟩ : Dev nD) = yn c := Fin.ext (k0_dev9_eq c)
theorem dev10_eq (c : Dev nD) : (⟨k0_dev10 c, k0_dev10_lt c⟩ : Dev nD) = xn c := Fin.ext (k0_dev10_eq c)
theorem dev11_eq (c : Dev nD) : (⟨k0_dev11 c, k0_dev11_lt c⟩ : Dev nD) = xn c := Fin.ext (k0_dev11_eq c)
theorem dev12_eq (c : Dev nD) : (⟨k0_dev12 c, k0_dev12_lt c⟩ : Dev nD) = yn c := Fin.ext (k0_dev12_eq c)
theorem dev13_eq (c : Dev nD) : (⟨k0_dev13 c, k0_dev13_lt c⟩ : Dev nD) = xn c := Fin.ext (k0_dev13_eq c)
theorem dev14_eq (c : Dev nD) : (⟨k0_dev14 c, k0_dev14_lt c⟩ : Dev nD) = yn c := Fin.ext (k0_dev14_eq c)

/-- Of chunks 0 – 3, reduced first along the first axis, the two a device gives away to its neighbour on that axis. -/
def aS (c : Dev nD) (r : Fin 2) : Fin 8 := ⟨2 * (1 - c.val / 2) + r.val, (by decide : ∀ (c : Dev nD) (r : Fin 2), 2 * (1 - c.val / 2) + r.val < 8) c r⟩
/-- Of chunks 0 – 3 the two a device keeps: exactly those its first-axis neighbour gives away. -/
def aK (c : Dev nD) (r : Fin 2) : Fin 8 := ⟨2 * (c.val / 2) + r.val, (by decide : ∀ (c : Dev nD) (r : Fin 2), 2 * (c.val / 2) + r.val < 8) c r⟩
/-- Of chunks 4 – 7, reduced first along the second axis, the two a device gives away to its neighbour on that axis. -/
def bS (c : Dev nD) (r : Fin 2) : Fin 8 := ⟨4 + 2 * (1 - c.val % 2) + r.val, (by decide : ∀ (c : Dev nD) (r : Fin 2), 4 + 2 * (1 - c.val % 2) + r.val < 8) c r⟩
/-- Of chunks 4 – 7 the two a device keeps: exactly those its second-axis neighbour gives away. -/
def bK (c : Dev nD) (r : Fin 2) : Fin 8 := ⟨4 + 2 * (c.val % 2) + r.val, (by decide : ∀ (c : Dev nD) (r : Fin 2), 4 + 2 * (c.val % 2) + r.val < 8) c r⟩

theorem aS_xn (c : Dev nD) (r : Fin 2) : aS (xn c) r = aK c r := by revert c r; decide
theorem aK_xn (c : Dev nD) (r : Fin 2) : aK (xn c) r = aS c r := by revert c r; decide
theorem aK_yn (c : Dev nD) (r : Fin 2) : aK (yn c) r = aK c r := by revert c r; decide
theorem bS_yn (c : Dev nD) (r : Fin 2) : bS (yn c) r = bK c r := by revert c r; decide
theorem bK_yn (c : Dev nD) (r : Fin 2) : bK (yn c) r = bS c r := by revert c r; decide
theorem bK_xn (c : Dev nD) (r : Fin 2) : bK (xn c) r = bK c r := by revert c r; decide

theorem chunk_cases (c : Dev nD) (j : Fin 8) :
    (∃ r, j = aK c r) ∨ (∃ r, j = aS c r) ∨ (∃ r, j = bK c r) ∨ (∃ r, j = bS c r) := by revert c j; decide

/-- Chunk j is rows [256 j, 256 j + 256) of a 2048 × 1024 buffer. -/
def chunkOff (j : Fin 8) : Fin 2 → Nat := ![256 * j.val, 0]

theorem chunkOff_inb (j : Fin 8) : ∀ a, chunkOff j a + S256x1024.size a ≤ S2048x1024.size a := by revert j; decide

theorem off1_eq (c : Dev nD) (r : Fin 2) : k0_off1 c (BitVec.ofNat 32 (256 * r.val)) = chunkOff (aS c r) :=
  (k0_off1_eq c r).trans ((by decide : ∀ (c : Dev nD) (r : Fin 2), (![(256 * r.val + 512) - 512 * (c.val / 2), 0] : Fin 2 → Nat) = chunkOff (aS c r)) c r)
theorem off2_eq (c : Dev nD) (r : Fin 2) : k0_off2 c (BitVec.ofNat 32 (256 * r.val)) = chunkOff (aS c r) :=
  (k0_off2_eq c r).trans ((by decide : ∀ (c : Dev nD) (r : Fin 2), (![(256 * r.val + 512) - 512 * (c.val / 2), 0] : Fin 2 → Nat) = chunkOff (aS c r)) c r)
theorem off3_eq (c : Dev nD) (r : Fin 2) : k0_off3 c (BitVec.ofNat 32 (256 * r.val)) = chunkOff (bS c r) :=
  (k0_off3_eq c r).trans ((by decide : ∀ (c : Dev nD) (r : Fin 2), (![(256 * r.val + 1536) - 512 * (c.val % 2), 0] : Fin 2 → Nat) = chunkOff (bS c r)) c r)
theorem off4_eq (c : Dev nD) (r : Fin 2) : k0_off4 c (BitVec.ofNat 32 (256 * r.val)) = chunkOff (bS c r) :=
  (k0_off4_eq c r).trans ((by decide : ∀ (c : Dev nD) (r : Fin 2), (![(256 * r.val + 1536) - 512 * (c.val % 2), 0] : Fin 2 → Nat) = chunkOff (bS c r)) c r)
theorem off5_eq (c : Dev nD) (r : Fin 2) : k0_off5 c (BitVec.ofNat 32 (256 * r.val)) = chunkOff (aK c r) :=
  (k0_off5_eq c r).trans ((by decide : ∀ (c : Dev nD) (r : Fin 2), (![512 * (c.val / 2) + 256 * r.val, 0] : Fin 2 → Nat) = chunkOff (aK c r)) c r)
theorem off6_eq (c : Dev nD) (r : Fin 2) : k0_off6 c (BitVec.ofNat 32 (256 * r.val)) = chunkOff (bK c r) :=
  (k0_off6_eq c r).trans ((by decide : ∀ (c : Dev nD) (r : Fin 2), (![512 * (c.val % 2) + 256 * r.val + 1024, 0] : Fin 2 → Nat) = chunkOff (bK c r)) c r)
theorem off7_eq (c : Dev nD) (r : Fin 2) : k0_off7 c (BitVec.ofNat 32 (256 * r.val)) = chunkOff (aK c r) :=
  (k0_off7_eq c r).trans ((by decide : ∀ (c : Dev nD) (r : Fin 2), (![512 * (c.val / 2) + 256 * r.val, 0] : Fin 2 → Nat) = chunkOff (aK c r)) c r)
theorem off8_eq (c : Dev nD) (r : Fin 2) : k0_off8 c (BitVec.ofNat 32 (256 * r.val)) = chunkOff (bK c r) :=
  (k0_off8_eq c r).trans ((by decide : ∀ (c : Dev nD) (r : Fin 2), (![512 * (c.val % 2) + 256 * r.val + 1024, 0] : Fin 2 → Nat) = chunkOff (bK c r)) c r)

end Cert.Kernel.AllReduce

end
-- ==== Proof.Bits.Views.lean ====
import proofs.«900178_g7700000000000179_dist_full2d_reduce_m2048_n1024_v7x_xy2x2_bf16_1_alg».proof.Proof.Bits.Mesh
import proofs.«900178_g7700000000000179_dist_full2d_reduce_m2048_n1024_v7x_xy2x2_bf16_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev xM : Memref sig .tc .vmem S2048x1024 .f32 := Memref.whole cc0_stg0_0
abbrev oM : Memref sig .tc .vmem S2048x1024 .bf16 := Memref.whole cc0_stg1_0
abbrev rM : Memref sig .tc .vmem S8x256x1024 .bf16 := Memref.whole cc0_scratch0

abbrev XC (F : FTy → Type) [FloatOps F] : Type := (cc0_stg0_0 : Ref sig .tc).ty.Contents (Elt F)
abbrev OC (F : FTy → Type) [FloatOps F] : Type := (cc0_stg1_0 : Ref sig .tc).ty.Contents (Elt F)
abbrev RC (F : FTy → Type) [FloatOps F] : Type := (cc0_scratch0 : Ref sig .tc).ty.Contents (Elt F)

abbrev chunkRect (j : Fin 8) : Rect S2048x1024 := Rect.unit (s := S2048x1024) (chunkOff j) S256x1024.size (chunkOff_inb j)
abbrev oCh (j : Fin 8) : Memref sig .tc .vmem S256x1024 .bf16 := oM.slice (chunkRect j) (fun _ => rfl)

def slotOff (k : Fin 8) : Fin 3 → Nat := ![k.val, 0, 0]
theorem slotOff_inb (k : Fin 8) : ∀ a, slotOff k a + S1x256x1024.size a ≤ S8x256x1024.size a := by revert k; decide
abbrev slotRect (k : Fin 8) : Rect S8x256x1024 := Rect.unit (s := S8x256x1024) (slotOff k) S1x256x1024.size (slotOff_inb k)
abbrev rSl (k : Fin 8) : Memref sig .tc .vmem S256x1024 .bf16 :=
  (rM.slice (slotRect k) (fun _ => rfl)).squeeze S256x1024 squeezes_S1x256x1024_S256x1024

/-- Ownership is held chunk by chunk (result buffer) and slot by slot (receive buffer): a part is lent to a copy or handed to a neighbour independently of the others. -/
def oPts (c : Dev nD) (j : Fin 8) (f : OC F) : sProp 𝕄 :=
  (oCh j).view.loc (c : Thread nD τ) ↦[(oCh j).view.set]{fullShare} f

def rPts (c : Dev nD) (k : Fin 8) (f : RC F) : sProp 𝕄 :=
  (rSl k).view.loc (c : Thread nD τ) ↦[(rSl k).view.set]{fullShare} f

omit [FloatOps F] in
instance oPts_storable (c : Dev nD) (j : Fin 8) (f : OC F) : BI.Storable (upEmb : UEmb _ 𝕄) (oPts (F := F) c j f) := by unfold oPts; infer_instance
omit [FloatOps F] in
instance rPts_storable (c : Dev nD) (k : Fin 8) (f : RC F) : BI.Storable (upEmb : UEmb _ 𝕄) (rPts (F := F) c k f) := by unfold rPts; infer_instance

def zO : OC F := fun _ => default
def zR : RC F := fun _ => default

/-- Off a part the contents do not matter, so every part is stated over one fixed base overwritten with the part's values. -/
def cO (j : Fin 8) (w : Vec F S256x1024 .bf16) : OC F := (oCh j).view.write (Elt F) zO w Finset.univ
def cR (k : Fin 8) (w : Vec F S256x1024 .bf16) : RC F := (rSl k).view.write (Elt F) zR w Finset.univ

theorem write_univ_eq_on_set {sg : RefSig} {κ : Kind} {sp : Space} {s : Shape} {e : EltTy} {Val : EltTy → Type}
    (v : View sg κ sp s e) (f g : v.ty.Contents Val) (w : s.Idx → Val e) {i : v.ty.Idx} (hi : i ∈ v.set) :
    v.write Val f w Finset.univ i = v.write Val g w Finset.univ i := by
  obtain ⟨y, rfl⟩ := View.exists_emb_of_mem_set v hi
  rw [View.write_emb_of_mem _ _ (Finset.mem_univ y), View.write_emb_of_mem _ _ (Finset.mem_univ y)]

theorem oPts_norm (c : Dev nD) (j : Fin 8) (f : OC F) (w : Vec F S256x1024 .bf16) :
    oPts c j ((oCh j).view.write (Elt F) f w Finset.univ) = oPts c j (cO j w) := by
  unfold oPts cO
  exact pointsTo_congr fun i hi => write_univ_eq_on_set (oCh j).view f zO w hi
theorem rPts_norm (c : Dev nD) (k : Fin 8) (f : RC F) (w : Vec F S256x1024 .bf16) :
    rPts c k ((rSl k).view.write (Elt F) f w Finset.univ) = rPts c k (cR k w) := by
  unfold rPts cR
  exact pointsTo_congr fun i hi => write_univ_eq_on_set (rSl k).view f zR w hi

theorem read_cO (j : Fin 8) (w : Vec F S256x1024 .bf16) : (oCh j).view.read (Elt F) (cO j w) = w :=
  View.read_write_univ _ _

def chunkIdx (i : S2048x1024.Idx) : Fin 8 := ⟨(i 0).val / 256, by have h : (i 0).val < 2048 := (i 0).isLt; omega⟩

def glueO (fs : Fin 8 → OC F) : OC F := fun i => fs (chunkIdx i) i

theorem mem_chunkRect (j : Fin 8) (i : S2048x1024.Idx) : i ∈ (chunkRect j).set ↔ chunkIdx i = j := by
  rw [Rect.mem_set_unit]
  have hi0 : (i 0).val < 2048 := (i 0).isLt
  have hi1 : (i 1).val < 1024 := (i 1).isLt
  constructor
  · intro h
    have h0 : 256 * j.val ≤ (i 0).val ∧ (i 0).val < 256 * j.val + 256 := h 0
    apply Fin.ext
    show (i 0).val / 256 = j.val
    omega
  · intro h a
    have hj : (i 0).val / 256 = j.val := congrArg Fin.val h
    have ha : a = 0 ∨ a = 1 := by revert a; decide
    rcases ha with rfl | rfl
    · show 256 * j.val ≤ (i 0).val ∧ (i 0).val < 256 * j.val + 256
      omega
    · show 0 ≤ (i 1).val ∧ (i 1).val < 0 + 1024
      omega

theorem oCh_mem (j : Fin 8) (i : S2048x1024.Idx) : i ∈ (oCh j).view.set ↔ chunkIdx i = j := by
  rw [show (oCh j).view.set = (chunkRect j).set from View.set_slice_whole _ _]
  exact mem_chunkRect j i

theorem oCh_cover : (Finset.univ : Finset S2048x1024.Idx) = Finset.univ.biUnion (fun j : Fin 8 => (oCh j).view.set) := by
  ext i
  simp only [Finset.mem_univ, Finset.mem_biUnion, true_and, true_iff]
  exact ⟨chunkIdx i, (oCh_mem _ i).mpr rfl⟩
theorem oCh_disj (j j' : Fin 8) (h : j ≠ j') : Disjoint (oCh j).view.set (oCh j').view.set := by
  rw [Finset.disjoint_left]
  intro i hi hi'
  exact h (((oCh_mem j i).mp hi).symm.trans ((oCh_mem j' i).mp hi'))

/-- The chunks partition the buffer's indices (an index lies in chunk row / 256), so the whole buffer is the separating conjunction of its eight chunks. -/
theorem o_split (c : Dev nD) (f : OC F) :
    (((c : Thread nD τ).loc cc0_stg1_0) ↦{fullShare} f : sProp 𝕄) = bigSep Finset.univ (fun j : Fin 8 => oPts c j f) := by
  unfold oPts
  have key : (((c : Thread nD τ).loc cc0_stg1_0) ↦[Finset.univ.biUnion (fun j : Fin 8 => (oCh j).view.set)]{fullShare} f : sProp 𝕄)
      = bigSep Finset.univ (fun j : Fin 8 => ((c : Thread nD τ).loc cc0_stg1_0) ↦[(oCh j).view.set]{fullShare} f) :=
    pointsTo_biUnion Finset.univ _ (fun j _ j' _ h => oCh_disj j j' h)
  rw [← oCh_cover] at key
  exact key
theorem o_join (c : Dev nD) (fs : Fin 8 → OC F) :
    bigSep Finset.univ (fun j : Fin 8 => oPts c j (fs j)) = (((c : Thread nD τ).loc cc0_stg1_0) ↦{fullShare} glueO fs : sProp 𝕄) := by
  rw [o_split c (glueO fs)]
  refine bigSep_congr fun j _ => ?_
  unfold oPts
  refine pointsTo_congr fun i hi => ?_
  show fs j i = fs (chunkIdx i) i
  rw [(oCh_mem j i).mp hi]

theorem mem_slotRect (k : Fin 8) (i : S8x256x1024.Idx) : i ∈ (slotRect k).set ↔ (i 0).val = k.val := by
  rw [Rect.mem_set_unit]
  have hi0 : (i 0).val < 8 := (i 0).isLt
  have hi1 : (i 1).val < 256 := (i 1).isLt
  have hi2 : (i 2).val < 1024 := (i 2).isLt
  constructor
  · intro h
    have h0 : k.val ≤ (i 0).val ∧ (i 0).val < k.val + 1 := h 0
    omega
  · intro h a
    have ha : a = 0 ∨ a = 1 ∨ a = 2 := by revert a; decide
    rcases ha with rfl | rfl | rfl
    · show k.val ≤ (i 0).val ∧ (i 0).val < k.val + 1
      omega
    · show 0 ≤ (i 1).val ∧ (i 1).val < 0 + 256
      omega
    · show 0 ≤ (i 2).val ∧ (i 2).val < 0 + 1024
      omega

theorem rSl_mem (k : Fin 8) (i : S8x256x1024.Idx) : i ∈ (rSl k).view.set ↔ (i 0).val = k.val := by
  rw [show (rSl k).view.set = (slotRect k).set from
    (View.set_reshape _ _).trans (View.set_slice_whole _ _)]
  exact mem_slotRect k i

theorem rSl_cover : (Finset.univ : Finset S8x256x1024.Idx) = Finset.univ.biUnion (fun k : Fin 8 => (rSl k).view.set) := by
  ext i
  simp only [Finset.mem_univ, Finset.mem_biUnion, true_and, true_iff]
  exact ⟨⟨(i 0).val, (i 0).isLt⟩, (rSl_mem _ i).mpr rfl⟩
theorem rSl_disj (k k' : Fin 8) (h : k ≠ k') : Disjoint (rSl k).view.set (rSl k').view.set := by
  rw [Finset.disjoint_left]
  intro i hi hi'
  exact h (Fin.ext (((rSl_mem k i).mp hi).symm.trans ((rSl_mem k' i).mp hi')))

theorem r_split (c : Dev nD) (f : RC F) :
    (((c : Thread nD τ).loc cc0_scratch0) ↦{fullShare} f : sProp 𝕄) = bigSep Finset.univ (fun k : Fin 8 => rPts c k f) := by
  unfold rPts
  have key : (((c : Thread nD τ).loc cc0_scratch0) ↦[Finset.univ.biUnion (fun k : Fin 8 => (rSl k).view.set)]{fullShare} f : sProp 𝕄)
      = bigSep Finset.univ (fun k : Fin 8 => ((c : Thread nD τ).loc cc0_scratch0) ↦[(rSl k).view.set]{fullShare} f) :=
    pointsTo_biUnion Finset.univ _ (fun k _ k' _ h => rSl_disj k k' h)
  rw [← rSl_cover] at key
  exact key
theorem r_join (c : Dev nD) (fs : Fin 8 → RC F) :
    bigSep Finset.univ (fun k : Fin 8 => rPts c k (fs k)) ⊢ (iprop(∃ g : RC F, ((c : Thread nD τ).loc cc0_scratch0) ↦{fullShare} g) : sProp 𝕄) := by
  unfold rPts
  have key := pointsTo_biUnion_join (Val := Elt F) (ℓ := (c : Thread nD τ).loc cc0_scratch0) (q := fullShare)
    (Ix := Unit) (Name := ℕ) (U := UU) (Lvl := ℕ)
    Finset.univ (fun k : Fin 8 => (rSl k).view.set) fs zR (fun k _ k' _ h => rSl_disj k k' h)
  rw [← rSl_cover] at key
  refine key.trans ?_
  iintro ⟨%g, -, H⟩
  iexists g
  iexact H

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

end Cert.Kernel.AllReduce

end
-- ==== Proof.Bits.Values.lean ====
import proofs.«900178_g7700000000000179_dist_full2d_reduce_m2048_n1024_v7x_xy2x2_bf16_1_alg».proof.Proof.Bits.Views
import proofs.«900178_g7700000000000179_dist_full2d_reduce_m2048_n1024_v7x_xy2x2_bf16_1_alg».proof.Proof.Gen.Kernel.Skeleton

noncomputable section

namespace Cert.Kernel.AllReduce

open Cert.Kernel Cert.Kernel.Gen
open Idealize.ShloMosaic
open Idealize.ShloMosaic.TcCoe
open Idealize.SL Idealize.SL.Sem

variable {F : FTy → Type} [FloatOps F]

abbrev castV (v : Vec F S256x1024 .f32) : FVec F S256x1024 .bf16 := k0_pay1 v
abbrev accV (a : Vec F S256x1024 .bf16) (b : Vec F S1x256x1024 .bf16) : FVec F S256x1024 .bf16 := k0_pay9 a b

theorem pay2_eq : (k0_pay2 : Vec F S256x1024 .f32 → _) = castV := rfl
theorem pay3_eq : (k0_pay3 : Vec F S256x1024 .f32 → _) = castV := rfl
theorem pay4_eq : (k0_pay4 : Vec F S256x1024 .f32 → _) = castV := rfl
theorem pay5_eq : (k0_pay5 : Vec F S256x1024 .f32 → _) = castV := rfl
theorem pay6_eq : (k0_pay6 : Vec F S256x1024 .f32 → _) = castV := rfl
theorem pay7_eq : (k0_pay7 : Vec F S256x1024 .f32 → _) = castV := rfl
theorem pay8_eq : (k0_pay8 : Vec F S256x1024 .f32 → _) = castV := rfl
theorem pay10_eq : (k0_pay10 : Vec F S256x1024 .bf16 → Vec F S1x256x1024 .bf16 → _) = accV := rfl
theorem pay11_eq : (k0_pay11 : Vec F S256x1024 .bf16 → Vec F S1x256x1024 .bf16 → _) = accV := rfl
theorem pay12_eq : (k0_pay12 : Vec F S256x1024 .bf16 → Vec F S1x256x1024 .bf16 → _) = accV := rfl
theorem pay13_eq : (k0_pay13 : Vec F S256x1024 .bf16 → Vec F S1x256x1024 .bf16 → _) = accV := rfl
theorem pay14_eq : (k0_pay14 : Vec F S256x1024 .bf16 → Vec F S1x256x1024 .bf16 → _) = accV := rfl
theorem pay15_eq : (k0_pay15 : Vec F S256x1024 .bf16 → Vec F S1x256x1024 .bf16 → _) = accV := rfl
theorem pay16_eq : (k0_pay16 : Vec F S256x1024 .bf16 → Vec F S1x256x1024 .bf16 → _) = accV := rfl

def xRead (j : Fin 8) (f : XC F) : Vec F S256x1024 .f32 := (xM.access (chunkRect j)).read (Elt F) f
def sRead (k : Fin 8) (f : RC F) : Vec F S1x256x1024 .bf16 := (rM.access (slotRect k)).read (Elt F) f

def sl (b : Fin 4) (r : Fin 2) : Fin 8 := ⟨2 * b.val + r.val, (by decide : ∀ (b : Fin 4) (r : Fin 2), 2 * b.val + r.val < 8) b r⟩

variable (m : (ℓ : Loc nD τ sig) → Buf (Elt F) ℓ)

def xs (c : Dev nD) : XC F := (win0_0.blk (0 : Fin 1)).view.read (Elt F) (m ((c : Thread nD τ).loc main_arg0))

/-- Device c's chunk j of the input, rounded to the result's format. -/
def p0 (c : Dev nD) (j : Fin 8) : Vec F S256x1024 .bf16 := castV (xRead j (xs m c))

/-- Two devices' sum on a kept chunk of the first half: this device's and its first-axis neighbour's. -/
def pa (c : Dev nD) (r : Fin 2) : Vec F S256x1024 .bf16 := accV (p0 m c (aK c r)) (sRead (sl 0 r) (cR (sl 0 r) (p0 m (xn c) (aK c r))))
/-- Two devices' sum on a kept chunk of the second half: this device's and its second-axis neighbour's. -/
def pb (c : Dev nD) (r : Fin 2) : Vec F S256x1024 .bf16 := accV (p0 m c (bK c r)) (sRead (sl 1 r) (cR (sl 1 r) (p0 m (yn c) (bK c r))))

/-- All four devices' sum on a kept chunk of the first half: the two-device sum plus the other neighbour's. -/
def fa (c : Dev nD) (r : Fin 2) : Vec F S256x1024 .bf16 := accV (pa m c r) (sRead (sl 2 r) (cR (sl 2 r) (pa m (yn c) r)))
/-- All four devices' sum on a kept chunk of the second half. -/
def fb (c : Dev nD) (r : Fin 2) : Vec F S256x1024 .bf16 := accV (pb m c r) (sRead (sl 3 r) (cR (sl 3 r) (pb m (xn c) r)))

/-- The device a copy of phase p goes to: the first-axis neighbour in phases 0, 3, 4, the second-axis one in phases 1, 2, 5. -/
def peer (p : Fin 6) (c : Dev nD) : Dev nD := match p with
  | 0 => xn c | 1 => yn c | 2 => yn c | 3 => xn c | 4 => xn c | 5 => yn c

def srcCh (p : Fin 6) (c : Dev nD) (r : Fin 2) : Fin 8 := match p with
  | 0 => aS c r | 1 => bS c r | 2 => aK c r | 3 => bK c r | 4 => aK c r | 5 => bK c r

def srcVal (p : Fin 6) (c : Dev nD) (r : Fin 2) : Vec F S256x1024 .bf16 := match p with
  | 0 => p0 m c (aS c r) | 1 => p0 m c (bS c r) | 2 => pa m c r | 3 => pb m c r | 4 => fa m c r | 5 => fb m c r

omit [FloatOps F] in
theorem peer_peer (p : Fin 6) (c : Dev nD) : peer p (peer p c) = c := by
  fin_cases p <;> first | exact xn_xn c | exact yn_yn c

theorem srcCh0_xn (c : Dev nD) (r : Fin 2) : srcCh 0 (xn c) r = aK c r := aS_xn c r
theorem srcCh1_yn (c : Dev nD) (r : Fin 2) : srcCh 1 (yn c) r = bK c r := bS_yn c r
theorem srcCh4_xn (c : Dev nD) (r : Fin 2) : srcCh 4 (xn c) r = aS c r := aK_xn c r
theorem srcCh5_yn (c : Dev nD) (r : Fin 2) : srcCh 5 (yn c) r = bS c r := bK_yn c r
theorem srcVal0_xn (c : Dev nD) (r : Fin 2) : srcVal m 0 (xn c) r = p0 m (xn c) (aK c r) := by
  show p0 m (xn c) (aS (xn c) r) = _; rw [aS_xn]
theorem srcVal1_yn (c : Dev nD) (r : Fin 2) : srcVal m 1 (yn c) r = p0 m (yn c) (bK c r) := by
  show p0 m (yn c) (bS (yn c) r) = _; rw [bS_yn]
theorem srcVal4_xn (c : Dev nD) (r : Fin 2) : srcVal m 4 (xn c) r = fa m (xn c) r := rfl
theorem srcVal5_yn (c : Dev nD) (r : Fin 2) : srcVal m 5 (yn c) r = fb m (yn c) r := rfl

def semIx (p : Fin 6) (r : Fin 2) : Fin 12 := ⟨2 * p.val + r.val, (by decide : ∀ (p : Fin 6) (r : Fin 2), 2 * p.val + r.val < 12) p r⟩

/-- What chunk j ends with: the full sum, computed here on a kept chunk and at the neighbour on a sent one. -/
def outVal (c : Dev nD) (j : Fin 8) : Vec F S256x1024 .bf16 :=
  if j = aK c 0 then fa m c 0 else if j = aK c 1 then fa m c 1
  else if j = aS c 0 then fa m (xn c) 0 else if j = aS c 1 then fa m (xn c) 1
  else if j = bK c 0 then fb m c 0 else if j = bK c 1 then fb m c 1
  else if j = bS c 0 then fb m (yn c) 0 else fb m (yn c) 1

def outAt (c : Dev nD) : OC F := glueO (fun j => cO j (outVal m c j))

theorem outVal_aK (c : Dev nD) (r : Fin 2) : outVal m c (aK c r) = fa m c r := by fin_cases c <;> fin_cases r <;> rfl
theorem outVal_aS (c : Dev nD) (r : Fin 2) : outVal m c (aS c r) = fa m (xn c) r := by fin_cases c <;> fin_cases r <;> rfl
theorem outVal_bK (c : Dev nD) (r : Fin 2) : outVal m c (bK c r) = fb m c r := by fin_cases c <;> fin_cases r <;> rfl
theorem outVal_bS (c : Dev nD) (r : Fin 2) : outVal m c (bS c r) = fb m (yn c) r := by fin_cases c <;> fin_cases r <;> rfl

end Cert.Kernel.AllReduce

end
-- ==== Proof.Bits.Sched.lean ====
import proofs.«900178_g7700000000000179_dist_full2d_reduce_m2048_n1024_v7x_xy2x2_bf16_1_alg».proof.Proof.Bits.Values
import Idealize.ShloMosaic.Lib.Exec

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev barS : Sem sig := (SemArray.scalar (sig.barrier 0 rfl) : Sems sig S_).sem
theorem semInb (i : Fin 12) : ∀ a, (![i.val] : Fin 1 → Nat) a + S1.size a ≤ S12.size a := by revert i; decide
abbrev sendS (i : Fin 12) : DmaSem sig := ((cc0_scratch1.slice (Rect.unit (s := S12) ![i.val] S1.size (semInb i))).squeeze S_ squeezes_S1_S_).sem
abbrev recvS (i : Fin 12) : DmaSem sig := ((cc0_scratch2.slice (Rect.unit (s := S12) ![i.val] S1.size (semInb i))).squeeze S_ squeezes_S1_S_).sem

theorem sendS_val (i : Fin 12) : (sendS i).val = 2 + i.val := by revert i; decide
theorem recvS_val (i : Fin 12) : (recvS i).val = 14 + i.val := by revert i; decide

abbrev barCell (c : Dev nD) : GSem nD τ sig := ((c : Thread nD τ), .reg barS)
abbrev sendCell (c : Dev nD) (i : Fin 12) : GSem nD τ sig := ((c : Thread nD τ), .dma (sendS i))
abbrev recvCell (c : Dev nD) (i : Fin 12) : GSem nD τ sig := ((c : Thread nD τ), .dma (recvS i))

inductive CellKind where
  | bar | send (i : Fin 12) | recv (i : Fin 12) | other
  deriving DecidableEq

def kindOf : SemLoc sig → CellKind
  | .reg s => if s = barS then .bar else .other
  | .dma q =>
    if h : 2 ≤ q.val ∧ q.val < 14 then .send ⟨q.val - 2, by omega⟩
    else if h' : 14 ≤ q.val ∧ q.val < 26 then .recv ⟨q.val - 14, by omega⟩ else .other

theorem kindOf_bar : kindOf (.reg barS) = .bar := by
  show (if (barS : Sem sig) = barS then CellKind.bar else CellKind.other) = _
  exact if_pos rfl
theorem kindOf_send (i : Fin 12) : kindOf (.dma (sendS i)) = .send i := by
  have hv := sendS_val i
  have hi := i.isLt
  change dite _ _ _ = _
  rw [dif_pos ⟨by omega, by omega⟩]
  exact congrArg CellKind.send (Fin.ext (by show (sendS i).val - 2 = i.val; omega))
theorem kindOf_recv (i : Fin 12) : kindOf (.dma (recvS i)) = .recv i := by
  have hv := recvS_val i
  have hi := i.isLt
  change dite _ _ _ = _
  rw [dif_neg (by omega), dif_pos ⟨by omega, by omega⟩]
  exact congrArg CellKind.recv (Fin.ext (by show (recvS i).val - 14 = i.val; omega))

abbrev N : ℕ := (oCh 0).view.dmaCredit
theorem N_pos : 0 < N := View.dmaCredit_pos _ (by decide)

def phaseOf (i : Fin 12) : Fin 6 := ⟨i.val / 2, by have := i.isLt; omega⟩
def copyOf (i : Fin 12) : Fin 2 := ⟨i.val % 2, Nat.mod_lt _ (by decide)⟩
theorem phaseOf_semIx (p : Fin 6) (r : Fin 2) : phaseOf (semIx p r) = p := by revert p r; decide
theorem copyOf_semIx (p : Fin 6) (r : Fin 2) : copyOf (semIx p r) = r := by revert p r; decide

variable (m : (ℓ : Loc nD τ sig) → Buf (Elt F) ℓ)

/-- A neighbour's barrier signal hands over the four slots of ITS receive buffer this device is going to write. -/
def barPay (c : Dev nD) (d : Bool) : sProp 𝕄 :=
  if d then iprop(∃ f0 f1 f6 f7 : RC F, rPts (xn c) (sl 0 0) f0 ∗ rPts (xn c) (sl 0 1) f1 ∗ rPts (xn c) (sl 3 0) f6 ∗ rPts (xn c) (sl 3 1) f7)
  else iprop(∃ f2 f3 f4 f5 : RC F, rPts (yn c) (sl 1 0) f2 ∗ rPts (yn c) (sl 1 1) f3 ∗ rPts (yn c) (sl 2 0) f4 ∗ rPts (yn c) (sl 2 1) f5)

def sendPay (p : Fin 6) (c : Dev nD) (r : Fin 2) : sProp 𝕄 :=
  if p.val < 2 then iprop(emp) else oPts c (srcCh p c r) (cO (srcCh p c r) (srcVal m p c r))

/-- A landing hands its owner the slot (or chunk) at the landed values; in phases 0, 1 the issuer's source chunk travels with it, because the finished chunk is later written back into those rows. -/
def recvPay (p : Fin 6) (c : Dev nD) (r : Fin 2) : sProp 𝕄 :=
  match p with
  | 0 => iprop(rPts c (sl 0 r) (cR (sl 0 r) (srcVal m 0 (xn c) r)) ∗ oPts (xn c) (srcCh 0 (xn c) r) (cO (srcCh 0 (xn c) r) (srcVal m 0 (xn c) r)))
  | 1 => iprop(rPts c (sl 1 r) (cR (sl 1 r) (srcVal m 1 (yn c) r)) ∗ oPts (yn c) (srcCh 1 (yn c) r) (cO (srcCh 1 (yn c) r) (srcVal m 1 (yn c) r)))
  | 2 => rPts c (sl 2 r) (cR (sl 2 r) (srcVal m 2 (yn c) r))
  | 3 => rPts c (sl 3 r) (cR (sl 3 r) (srcVal m 3 (xn c) r))
  | 4 => oPts c (srcCh 4 (xn c) r) (cO (srcCh 4 (xn c) r) (srcVal m 4 (xn c) r))
  | 5 => oPts c (srcCh 5 (yn c) r) (cO (srcCh 5 (yn c) r) (srcVal m 5 (yn c) r))

/-- One round a cell: two unit duties on a barrier cell, one duty of a chunk's transfer credit on each send and receive cell. -/
def Rd : Rounds.Schedule (GSem nD τ sig) Bool 𝕄 where
  duties g r :=
    if r = 0 ∧ g.1.2 = .tc then
      (match kindOf g.2 with | .bar => Finset.univ | .send _ => {false} | .recv _ => {false} | .other => ∅)
    else ∅
  unitless _ := False
  amount g _ _ := match kindOf g.2 with | .bar => 1 | _ => N
  payload g _ d := match kindOf g.2 with
    | .bar => barPay g.1.1 d
    | .send i => sendPay m (phaseOf i) g.1.1 (copyOf i)
    | .recv i => recvPay m (phaseOf i) g.1.1 (copyOf i)
    | .other => iprop(emp)
  amount_pos g _ _ _ := by
    cases kindOf g.2 <;> first | exact Nat.one_pos | exact N_pos

instance barPay_storable (c : Dev nD) (d : Bool) : BI.Storable (upEmb : UEmb _ 𝕄) (barPay (F := F) c d) := by
  unfold barPay; split <;> infer_instance
instance sendPay_storable (p : Fin 6) (c : Dev nD) (r : Fin 2) : BI.Storable (upEmb : UEmb _ 𝕄) (sendPay (F := F) m p c r) := by
  unfold sendPay; split <;> infer_instance
instance recvPay_storable (p : Fin 6) (c : Dev nD) (r : Fin 2) : BI.Storable (upEmb : UEmb _ 𝕄) (recvPay (F := F) m p c r) := by
  unfold recvPay; split <;> infer_instance

instance Rd_payload_storable (g : GSem nD τ sig) (r : ℕ) (d : Bool) :
    BI.Storable (upEmb : UEmb _ 𝕄) ((Rd (F := F) m).payload g r d) := by
  dsimp only [Rd]
  split <;> infer_instance

section Tables
variable (c : Dev nD) (p : Fin 6) (r : Fin 2) (d : Bool)

theorem duties_bar : (Rd (F := F) m).duties (barCell c) 0 = Finset.univ := by
  dsimp only [Rd]; rw [if_pos ⟨rfl, rfl⟩]; simp only [kindOf_bar]
theorem duties_send : (Rd (F := F) m).duties (sendCell c (semIx p r)) 0 = {false} := by
  dsimp only [Rd]; rw [if_pos ⟨rfl, rfl⟩]; simp only [kindOf_send]
theorem duties_recv : (Rd (F := F) m).duties (recvCell c (semIx p r)) 0 = {false} := by
  dsimp only [Rd]; rw [if_pos ⟨rfl, rfl⟩]; simp only [kindOf_recv]
theorem duties_later (g : GSem nD τ sig) : ∀ r', 1 ≤ r' → (Rd (F := F) m).duties g r' = ∅ :=
  fun r' hr => by dsimp only [Rd]; rw [if_neg fun h => absurd h.1 (by omega)]

theorem amount_bar : (Rd (F := F) m).amount (barCell c) 0 d = 1 := by
  dsimp only [Rd]; simp only [kindOf_bar]
theorem amount_send : (Rd (F := F) m).amount (sendCell c (semIx p r)) 0 d = N := by
  dsimp only [Rd]; simp only [kindOf_send]
theorem amount_recv : (Rd (F := F) m).amount (recvCell c (semIx p r)) 0 d = N := by
  dsimp only [Rd]; simp only [kindOf_recv]

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (Rd (F := F) m).expect (sendCell c (semIx p r)) 0 = N := by
  unfold Schedule.expect Schedule.amountOf; rw [duties_send, Finset.sum_singleton, amount_send]
theorem expect_recv : (Rd (F := F) m).expect (recvCell c (semIx p r)) 0 = N := by
  unfold Schedule.expect Schedule.amountOf; rw [duties_recv, Finset.sum_singleton, amount_recv]

theorem payload_bar : (Rd (F := F) m).payload (barCell c) 0 d = barPay c d := by
  dsimp only [Rd]; simp only [kindOf_bar]
theorem payload_send : (Rd (F := F) m).payload (sendCell c (semIx p r)) 0 d = sendPay m p c r := by
  dsimp only [Rd]; simp only [kindOf_send, phaseOf_semIx, copyOf_semIx]
theorem payload_recv : (Rd (F := F) m).payload (recvCell c (semIx p r)) 0 d = recvPay m p c r := by
  dsimp only [Rd]; simp only [kindOf_recv, phaseOf_semIx, copyOf_semIx]

theorem rest_bar : bigSep ((Rd (F := F) m).duties (barCell c) 0 \ ∅) (fun d => (Rd (F := F) m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send : bigSep ((Rd (F := F) m).duties (sendCell c (semIx p r)) 0 \ ∅) (fun d => (Rd (F := F) m).payload (sendCell c (semIx p r)) 0 d)
    = sendPay m p c r := by
  rw [Finset.sdiff_empty, duties_send, bigSep_singleton, payload_send]
theorem rest_recv : bigSep ((Rd (F := F) m).duties (recvCell c (semIx p r)) 0 \ ∅) (fun d => (Rd (F := F) m).payload (recvCell c (semIx p r)) 0 d)
    = recvPay m p c r := by
  rw [Finset.sdiff_empty, duties_recv, bigSep_singleton, payload_recv]

end Tables

theorem recv_ne_bar (i : Fin 12) : (SemLoc.dma (recvS i) : SemLoc sig) ≠ .reg barS := fun h => by cases h
theorem recvS_inj : Function.Injective (recvS : Fin 12 → DmaSem sig) := fun i j h => by
  have hk := congrArg (fun q => kindOf (.dma q)) h
  rw [kindOf_recv, kindOf_recv] at hk
  exact CellKind.recv.inj hk

end Cert.Kernel.AllReduce

end
-- ==== Proof.Bits.Levels.lean ====
import proofs.«900178_g7700000000000179_dist_full2d_reduce_m2048_n1024_v7x_xy2x2_bf16_1_alg».proof.Proof.Bits.Sched

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def payOrder : List (Fin 6 × Fin 2) :=
  [(0, 0), (1, 0), (0, 1), (1, 1), (2, 0), (3, 0), (2, 1), (3, 1), (4, 0), (5, 0), (4, 1), (5, 1)]

def owedFrom (c : Dev nD) (l : List (Fin 6 × Fin 2)) : CellTallies nD τ sig Unit :=
  l.foldr (fun pr acc => acc + tallyAt (recvCell (peer pr.1 c) (semIx pr.1 pr.2)) () N) 0

theorem owedFrom_cons (c : Dev nD) (pr : Fin 6 × Fin 2) (l : List (Fin 6 × Fin 2)) :
    owedFrom c (pr :: l) = owedFrom c l + tallyAt (recvCell (peer pr.1 c) (semIx pr.1 pr.2)) () N := rfl

def O₁ (c : Dev nD) : CellTallies nD τ sig Unit := owedFrom c payOrder + tallyAt (barCell (xn c)) () 1
def O₀ (c : Dev nD) : CellTallies nD τ sig Unit := O₁ c + tallyAt (barCell (yn c)) () 1

theorem pos_add_tallyAt {A : CellTallies nD τ sig Unit} {g' g : GSem nD τ sig} {k : ℕ} {u : Unit}
    (h : 0 < (A + tallyAt g' () k) g u) : 0 < A g u ∨ g = g' := by
  rw [Pi.add_apply, Finsupp.add_apply, tallyAt_apply] at h
  by_cases hg : g = g' ∧ u = ()
  · exact .inr hg.1
  · rw [if_neg hg] at h; exact .inl h

theorem owedFrom_pos {c : Dev nD} {l : List (Fin 6 × Fin 2)} {g : GSem nD τ sig} {u : Unit} (h : 0 < owedFrom c l g u) :
    ∃ pr ∈ l, g = recvCell (peer pr.1 c) (semIx pr.1 pr.2) := by
  induction l with
  | nil => exact absurd h (Nat.lt_irrefl 0)
  | cons pr l ih =>
    rcases pos_add_tallyAt h with h | rfl
    · obtain ⟨pr', hpr', e⟩ := ih h
      exact ⟨pr', List.mem_cons_of_mem _ hpr', e⟩
    · exact ⟨pr, List.mem_cons_self, rfl⟩

def L (g : GSem nD τ sig) : Finset Unit := if g.1.2 = .tc then {()} else ∅
def lv (g : GSem nD τ sig) (_ : Unit) : ℕ :=
  match kindOf g.2 with | .bar => 1 | .recv i => 2 + (phaseOf i).val / 2 | _ => 0

theorem L_of_ne (g : GSem nD τ sig) (h : g.1.2 ≠ .tc) : L g = ∅ := if_neg h

theorem lv_bar (c : Dev nD) : lv (barCell c) () = 1 := by
  simp only [lv, kindOf_bar]
theorem lv_recv (c : Dev nD) (p : Fin 6) (r : Fin 2) : lv (recvCell c (semIx p r)) () = 2 + p.val / 2 := by
  simp only [lv, kindOf_recv, phaseOf_semIx]
theorem lv_send (c : Dev nD) (i : Fin 12) : lv (sendCell c i) () = 0 := by
  simp only [lv, kindOf_send]

theorem O₀_lv {c : Dev nD} {g : GSem nD τ sig} {u : Unit} (h : 0 < O₀ c g u) : g.1.2 = .tc ∧ 0 < lv g () := by
  unfold O₀ O₁ at h
  rcases pos_add_tallyAt h with h | rfl
  · rcases pos_add_tallyAt h with h | rfl
    · obtain ⟨pr, -, rfl⟩ := owedFrom_pos h
      exact ⟨rfl, by rw [lv_recv]; omega⟩
    · exact ⟨rfl, by rw [lv_bar]; omega⟩
  · exact ⟨rfl, by rw [lv_bar]; omega⟩

omit [FloatOps F] in
theorem mayWait_cut (c : Dev nD) (sm : SemLoc sig) (O : CellTallies nD τ sig Unit)
    (h : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L, if_pos rfl]; exact Finset.mem_singleton_self _)
    (fun g u hg => by rw [L, if_pos (h g u hg).1]; exact Finset.mem_singleton_self _)
    (fun p hp => by rw [Finset.mem_singleton.mp hp])
    (fun g u hg => (h g u hg).2)

omit [FloatOps F] in

theorem mayWait_list (c : Dev nD) (sm : SemLoc sig) (l : List (Fin 6 × Fin 2))
    (h : ∀ pr ∈ l, lv ((c : Thread nD τ), sm) () < 2 + pr.1.val / 2) :
    (levAts L lv : sProp 𝕄) ⊢ MayWait (c : Thread nD τ) sm () (owedFrom c l) :=
  mayWait_cut c sm _ fun g u hg => by
    obtain ⟨pr, hpr, rfl⟩ := owedFrom_pos hg
    exact ⟨rfl, by rw [lv_recv]; exact h pr hpr⟩

omit [FloatOps F] in

theorem mayWait_low (c : Dev nD) (sm : SemLoc sig) (hsm : lv ((c : Thread nD τ), sm) () = 0)
    (O : CellTallies nD τ sig Unit) (hO : O = O₀ c ∨ O = 0) :
    (levAts L lv : sProp 𝕄) ⊢ MayWait (c : Thread nD τ) sm () O := by
  rcases hO with rfl | rfl
  · exact mayWait_cut c sm _ fun g u hg => hsm ▸ O₀_lv hg
  · rw [MayWait_zero]; iintro -; iempintro

theorem semIx_eq_iff (i : Fin 12) (pr : Fin 6 × Fin 2) : i = semIx pr.1 pr.2 ↔ pr = (phaseOf i, copyOf i) := by
  revert i pr; decide
theorem payOrder_count (i : Fin 12) : payOrder.count (phaseOf i, copyOf i) = 1 := by revert i; decide

theorem sum_tallyAt (f : Dev nD → Dev nD) (hf : ∀ x, f (f x) = x) (sm sm' : SemLoc sig) (c : Dev nD) (k : ℕ) :
    ∑ d : Dev nD, tallyAt ((f d : Thread nD τ), sm) () k ((c : Thread nD τ), sm') () = if sm' = sm then k else 0 := by
  by_cases h : sm' = sm
  · subst h
    rw [if_pos rfl, Finset.sum_eq_single (f c) (fun d _ hd => ?_) (fun h => absurd (Finset.mem_univ _) h), hf, tallyAt_apply, if_pos ⟨rfl, rfl⟩]
    refine (tallyAt_apply _ _ _ _ _).trans (if_neg fun e => hd ?_)
    rw [show c = f d from Fin.ext (congrArg (fun g : GSem nD τ sig => g.1.1.val) e.1), hf]
  · rw [if_neg h]; exact Finset.sum_eq_zero fun d _ => (tallyAt_apply _ _ _ _ _).trans (if_neg fun e => h (congrArg Prod.snd e.1))

theorem sum_owedFrom (c : Dev nD) (i : Fin 12) (l : List (Fin 6 × Fin 2)) :
    ∑ d : Dev nD, owedFrom d l (recvCell c i) () = l.count (phaseOf i, copyOf i) * N := by
  induction l with
  | nil => rw [List.count_nil, Nat.zero_mul]; exact Finset.sum_eq_zero fun _ _ => rfl
  | cons pr l ih =>
    simp only [owedFrom_cons, Pi.add_apply, Finsupp.add_apply]
    rw [Finset.sum_add_distrib, ih, sum_tallyAt (peer pr.1) (peer_peer pr.1)]
    rcases eq_or_ne pr (phaseOf i, copyOf i) with rfl | hpr
    · rw [List.count_cons_self, Nat.succ_mul, if_pos (congrArg (fun j => SemLoc.dma (recvS j)) ((semIx_eq_iff i _).mpr rfl))]
    · rw [List.count_cons_of_ne hpr, if_neg fun h => hpr ((semIx_eq_iff i pr).mp (recvS_inj (SemLoc.dma.inj h))), Nat.add_zero]

theorem owedFrom_bar (d c : Dev nD) (l : List (Fin 6 × Fin 2)) (u : Unit) : owedFrom d l (barCell c) u = 0 :=
  Nat.eq_zero_of_not_pos fun h => by
    obtain ⟨pr, -, e⟩ := owedFrom_pos h
    exact recv_ne_bar _ (congrArg Prod.snd e).symm

theorem owed_sum_bar (c : Dev nD) : ∑ d : Dev nD, O₀ d (barCell c) () = 2 := by
  simp only [O₀, O₁, Pi.add_apply, Finsupp.add_apply, Finset.sum_add_distrib, owedFrom_bar]
  rw [sum_tallyAt xn xn_xn, sum_tallyAt yn yn_yn, if_pos rfl, Finset.sum_const_zero]

theorem owed_sum_recv (c : Dev nD) (i : Fin 12) : ∑ d : Dev nD, O₀ d (recvCell c i) () = N := by
  simp only [O₀, O₁, Pi.add_apply, Finsupp.add_apply, Finset.sum_add_distrib]
  rw [sum_owedFrom, payOrder_count, Nat.one_mul, sum_tallyAt xn xn_xn, sum_tallyAt yn yn_yn, if_neg (recv_ne_bar i), Nat.add_zero]

theorem launch_eq (g : GSem nD τ sig) (k : ℕ) (h : ∑ d : Dev nD, O₀ d g () = k) :
    tallyOn g (launchCredit (Pipeline.owing O₀) 0 g) = (tallyAt g () k : CellTallies nD τ sig Unit) := by
  unfold tallyAt; refine congrArg _ (Finsupp.ext fun u => ?_); cases u
  rw [Pipeline.launchCredit_owing, Finsupp.single_eq_same, h]

def recvEmb : Fin 12 ↪ SemLoc sig := ⟨fun i => .dma (recvS i), fun i j h => recvS_inj (SemLoc.dma.inj h)⟩

omit [FloatOps F] in

theorem creds (c : Dev nD) :
    (Pipeline.launchCred O₀ c : sProp 𝕄)
      ⊢ iprop(cred (tallyAt (barCell c) () 2) ∗ bigSep Finset.univ (fun i : Fin 12 => cred (tallyAt (recvCell c i) () N))) := by
  unfold Pipeline.launchCred
  rw [bigSep_univ_at _ (SemLoc.reg barS), launch_eq _ 2 (owed_sum_bar c)]
  refine sep_mono_right ?_
  have hsub : Finset.univ.map recvEmb ⊆ Finset.univ.erase (SemLoc.reg barS : SemLoc sig) := fun sm hsm => by
    obtain ⟨i, -, rfl⟩ := Finset.mem_map.mp hsm
    exact Finset.mem_erase.mpr ⟨recv_ne_bar i, Finset.mem_univ _⟩
  refine (bigSep_subset hsub).trans ?_
  rw [BI.bigSep_map recvEmb]
  exact Entails.of_eq (bigSep_congr fun i _ => congrArg cred (launch_eq _ N (owed_sum_recv c i)))

end Cert.Kernel.AllReduce

end
-- ==== Proof.Bits.Ghost.lean ====
import proofs.«900178_g7700000000000179_dist_full2d_reduce_m2048_n1024_v7x_xy2x2_bf16_1_alg».proof.Proof.Bits.Levels
import proofs.«900178_g7700000000000179_dist_full2d_reduce_m2048_n1024_v7x_xy2x2_bf16_1_alg».proof.Proof.Gen.Kernel.Frame

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

abbrev 𝒱₀ : Variants := Variants.none

abbrev CIx : Type := Option (Bool × Fin 12)
abbrev bI : CIx := none
abbrev sI (i : Fin 12) : CIx := some (false, i)
abbrev rI (i : Fin 12) : CIx := some (true, i)
def csem : CIx → SemLoc sig
  | none => .reg barS
  | some (false, i) => .dma (sendS i)
  | some (true, i) => .dma (recvS i)
abbrev kcell (ck : Dev nD × CIx) : GSem nD τ sig := ((ck.1 : Thread nD τ), csem ck.2)

variable (K : Dev nD × CIx → ℕ)

/-- What every device knows for good: every cell's invariant, and that every cell has reached round 0. -/
def records : sProp 𝕄 :=
  iprop((bigSep Finset.univ fun ck : Dev nD × CIx => cellInv ER (Rd m) (K ck) (kcell ck))
    ∗ bigSep Finset.univ fun ck : Dev nD × CIx => reached ER (kcell ck) 0)

instance records_persistent : BI.Persistent (records m K) := by unfold records; infer_instance

theorem inv_at (ck : Dev nD × CIx) : records m K ⊢ cellInv ER (Rd m) (K ck) (kcell ck) := by
  unfold records; exact sep_elim_left.trans (bigSep_elim (Finset.mem_univ ck))
theorem reached_at (ck : Dev nD × CIx) : records m K ⊢ (reached ER (kcell ck) 0 : sProp 𝕄) := by
  unfold records; exact sep_elim_right.trans (bigSep_elim (Finset.mem_univ ck))

/-- The cells of copy (p, r) as its issuer holds them before issue: both positions, the receive credit, the tokens of the two duties it pays. -/
def cp0 (c : Dev nD) (p : Fin 6) (r : Fin 2) : sProp 𝕄 :=
  iprop(atPos ER (sendCell c (semIx p r)) 0 ∅ 0 ∗ atPos ER (recvCell c (semIx p r)) 0 ∅ 0 ∗ cred (tallyAt (recvCell c (semIx p r)) () N)
    ∗ dutyTok ER (sendCell c (semIx p r)) 0 false ∗ dutyTok ER (recvCell (peer p c) (semIx p r)) 0 false)
/-- Once issued: the tokens spent, the send credit held. -/
def cp1 (c : Dev nD) (p : Fin 6) (r : Fin 2) : sProp 𝕄 :=
  iprop(atPos ER (sendCell c (semIx p r)) 0 ∅ 0 ∗ atPos ER (recvCell c (semIx p r)) 0 ∅ 0 ∗ cred (tallyAt (recvCell c (semIx p r)) () N)
    ∗ cred (tallyAt (sendCell c (semIx p r)) () N))
/-- Once its send cell is waited and closed. -/
def cp2 (c : Dev nD) (p : Fin 6) (r : Fin 2) : sProp 𝕄 :=
  iprop(semVal (sendCell c (semIx p r)) 0 ∗ atPos ER (recvCell c (semIx p r)) 0 ∅ 0 ∗ cred (tallyAt (recvCell c (semIx p r)) () N))
/-- Once both cells are closed. -/
def cp3 (c : Dev nD) (p : Fin 6) (r : Fin 2) : sProp 𝕄 :=
  iprop(semVal (sendCell c (semIx p r)) 0 ∗ semVal (recvCell c (semIx p r)) 0)

def barToks (c : Dev nD) : sProp 𝕄 := iprop(dutyTok ER (barCell (yn c)) 0 false ∗ dutyTok ER (barCell (xn c)) 0 true)

def linear (c : Dev nD) : sProp 𝕄 :=
  iprop(atPos ER (barCell c) 0 ∅ 0 ∗ barToks c ∗ cred (tallyAt (barCell c) () 2)
    ∗ bigSep Finset.univ fun pr : Fin 6 × Fin 2 => cp0 c pr.1 pr.2)

def start (c : Dev nD) : sProp 𝕄 := iprop((∃ K, records m K ∗ linear c) ∗ levAts L lv)

def Φ₀ (c : Dev nD) : sProp 𝕄 := iprop(start m c ∗ ∃ f : RC F, (((c : Thread nD τ).loc cc0_scratch0) ↦{fullShare} f))

def Φ₁ (c : Dev nD) : sProp 𝕄 :=
  iprop((∃ f : RC F, (((c : Thread nD τ).loc cc0_scratch0) ↦{fullShare} f)) ∗ bigSep Finset.univ fun pr : Fin 6 × Fin 2 => cp3 c pr.1 pr.2)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((records m K ∗ linear c ∗ levAts L lv ∗ ∃ f : RC F, (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xs m c) ∗ stg c cc0_stg1_0 (outAt m c))

/-- The state once the first exchange is issued: every chunk rounded, the four given away gone with their copies. -/
def mid1 (c : Dev nD) : sProp 𝕄 :=
  iprop(records m K ∗ levAts L lv ∗ atPos ER (barCell c) 1 ∅ 0
    ∗ (cp1 c 0 0 ∗ cp1 c 0 1 ∗ cp1 c 1 0 ∗ cp1 c 1 1)
    ∗ (cp0 c 2 0 ∗ cp0 c 2 1 ∗ cp0 c 3 0 ∗ cp0 c 3 1 ∗ cp0 c 4 0 ∗ cp0 c 4 1 ∗ cp0 c 5 0 ∗ cp0 c 5 1)
    ∗ (∃ W, owes (c : Thread nD τ) (owedFrom c (payOrder.drop 4)) W)
    ∗ (((c : Thread nD τ).loc cc0_stg0_0) ↦{fullShare} xs m c)
    ∗ (oPts c (aK c 0) (cO (aK c 0) (p0 m c (aK c 0))) ∗ oPts c (aK c 1) (cO (aK c 1) (p0 m c (aK c 1)))
        ∗ oPts c (bK c 0) (cO (bK c 0) (p0 m c (bK c 0))) ∗ oPts c (bK c 1) (cO (bK c 1) (p0 m c (bK c 1))))
    ∗ ((∃ f : RC F, rPts (yn c) (sl 2 0) f) ∗ (∃ f : RC F, rPts (yn c) (sl 2 1) f)
        ∗ (∃ f : RC F, rPts (xn c) (sl 3 0) f) ∗ (∃ f : RC F, rPts (xn c) (sl 3 1) f)))

/-- The state once the first exchange is received and added in and the second is issued, its first send waited. -/
def mid2 (c : Dev nD) : sProp 𝕄 :=
  iprop(records m K ∗ levAts L lv ∗ atPos ER (barCell c) 1 ∅ 0
    ∗ (cp3 c 0 0 ∗ cp3 c 0 1 ∗ cp3 c 1 0 ∗ cp3 c 1 1)
    ∗ (cp2 c 2 0 ∗ cp1 c 2 1 ∗ cp1 c 3 0 ∗ cp1 c 3 1)
    ∗ (cp0 c 4 0 ∗ cp0 c 4 1 ∗ cp0 c 5 0 ∗ cp0 c 5 1)
    ∗ (∃ W, owes (c : Thread nD τ) (owedFrom c (payOrder.drop 8)) W)
    ∗ (((c : Thread nD τ).loc cc0_stg0_0) ↦{fullShare} xs m c)
    ∗ oPts c (aK c 0) (cO (aK c 0) (pa m c 0))
    ∗ (rPts c (sl 0 0) (cR (sl 0 0) (srcVal m 0 (xn c) 0)) ∗ rPts c (sl 0 1) (cR (sl 0 1) (srcVal m 0 (xn c) 1))
        ∗ rPts c (sl 1 0) (cR (sl 1 0) (srcVal m 1 (yn c) 0)) ∗ rPts c (sl 1 1) (cR (sl 1 1) (srcVal m 1 (yn c) 1)))
    ∗ (oPts (xn c) (srcCh 0 (xn c) 0) (cO (srcCh 0 (xn c) 0) (srcVal m 0 (xn c) 0)) ∗ oPts (xn c) (srcCh 0 (xn c) 1) (cO (srcCh 0 (xn c) 1) (srcVal m 0 (xn c) 1))
        ∗ oPts (yn c) (srcCh 1 (yn c) 0) (cO (srcCh 1 (yn c) 0) (srcVal m 1 (yn c) 0)) ∗ oPts (yn c) (srcCh 1 (yn c) 1) (cO (srcCh 1 (yn c) 1) (srcVal m 1 (yn c) 1))))

omit [FloatOps F] in
theorem bigSep_pr (Φ : Fin 6 × Fin 2 → sProp 𝕄) :
    bigSep Finset.univ Φ = iprop(Φ (0, 0) ∗ Φ (0, 1) ∗ Φ (1, 0) ∗ Φ (1, 1) ∗ Φ (2, 0) ∗ Φ (2, 1) ∗ Φ (3, 0) ∗ Φ (3, 1) ∗ Φ (4, 0) ∗ Φ (4, 1) ∗ Φ (5, 0) ∗ Φ (5, 1)) :=
  bigSep_univ_eq_bigSepL [(0, 0), (0, 1), (1, 0), (1, 1), (2, 0), (2, 1), (3, 0), (3, 1), (4, 0), (4, 1), (5, 0), (5, 1)] (by decide) (by decide) Φ

end Cert.Kernel.AllReduce

end
-- ==== Proof.Bits.Launch.lean ====
import proofs.«900178_g7700000000000179_dist_full2d_reduce_m2048_n1024_v7x_xy2x2_bf16_1_alg».proof.Proof.Bits.Ghost
import Idealize.ShloMosaic.Lib.Pipeline.Launch
import Idealize.ShloMosaic.Lib.Pipeline.Kit
import Idealize.ShloMosaic.Lib.Tactic

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def semEquiv : Fin 6 × Fin 2 ≃ Fin 12 where
  toFun pr := semIx pr.1 pr.2
  invFun i := (phaseOf i, copyOf i)
  left_inv pr := Prod.ext (phaseOf_semIx pr.1 pr.2) (copyOf_semIx pr.1 pr.2)
  right_inv := by intro i; revert i; decide

theorem bigSep_sem (Φ : Fin 12 → sProp 𝕄) :
    bigSep Finset.univ Φ = bigSep Finset.univ fun pr : Fin 6 × Fin 2 => Φ (semIx pr.1 pr.2) :=
  bigSep_univ_equiv semEquiv Φ

theorem bigSep_bool (Φ : Bool → sProp 𝕄) : bigSep Finset.univ Φ = iprop(Φ false ∗ Φ true) :=
  bigSep_univ_eq_bigSepL [false, true] (by decide) (by decide) Φ

theorem bigSep_option {α : Type} [Fintype α] (Φ : Option α → sProp 𝕄) :
    bigSep Finset.univ Φ = iprop(bigSep Finset.univ (fun a => Φ (some a)) ∗ Φ none) := by
  rw [bigSep_univ_equiv (Equiv.optionEquivSumPUnit.{0, 0} α).symm Φ, bigSep_univ_sum, bigSep_univ_of_subsingleton PUnit.unit.{1}]
  rfl

theorem bigSep_bi (Φ : Bool × Fin 12 → sProp 𝕄) :
    bigSep Finset.univ Φ = iprop((bigSep Finset.univ fun pr : Fin 6 × Fin 2 => Φ (false, semIx pr.1 pr.2))
      ∗ bigSep Finset.univ fun pr : Fin 6 × Fin 2 => Φ (true, semIx pr.1 pr.2)) := by
  rw [bigSep_univ_prod, bigSep_bool, bigSep_sem (fun i => Φ (false, i)), bigSep_sem (fun i => Φ (true, i))]

theorem bigSep_cells (c : Dev nD) (Φ : GSem nD τ sig → sProp 𝕄) :
    (bigSep Finset.univ fun k : CIx => Φ (kcell (c, k)))
      = iprop(((bigSep Finset.univ fun pr : Fin 6 × Fin 2 => Φ (sendCell c (semIx pr.1 pr.2)))
        ∗ bigSep Finset.univ fun pr : Fin 6 × Fin 2 => Φ (recvCell c (semIx pr.1 pr.2))) ∗ Φ (barCell c)) := by
  rw [bigSep_option, bigSep_bi]; rfl

abbrev osem : Bool × Fin 12 → SemLoc sig := fun bi => csem (some bi)

theorem csem_injective : Function.Injective csem :=
  Function.LeftInverse.injective (g := fun s => match kindOf s with | .send i => sI i | .recv i => rI i | _ => bI) fun k => by
    rcases k with _ | ⟨_ | _, i⟩ <;> simp only [csem, kindOf_bar, kindOf_send, kindOf_recv]

theorem ownSemFacts : Pipeline.OwnSemFacts cfg0.spec osem :=
  ⟨by decide, fun a b h => Option.some_injective _ (csem_injective h), by decide⟩

theorem share_eq (c : Dev nD) (w : Fin cfg0.W) : (dats m ρ 0 c).share w = fullShare := by unfold Dat.share; split <;> rfl

theorem kcell_injective : Function.Injective (kcell : Dev nD × CIx → GSem nD τ sig) :=
  fun _ _ h => Prod.ext (congrArg (fun g : GSem nD τ sig => g.1.1) h) (csem_injective (congrArg Prod.snd h))
def protoCells : Finset (GSem nD τ sig) := Finset.univ.map ⟨kcell, kcell_injective⟩

def tokOf (ct : Dev nD × Option CIx) : GSem nD τ sig × ℕ × Bool := (kcell (ct.1, ct.2.getD bI), 0, ct.2.isNone)
theorem tokOf_injective : Function.Injective (tokOf : Dev nD × Option CIx → GSem nD τ sig × ℕ × Bool) := by
  rintro ⟨c, t⟩ ⟨c', t'⟩ h
  obtain ⟨rfl, hk⟩ := Prod.ext_iff.mp (kcell_injective (Prod.ext_iff.mp h).1)
  have hd : t.isNone = t'.isNone := (Prod.ext_iff.mp (Prod.ext_iff.mp h).2).2
  cases t <;> cases t' <;> first | rfl | exact congrArg (fun k => (c, some k)) hk | cases hd
def protoToks : Finset (GSem nD τ sig × ℕ × Bool) := Finset.univ.map ⟨tokOf, tokOf_injective⟩

def u₀ : UU :=
  (initOf (Pipeline.cells cfgs cellOf_inj) (Pipeline.launchToks cfgs cellOf_inj), initOf protoCells protoToks)

def toks (c : Dev nD) : sProp 𝕄 :=
  iprop((bigSep Finset.univ fun k : CIx => dutyTok ER (kcell (c, k)) 0 false) ∗ dutyTok ER (barCell c) 0 true)

def GG (P : GSem nD τ sig → sProp 𝕄) (c : Dev nD) : sProp 𝕄 :=
  iprop((bigSep Finset.univ fun k : CIx => P (kcell (c, k)))
    ∗ (bigSep Finset.univ fun k : CIx => iprop(atPos ER (kcell (c, k)) 0 ∅ 0 ∗ reached ER (kcell (c, k)) 0)) ∗ toks c)
abbrev G : Dev nD → sProp 𝕄 := GG fun g => roundState ER (Rd m) g 0
abbrev G₁ : Dev nD → sProp 𝕄 := GG fun g => iprop(∃ κ : ℕ, cellInv ER (Rd m) κ g)

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : CIx => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]; exact bigSep_congr fun c _ => bigSep_option _
  refine (Rounds.fund ER (Rd m) protoCells protoToks).trans (Laws.bupd_mono ?_)
  rw [hX, hX, hX, hT]
  unfold G GG; simp only [bigSep_sep']
  iintro ⟨Hst, Hr, Hat, Htok⟩; iframe

theorem sems0_eq (c : Dev nD) :
    (iprop(Pipeline.ownSems0 osem c ∗ unscopedSems0 c) : sProp 𝕄) ⊢ bigSep Finset.univ fun k : CIx => semVal (kcell (c, k)) 0 := by
  unfold unscopedSems0 Pipeline.ownSems0
  rw [bigSep_eq_bigSepL_of_eq [SemLoc.reg barS] (by decide) (by decide), bigSep_option]
  exact Entails.of_eq rfl

theorem core_alloc (c : Dev nD) : (iprop(Pipeline.ownSems0 osem c ∗ unscopedSems0 c ∗ G m c) : sProp 𝕄) ⊢ |={Set.univ}=> G₁ m c :=
  sep_assoc.2.trans <| (sep_mono_left (sems0_eq c)).trans <| sep_assoc.2.trans <|
    (sep_mono_left <| (Entails.of_eq (bigSep_sep' _ _ _).symm).trans <|
      (bigSep_mono fun k _ => (Rounds.body_intro ER (Rd m) (kcell (c, k))).trans inv_alloc).trans (bigSep_fupd _ _)).trans fupd_frame_right

def payToks (c : Dev nD) : sProp 𝕄 :=
  iprop(barToks c ∗ (bigSep Finset.univ fun pr : Fin 6 × Fin 2 => dutyTok ER (sendCell c (semIx pr.1 pr.2)) 0 false)
    ∗ bigSep Finset.univ fun pr : Fin 6 × Fin 2 => dutyTok ER (recvCell (peer pr.1 c) (semIx pr.1 pr.2)) 0 false)

def G' (c : Dev nD) : sProp 𝕄 :=
  iprop(∃ K, records m K ∗ (bigSep Finset.univ fun k : CIx => atPos ER (kcell (c, k)) 0 ∅ 0) ∗ payToks c)

theorem bigSep_peer (Φ : Dev nD → Fin 6 × Fin 2 → sProp 𝕄) :
    (bigSep Finset.univ fun c : Dev nD => bigSep Finset.univ fun pr : Fin 6 × Fin 2 => Φ c pr)
      = bigSep Finset.univ fun c : Dev nD => bigSep Finset.univ fun pr : Fin 6 × Fin 2 => Φ (peer pr.1 c) pr := by
  rw [bigSep_univ_comm, bigSep_univ_comm (fun c pr => Φ (peer pr.1 c) pr)]
  exact bigSep_congr fun pr _ => bigSep_univ_equiv ⟨peer pr.1, peer pr.1, peer_peer pr.1, peer_peer pr.1⟩ (fun c => Φ c pr)

theorem toks_around : (bigSep Finset.univ fun c : Dev nD => (toks c : sProp 𝕄)) ⊢ bigSep Finset.univ fun c : Dev nD => payToks c := by
  unfold payToks barToks toks
  simp only [bigSep_cells _ fun g => dutyTok ER g 0 false, bigSep_sep']
  rw [bigSep_univ_equiv yEquiv (fun c : Dev nD => (dutyTok ER (barCell c) 0 false : sProp 𝕄)),
    bigSep_univ_equiv xEquiv (fun c : Dev nD => (dutyTok ER (barCell c) 0 true : sProp 𝕄)),
    bigSep_peer (fun c pr => (dutyTok ER (recvCell c (semIx pr.1 pr.2)) 0 false : sProp 𝕄))]
  iintro ⟨⟨⟨HS, HR⟩, Hf⟩, Ht⟩; iframe HS HR
  isplitl [Hf]; · iexact Hf
  iexact Ht

theorem regroup : (bigSep Finset.univ (G₁ m) : sProp 𝕄) ⊢ bigSep Finset.univ (G' m) := by
  unfold G₁ GG
  simp only [bigSep_sep']
  rw [← bigSep_univ_prod (fun ck : Dev nD × CIx => iprop(∃ κ : ℕ, cellInv ER (Rd m) κ (kcell ck))),
    ← bigSep_univ_prod (fun ck : Dev nD × CIx => (reached ER (kcell ck) 0 : sProp 𝕄))]
  iintro ⟨HI, ⟨Hat, #HR⟩, Htok⟩
  ihave HK := (BI.bigSep_exists_pi _ _) $$ HI
  icases HK with ⟨%K, #HI⟩
  ihave Htk := (toks_around (F := F)) $$ Htok
  iapply (bigSep_with_persistent (R := records m K) fun c _ => by unfold G'; iintro H; iexists K; iexact H)
  simp only [records, bigSep_sep']; iframe ∗ #

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' linear payToks cp0
  rw [bigSep_cells c fun g => atPos ER g 0 ∅ 0]
  simp only [bigSep_sep']
  iintro ⟨-, Hlev, Hcr, -, %K, Hrec, ⟨⟨HaS, HaR⟩, HaB⟩, Hbt, HtS, HtR⟩
  ihave Hc := ((creds (F := F) c).trans (sep_mono_right (Entails.of_eq (bigSep_sem _)))) $$ Hcr
  imodintro
  iframe Hlev
  iexists K; iframe

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩; iframe

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, Pipeline.ownSems0, bigSep_bi]
  unfold Φ₁ cp3
  rw [bigSep_sep']
  iintro ⟨Hr, HzS, HzV⟩; iframe Hr
  isplitl [HzS]; · iexact HzS
  iexact HzV

theorem lv_stage (c : Dev nD) (w : Fin cfg0.W) (s : Fin (cfg0.win w).nbuf) :
    lv ((c : Thread nD τ), .dma ((cfg0.win w).sem s)) () = 0 := by
  fin_cases w <;> fin_cases s <;> (revert c; decide)

theorem waits (c : Dev nD) : (levAts L lv : sProp 𝕄) ⊢ Pipeline.cellsWaits cfgs (dats m ρ) () 0 c :=
  Pipeline.cellsWaits_intro cfgs (dats m ρ) () 0 c fun w s t =>
    mayWait_low c _ (lv_stage c w s) _ (by rcases t with ⟨_ | _, ht⟩; exacts [.inl rfl, .inr rfl])

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Given one device's body, the whole mesh runs: every device's ghost state is allocated and dealt, the tokens of a cell's duties going to the peers that pay them. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro; iframe)
    (hglob := ((bigSep_mono fun c _ => core_alloc m c).trans (bigSep_fupd _ _)).trans (BI.fupd_mono (regroup m)))
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro; iframe)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

theorem finalA_out (c : Dev nD) : finalA m ρ c (1 : Fin 2) = outAt m c := by
  have h := (dats (F := F) m ρ 0 c).arrAt_succ (1 : Fin 2) t₀
  rw [flush0_1 t₀, if_pos rfl] at h
  refine Eq.trans (show finalA m ρ c (1 : Fin 2) = (dats m ρ 0 c).arrAt (1 : Fin 2) (t₀.val + 1) from rfl) (h.trans ?_)
  exact Memref.write_access_unit_zero_univ (Elt F) main_v1 (funext fun a => Nat.zero_mul _) _ _ _

end Cert.Kernel.AllReduce

end
-- ==== Proof.Bits.Rules.lean ====
import proofs.«900178_g7700000000000179_dist_full2d_reduce_m2048_n1024_v7x_xy2x2_bf16_1_alg».proof.Proof.Bits.Ghost

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

theorem wp_load_x (c : Dev nD) (j : Fin 8) (off : Fin 2 → Nat) (hoff : off = chunkOff j) (inb : ∀ a, off a + S256x1024.size a ≤ S2048x1024.size a)
    {hl}
    {α : Type} {Q : α → sProp 𝕄} {k : Vec F S256x1024 .f32 → Prog (TpuEff nD τ sig (Elt F) Λ₀ .tc) α} :
    (((c : Thread nD τ).loc cc0_stg0_0) ↦{fullShare} xs m c : sProp 𝕄)
      ⊢ iprop((((((c : Thread nD τ).loc cc0_stg0_0) ↦{fullShare} xs m c)) -∗ wp frame (wpE (defs₀ (F := F)) 𝒱₀ (c : Thread nD τ) none) Set.univ (k (xRead j (xs m c))) Q)
          -∗ wp frame (wpE (defs₀ (F := F)) 𝒱₀ (c : Thread nD τ) none) Set.univ
              (.op (.load xM (Rect.unit (s := S2048x1024) off S256x1024.size inb).toLoadRect hl) k) Q) := by
  subst hoff
  exact wp_load_rect (defs := defs₀ (F := F)) 𝒱₀ (c : Thread nD τ) none Set.univ (m := xM) (r := chunkRect j) (hl := hl) (k := k)
    (S := Finset.univ) (q := fullShare) (f := xs m c) (Finset.subset_univ _)

theorem wp_load_o (c : Dev nD) (j : Fin 8) (off : Fin 2 → Nat) (hoff : off = chunkOff j) (inb : ∀ a, off a + S256x1024.size a ≤ S2048x1024.size a)
    (f : OC F) {hl}
    {α : Type} {Q : α → sProp 𝕄} {k : Vec F S256x1024 .bf16 → Prog (TpuEff nD τ sig (Elt F) Λ₀ .tc) α} :
    (oPts c j f : sProp 𝕄)
      ⊢ iprop((oPts c j f -∗ wp frame (wpE (defs₀ (F := F)) 𝒱₀ (c : Thread nD τ) none) Set.univ (k ((oCh j).view.read (Elt F) f)) Q)
          -∗ wp frame (wpE (defs₀ (F := F)) 𝒱₀ (c : Thread nD τ) none) Set.univ
              (.op (.load oM (Rect.unit (s := S2048x1024) off S256x1024.size inb).toLoadRect hl) k) Q) := by
  subst hoff
  unfold oPts
  exact wp_load_rect (defs := defs₀ (F := F)) 𝒱₀ (c : Thread nD τ) none Set.univ (m := oM) (r := chunkRect j) (hl := hl) (k := k)
    (S := (oCh j).view.set) (q := fullShare) (f := f) (Finset.Subset.refl _)

theorem wp_store_o (c : Dev nD) (j : Fin 8) (off : Fin 2 → Nat) (hoff : off = chunkOff j) (inb : ∀ a, off a + S256x1024.size a ≤ S2048x1024.size a)
    (f : OC F) (w : Vec F S256x1024 .bf16)
    {hx hm}
    {α : Type} {Q : α → sProp 𝕄} {k : PUnit → Prog (TpuEff nD τ sig (Elt F) Λ₀ .tc) α} :
    (oPts c j f : sProp 𝕄)
      ⊢ iprop((oPts c j (cO j w) -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S2048x1024) off S256x1024.size inb) w Finset.univ hx hm) k) Q) := by
  subst hoff
  rw [← oPts_norm c j f w]
  unfold oPts
  exact wp_store (defs := defs₀ (F := F)) 𝒱₀ (c : Thread nD τ) none Set.univ (m := oM) (r := chunkRect j) (w := w) (Mk := Finset.univ)
    (hx := hx) (hm := hm) (k := k) (S := (oCh j).view.set) (f := f) (Finset.Subset.refl _)

theorem wp_load_slot (c : Dev nD) (k' : Fin 8) (f : RC F)
    {hl}
    {α : Type} {Q : α → sProp 𝕄} {k : Vec F S1x256x1024 .bf16 → Prog (TpuEff nD τ sig (Elt F) Λ₀ .tc) α} :
    (rPts c k' f : sProp 𝕄)
      ⊢ iprop((rPts c k' f -∗ wp frame (wpE (defs₀ (F := F)) 𝒱₀ (c : Thread nD τ) none) Set.univ (k (sRead k' f)) Q)
          -∗ wp frame (wpE (defs₀ (F := F)) 𝒱₀ (c : Thread nD τ) none) Set.univ
              (.op (.load rM (slotRect k').toLoadRect hl) k) Q) := by
  unfold rPts
  exact wp_load_rect (defs := defs₀ (F := F)) 𝒱₀ (c : Thread nD τ) none Set.univ (m := rM) (r := slotRect k') (hl := hl) (k := k)
    (S := (rSl k').view.set) (q := fullShare) (f := f) (View.set_reshape _ _).symm.subset

theorem wait_core (c : Dev nD) (s : DmaSem sig) {κ P} (O W)
    (hinv : records m K ⊢ cellInv ER (Rd m) κ (c, .dma s)) (hexp : (Rd m).expect (c, .dma s) 0 = N)
    (hrest : bigSep ((Rd m).duties (c, .dma s) 0 \ ∅) (fun d => (Rd m).payload (c, .dma s) 0 d) = P)
    {sp' s' e' κ' sp sh e} {src : Memref sig .tc sp' s' e'} {dst : Memref sig κ' sp sh e} {hsrc hdst}
    (hN : dst.view.dmaCredit = N) {α} {Q : α → sProp 𝕄} {k : PUnit → Prog (TpuEff nD τ sig (Elt F) Λ₀ .tc) α} :
    iprop(records m K ∗ cred (tallyAt (c, .dma s) () N) ∗ owes c O W ∗ MayWait c (.dma s) () O ∗ atPos ER (c, .dma s) 0 ∅ 0)
      ⊢ iprop(((owes c O (insert (.dma s, ()) W) ∗ semVal (c, .dma s) 0 ∗ P) -∗ wp frame (wpE (defs₀ (F := F)) 𝒱₀ c none) Set.univ (k ⟨⟩) Q)
          -∗ wp frame (wpE (defs₀ (F := F)) 𝒱₀ c none) Set.univ (.op (.waitDma2 s src dst hsrc hdst) k) Q) := by
  subst hrest
  iintro ⟨#Hrec, Hc, HL, Hlev, Hat⟩ Hk
  ihave #Hi := hinv $$ Hrec
  iapply (wp_wait_rest_token 𝒱₀ ER (Rd m) c none (w := .waitDma2 s src dst hsrc hdst) (sm := .dma s) (k' := N) (fun _ => by rw [← hN]; rfl) (Set.mem_univ κ) () (R := 0) (T := ∅) (m := 0)
    (by rw [Nat.zero_add, hexp])) $$ [Hc HL Hlev Hat]
  · iframe ∗ #
  iintro ⟨HL, Hat, -, Hrest⟩
  imod (cell_close ER (Rd m) (Set.mem_univ κ) (fun h => h) (R := 0 + 1) (duties_later m _)) $$ [Hat] with Hv
  · iframe ∗ #
  iapply Hk
  iframe ∗

theorem send_pre (a b : Dev nD × CIx) {A B C D E : sProp 𝕄} :
    iprop(records m K ∗ A ∗ B ∗ C ∗ D ∗ E) ⊢ iprop(cellInv ER (Rd m) (K a) (kcell a) ∗ cellInv ER (Rd m) (K b) (kcell b)
      ∗ A ∗ B ∗ C ∗ D ∗ reached ER (kcell a) 0 ∗ E ∗ reached ER (kcell b) 0) := by
  iintro ⟨#H, HA, HB, HC, HD, HE⟩
  ihave #H₁ := inv_at m K a $$ H
  ihave #H₂ := inv_at m K b $$ H
  ihave #H₃ := reached_at m K a $$ H
  ihave #H₄ := reached_at m K b $$ H
  iframe ∗ #

theorem step_of {R A₁ A₂ A₃ T₁ T₂ S D O C G Wk Wop : sProp 𝕄} (h : iprop(R ∗ S ∗ D ∗ O ∗ T₁ ∗ T₂) ⊢ iprop((iprop(C ∗ G) -∗ Wk) -∗ Wop)) :
    R ⊢ iprop(iprop(A₁ ∗ A₂ ∗ A₃ ∗ T₁ ∗ T₂) -∗ S -∗ D -∗ O -∗ (iprop(iprop(A₁ ∗ A₂ ∗ A₃ ∗ C) ∗ G) -∗ Wk) -∗ Wop) := by
  iintro HR ⟨H₁, H₂, H₃, HT₁, HT₂⟩ HS HD HO Hk
  iapply h $$ [HR HS HD HO HT₁ HT₂]
  · iframe ∗
  iintro ⟨HC, HG⟩
  iapply Hk
  iframe ∗

local notation "WP[" c "]" => wp frame (wpE (defs₀ (F := F)) 𝒱₀ (c : Thread nD τ) none) Set.univ

theorem credit_chunk (off : Fin 2 → Nat) (inb : ∀ a, off a + S256x1024.size a ≤ S2048x1024.size a) :
    (oM.slice (Rect.unit (s := S2048x1024) off S256x1024.size inb) (fun _ => rfl)).view.dmaCredit = N := rfl
theorem credit_slot (k : Fin 8) : (rSl k).view.dmaCredit = N := rfl
theorem recvPay0 (c : Dev nD) (r : Fin 2) : recvPay m 0 c r =
    iprop(rPts c (sl 0 r) (cR (sl 0 r) (srcVal m 0 (xn c) r)) ∗ oPts (xn c) (srcCh 0 (xn c) r) (cO (srcCh 0 (xn c) r) (srcVal m 0 (xn c) r))) := rfl
theorem recvPay1 (c : Dev nD) (r : Fin 2) : recvPay m 1 c r =
    iprop(rPts c (sl 1 r) (cR (sl 1 r) (srcVal m 1 (yn c) r)) ∗ oPts (yn c) (srcCh 1 (yn c) r) (cO (srcCh 1 (yn c) r) (srcVal m 1 (yn c) r))) := rfl
theorem recvPay2 (c : Dev nD) (r : Fin 2) : recvPay m 2 c r = rPts c (sl 2 r) (cR (sl 2 r) (srcVal m 2 (yn c) r)) := rfl
theorem recvPay3 (c : Dev nD) (r : Fin 2) : recvPay m 3 c r = rPts c (sl 3 r) (cR (sl 3 r) (srcVal m 3 (xn c) r)) := rfl
theorem recvPay4 (c : Dev nD) (r : Fin 2) : recvPay m 4 c r = oPts c (aS c r) (cO (aS c r) (fa m (xn c) r)) := by
  show oPts c (srcCh 4 (xn c) r) (cO (srcCh 4 (xn c) r) (srcVal m 4 (xn c) r)) = _
  rw [srcCh4_xn, srcVal4_xn]
theorem recvPay5 (c : Dev nD) (r : Fin 2) : recvPay m 5 c r = oPts c (bS c r) (cO (bS c r) (fb m (yn c) r)) := by
  show oPts c (srcCh 5 (yn c) r) (cO (srcCh 5 (yn c) r) (srcVal m 5 (yn c) r)) = _
  rw [srcCh5_yn, srcVal5_yn]
theorem sendPay2 (c : Dev nD) (r : Fin 2) : sendPay m 2 c r = oPts c (aK c r) (cO (aK c r) (pa m c r)) := if_neg (by decide)
theorem sendPay3 (c : Dev nD) (r : Fin 2) : sendPay m 3 c r = oPts c (bK c r) (cO (bK c r) (pb m c r)) := if_neg (by decide)
theorem sendPay4 (c : Dev nD) (r : Fin 2) : sendPay m 4 c r = oPts c (aK c r) (cO (aK c r) (fa m c r)) := if_neg (by decide)
theorem sendPay5 (c : Dev nD) (r : Fin 2) : sendPay m 5 c r = oPts c (bK c r) (cO (bK c r) (fb m c r)) := if_neg (by decide)

/-- A copy's send wait: nothing still owed lies below a send cell. -/
theorem step_wait_send (c : Dev nD) (p : Fin 6) (r : Fin 2) (l : List (Fin 6 × Fin 2)) (W : Waits sig Unit)
    (S : sProp 𝕄) (hS : sendPay m p c r = S)
    {sp' : Space} {s' : Shape} {e' : EltTy} {κ : Kind} {sp : Space} {s : Shape} {e : EltTy}
    {src : Memref sig .tc sp' s' e'} {dst : Memref sig κ sp s e} {hsrc hdst}
    (hN : dst.view.dmaCredit = N)
    {α : Type} {Q : α → sProp 𝕄} {k : PUnit → Prog (TpuEff nD τ sig (Elt F) Λ₀ .tc) α} :
    records m K ⊢ iprop(levAts L lv -∗ cp1 c p r -∗ owes (c : Thread nD τ) (owedFrom c l) W
      -∗ ((owes (c : Thread nD τ) (owedFrom c l) (insert (SemLoc.dma (sendS (semIx p r)), ()) W) ∗ cp2 c p r ∗ S) -∗ WP[c] (k ⟨⟩) Q)
      -∗ WP[c] (.op (.waitDma2 (sendS (semIx p r)) src dst hsrc hdst) k) Q) := by
  subst hS
  unfold cp1 cp2
  iintro #Hrec #Hlev ⟨Has, Har, Hcr, Hcs⟩ HO Hk
  iapply (wait_core m K c _ (owedFrom c l) W (inv_at m K (c, sI (semIx p r))) (expect_send m c p r) (rest_send m c p r) hN) $$ [Hcs HO Has]
  · iframe ∗ #; iapply (mayWait_list c (.dma (sendS (semIx p r))) l (fun pr _ => by rw [lv_send]; omega)); iexact Hlev
  iintro ⟨HO, Hv, Hpay⟩
  iapply Hk
  iframe ∗ #

/-- A copy's receive wait: allowed while every copy still owed belongs to a later exchange. -/
theorem step_wait_recv (c : Dev nD) (p : Fin 6) (r : Fin 2) (l : List (Fin 6 × Fin 2)) (W : Waits sig Unit)
    (hl : ∀ pr ∈ l, 2 + p.val / 2 < 2 + pr.1.val / 2)
    (R : sProp 𝕄) (hR : recvPay m p c r = R)
    {sp' : Space} {s' : Shape} {e' : EltTy} {κ : Kind} {sp : Space} {s : Shape} {e : EltTy}
    {src : Memref sig .tc sp' s' e'} {dst : Memref sig κ sp s e} {hsrc hdst}
    (hN : dst.view.dmaCredit = N)
    {α : Type} {Q : α → sProp 𝕄} {k : PUnit → Prog (TpuEff nD τ sig (Elt F) Λ₀ .tc) α} :
    records m K ⊢ iprop(levAts L lv -∗ cp2 c p r -∗ owes (c : Thread nD τ) (owedFrom c l) W
      -∗ ((owes (c : Thread nD τ) (owedFrom c l) (insert (SemLoc.dma (recvS (semIx p r)), ()) W) ∗ cp3 c p r ∗ R) -∗ WP[c] (k ⟨⟩) Q)
      -∗ WP[c] (.op (.waitDma2 (recvS (semIx p r)) src dst hsrc hdst) k) Q) := by
  subst hR
  unfold cp2 cp3
  iintro #Hrec #Hlev ⟨Hvs, Har, Hcr⟩ HO Hk
  iapply (wait_core m K c _ (owedFrom c l) W (inv_at m K (c, rI (semIx p r))) (expect_recv m c p r) (rest_recv m c p r) hN) $$ [Hcr HO Har]
  · iframe ∗ #; iapply (mayWait_list c (.dma (recvS (semIx p r))) l (fun pr hpr => by rw [lv_recv]; exact hl pr hpr)); iexact Hlev
  iintro ⟨HO, Hv, Hpay⟩
  iapply Hk
  iframe ∗ #

/-- Issuing copy (p, r), p < 4, into slot sl b r of the target, which the issuer holds. -/
theorem step_copy_slot (c n n' : Dev nD) (p : Fin 6) (b : Fin 4) (hb : b.val = p.val) (r : Fin 2) (hn : n = n') (hn' : n' = peer p c)
    (j : Fin 8) (hj : j = srcCh p c r) (v : Vec F S256x1024 .bf16) (hv : v = srcVal m p c r)
    (off : Fin 2 → Nat) (hoff : off = chunkOff j) (inb : ∀ a, off a + S256x1024.size a ≤ S2048x1024.size a)
    {hsc hsrc hdst hsem}
    {α : Type} {Q : α → sProp 𝕄} {k : PUnit → Prog (TpuEff nD τ sig (Elt F) Λ₀ .tc) α}
    (fn : RC F) (l' l : List (Fin 6 × Fin 2)) (hl : l' = (p, r) :: l) (W : Waits sig Unit) :
    records m K ⊢ iprop(cp0 c p r -∗ oPts c j (cO j v) -∗ rPts n' (sl b r) fn -∗ owes (c : Thread nD τ) (owedFrom c l') W
      -∗ ((cp1 c p r ∗ owes (c : Thread nD τ) (owedFrom c l) W) -∗ WP[c] (k ⟨⟩) Q)
      -∗ WP[c] (.op (.enqueueDma (oM.slice (Rect.unit (s := S2048x1024) off S256x1024.size inb) (fun _ => rfl))
              (.remote (Dev.tc n : Thread nD τ) (rSl (sl b r)) (.dma (sendS (semIx p r))) hsc) (.dma (recvS (semIx p r))) hsrc hdst hsem) k) Q) := by
  subst hn hn' hj hv hl hoff
  obtain ⟨n, rfl⟩ : ∃ n, c = peer p n := ⟨_, (peer_peer p c).symm⟩
  obtain ⟨b, hb'⟩ := b
  cases hb
  unfold cp0 cp1
  refine step_of ((send_pre m K (peer p n, sI (semIx p r)) (peer p (peer p n), rI (semIx p r))).trans
    ((sep_mono_right (sep_mono_right (sep_mono_right (sep_mono_left (pointsTo_writeUpdate _ subset_rfl))))).trans
    (wp_send_bif 𝒱₀ ER (Rd m) _ none (decide (p.val < 2)) (duties_send m _ p r ▸ Finset.mem_singleton_self _) (duties_recv m _ p r ▸ Finset.mem_singleton_self _)
      () () N rfl (amount_send m _ p r _) (amount_recv m _ p r _) (owedFrom _ l) rfl
      (by rw [payload_send, sendPay, Bool.cond_decide]; exact .rfl) ?_)))
  change (bif _ then iprop(rPts _ _ _ ∗ oPts _ _ _) else rPts _ _ _) ⊢ _
  rw [payload_recv, read_cO, rPts_norm, peer_peer]
  fin_cases p <;> first | exact .rfl | exact absurd hb' (by decide)

/-- Issuing copy (p, r), 4 ≤ p, into the same chunk of the target, which the issuer holds. -/
theorem step_copy_chunk (c n n' : Dev nD) (p : Fin 6) (hp : 4 ≤ p.val) (r : Fin 2) (hn : n = n') (hn' : n' = peer p c)
    (j : Fin 8) (hj : j = srcCh p c r) (v : Vec F S256x1024 .bf16) (hv : v = srcVal m p c r)
    (off : Fin 2 → Nat) (hoff : off = chunkOff j) (inb : ∀ a, off a + S256x1024.size a ≤ S2048x1024.size a)
    {hsc hsrc hdst hsem}
    {α : Type} {Q : α → sProp 𝕄} {k : PUnit → Prog (TpuEff nD τ sig (Elt F) Λ₀ .tc) α}
    (fd : OC F) (l' l : List (Fin 6 × Fin 2)) (hl : l' = (p, r) :: l) (W : Waits sig Unit) :
    records m K ⊢ iprop(cp0 c p r -∗ oPts c j (cO j v) -∗ oPts n' j fd -∗ owes (c : Thread nD τ) (owedFrom c l') W
      -∗ ((cp1 c p r ∗ owes (c : Thread nD τ) (owedFrom c l) W) -∗ WP[c] (k ⟨⟩) Q)
      -∗ WP[c] (.op (.enqueueDma (oM.slice (Rect.unit (s := S2048x1024) off S256x1024.size inb) (fun _ => rfl))
              (.remote (Dev.tc n : Thread nD τ) (oM.slice (Rect.unit (s := S2048x1024) off S256x1024.size inb) (fun _ => rfl)) (.dma (sendS (semIx p r))) hsc)
              (.dma (recvS (semIx p r))) hsrc hdst hsem) k) Q) := by
  subst hn hn' hj hv hl hoff
  obtain ⟨n, rfl⟩ : ∃ n, c = peer p n := ⟨_, (peer_peer p c).symm⟩
  have h2 : ¬ p.val < 2 := by omega
  unfold cp0 cp1
  refine step_of ((send_pre m K (peer p n, sI (semIx p r)) (peer p (peer p n), rI (semIx p r))).trans
    (wp_send_pointsTo 𝒱₀ ER (Rd m) _ none (duties_send m _ p r ▸ Finset.mem_singleton_self _) (duties_recv m _ p r ▸ Finset.mem_singleton_self _)
      () () N rfl (amount_send m _ p r _) (amount_recv m _ p r _) (owedFrom _ l) rfl
      (by rw [payload_send, sendPay, if_neg h2]; exact .rfl) ?_))
  change oPts _ _ _ ⊢ _
  rw [payload_recv, read_cO, oPts_norm, peer_peer]
  fin_cases p <;> first | exact .rfl | exact absurd hp (by decide)

/-- Rounding chunk j of the input into the result buffer. -/
theorem step_cast (c : Dev nD) (j : Fin 8) (off : Fin 2 → Nat) (hoff : off = chunkOff j) (inb : ∀ a, off a + S256x1024.size a ≤ S2048x1024.size a)
    (g : OC F) (pay : Vec F S256x1024 .f32 → FVec F S256x1024 .bf16) (hpay : pay = castV)
    {hlx hlo} {hx hm}
    {α : Type} {Q : α → sProp 𝕄} {k : PUnit → Prog (TpuEff nD τ sig (Elt F) Λ₀ .tc) α} :
    (((c : Thread nD τ).loc cc0_stg0_0) ↦{fullShare} xs m c : sProp 𝕄) ⊢ iprop(oPts c j g
      -∗ (((((c : Thread nD τ).loc cc0_stg0_0) ↦{fullShare} xs m c) ∗ oPts c j (cO j (p0 m c j))) -∗ WP[c] (k ⟨⟩) Q)
      -∗ WP[c] (.op (.load xM (Rect.unit (s := S2048x1024) off S256x1024.size inb).toLoadRect hlx) fun v =>
            .op (.load oM (Rect.unit (s := S2048x1024) off S256x1024.size inb).toLoadRect hlo) fun _ =>
            .op (.store oM (Rect.unit (s := S2048x1024) off S256x1024.size inb) (pay v) Finset.univ hx hm) k) Q) := by
  subst hpay
  iintro Hx Ho Hk
  iapply (wp_load_x m c j off hoff inb) $$ Hx; iintro Hx
  iapply (wp_load_o c j off hoff inb g) $$ Ho; iintro Ho
  iapply (wp_store_o c j off hoff inb g (castV (xRead j (xs m c)))) $$ Ho; iintro Ho
  iapply Hk
  iframe ∗; iexact Ho

/-- Adding what landed in slot k' to chunk j. -/
theorem step_acc (c : Dev nD) (j k' : Fin 8) (off : Fin 2 → Nat) (hoff : off = chunkOff j) (inb : ∀ a, off a + S256x1024.size a ≤ S2048x1024.size a)
    (a b : Vec F S256x1024 .bf16)
    (pay : Vec F S256x1024 .bf16 → Vec F S1x256x1024 .bf16 → FVec F S256x1024 .bf16) (hpay : pay = accV)
    (v : Vec F S256x1024 .bf16) (hv : accV a (sRead k' (cR k' b)) = v)
    {hl₁ hl₂ hls} {hx hm}
    {α : Type} {Q : α → sProp 𝕄} {k : PUnit → Prog (TpuEff nD τ sig (Elt F) Λ₀ .tc) α} :
    (oPts c j (cO j a) : sProp 𝕄) ⊢ iprop(rPts c k' (cR k' b)
      -∗ ((oPts c j (cO j v) ∗ rPts c k' (cR k' b)) -∗ WP[c] (k ⟨⟩) Q)
      -∗ WP[c] (.op (.load oM (Rect.unit (s := S2048x1024) off S256x1024.size inb).toLoadRect hl₁) fun v₁ =>
            .op (.load rM (slotRect k').toLoadRect hls) fun v₂ =>
            .op (.load oM (Rect.unit (s := S2048x1024) off S256x1024.size inb).toLoadRect hl₂) fun _ =>
            .op (.store oM (Rect.unit (s := S2048x1024) off S256x1024.size inb) (pay v₁ v₂) Finset.univ hx hm) k) Q) := by
  subst hpay hv
  iintro Ho Hr Hk
  iapply (wp_load_o c j off hoff inb (cO j a)) $$ Ho; iintro Ho
  iapply (wp_load_slot c k' (cR k' b)) $$ Hr; iintro Hr
  iapply (wp_load_o c j off hoff inb (cO j a)) $$ Ho; iintro Ho
  iapply (wp_store_o c j off hoff inb (cO j a) (accV ((oCh j).view.read (Elt F) (cO j a)) (sRead k' (cR k' b)))) $$ Ho; iintro Ho
  rw [read_cO]
  iapply Hk
  iframe ∗

end Cert.Kernel.AllReduce

end
-- ==== Proof.Bits.Parts.lean ====
import proofs.«900178_g7700000000000179_dist_full2d_reduce_m2048_n1024_v7x_xy2x2_bf16_1_alg».proof.Proof.Bits.Rules

noncomputable section

namespace Cert.Kernel.AllReduce

open Cert.Kernel Cert.Kernel.Gen
open Idealize.ShloMosaic Idealize.SL.Sem
open Idealize.ShloMosaic.TcCoe

variable {F : FTy → Type} [FloatOps F]

abbrev T1 (F : FTy → Type) [FloatOps F] : Type :=
  Σ' (d0 : Dev nD) (v2 v5 v6 v7 v8 v10 v12 v15 v25 : BitVec 32), FVec F S256x1024 .bf16

/-- A function of the body's five arguments, at the buffers the kernel is called with. -/
abbrev atBufs {β : Type 1} (f : (a0 : Memref sig .tc .vmem S2048x1024 .f32) → a0.IsWhole → (a1 : Memref sig .tc .vmem S2048x1024 .bf16) → a1.IsWhole
    → (a2 : Memref sig .tc .vmem S8x256x1024 .bf16) → a2.IsWhole → DmaSems sig S12 → DmaSems sig S12 → β) : β :=
  f (Memref.whole cc0_stg0_0) (Memref.isWhole_whole _) (Memref.whole cc0_stg1_0) (Memref.isWhole_whole _) (Memref.whole cc0_scratch0) (Memref.isWhole_whole _) cc0_scratch1 cc0_scratch2

abbrev P1 : Prog (TpuEff nD τ sig (Elt F) Λ₀ .tc) (T1 F) := atBufs (k0_part1 (F := F))
abbrev P2 (d0 : Dev nD) (v2 v5 v6 v7 v10 v15 v25 : BitVec 32) (v29 : FVec F S256x1024 .bf16) : Prog (TpuEff nD τ sig (Elt F) Λ₀ .tc) PUnit :=
  atBufs (k0_part2 (F := F)) d0 v2 v5 v6 v7 v10 v15 v25 v29
abbrev P3 (d0 : Dev nD) (v2 v5 v6 v7 v10 v15 : BitVec 32) : Prog (TpuEff nD τ sig (Elt F) Λ₀ .tc) PUnit :=
  atBufs (k0_part3 (F := F)) d0 v2 v5 v6 v7 v10 v15
abbrev P4 (d0 : Dev nD) (v8 v12 : BitVec 32) : Prog (TpuEff nD τ sig (Elt F) Λ₀ .tc) PUnit :=
  atBufs (k0_part4 (F := F)) d0 v8 v12
abbrev P5 (d0 : Dev nD) (v2 v5 v6 v7 v8 : BitVec 32) : Prog (TpuEff nD τ sig (Elt F) Λ₀ .tc) PUnit :=
  atBufs (k0_part5 (F := F)) d0 v2 v5 v6 v7 v8
abbrev P6 (d0 : Dev nD) (v2 v6 v7 v12 : BitVec 32) : Prog (TpuEff nD τ sig (Elt F) Λ₀ .tc) (Σ' (v188 : BitVec 32) , BitVec 32) :=
  atBufs (k0_part6 (F := F)) d0 v2 v6 v7 v12
abbrev P7 (d0 : Dev nD) (v5 v7 v8 v188 c0 : BitVec 32) : Prog (TpuEff nD τ sig (Elt F) Λ₀ .tc) (FVec F S256x1024 .bf16) :=
  atBufs (k0_part7 (F := F)) d0 v5 v7 v8 v188 c0
abbrev P8 (d0 : Dev nD) (v2 v6 v8 v12 : BitVec 32) (v219 : FVec F S256x1024 .bf16) : Prog (TpuEff nD τ sig (Elt F) Λ₀ .tc) (BitVec 32) :=
  atBufs (k0_part8 (F := F)) d0 v2 v6 v8 v12 v219
abbrev P9 (d0 : Dev nD) (v2 v5 v6 v7 v12 v248 : BitVec 32) : Prog (TpuEff nD τ sig (Elt F) Λ₀ .tc) PUnit :=
  atBufs (k0_part9 (F := F)) d0 v2 v5 v6 v7 v12 v248
abbrev P10 (d0 : Dev nD) (v5 v7 v8 : BitVec 32) : Prog (TpuEff nD τ sig (Elt F) Λ₀ .tc) PUnit :=
  atBufs (k0_part10 (F := F)) d0 v5 v7 v8
abbrev P11 (d0 : Dev nD) (v2 v5 v6 v7 v12 : BitVec 32) : Prog (TpuEff nD τ sig (Elt F) Λ₀ .tc) PUnit :=
  atBufs (k0_part11 (F := F)) d0 v2 v5 v6 v7 v12
abbrev P12 (d0 : Dev nD) (v2 v5 v6 v7 v8 : BitVec 32) : Prog (TpuEff nD τ sig (Elt F) Λ₀ .tc) PUnit :=
  atBufs (k0_part12 (F := F)) d0 v2 v5 v6 v7 v8
abbrev P13 (d0 : Dev nD) (v2 v5 v6 v7 v12 : BitVec 32) : Prog (TpuEff nD τ sig (Elt F) Λ₀ .tc) PUnit :=
  atBufs (k0_part13 (F := F)) d0 v2 v5 v6 v7 v12
abbrev P14 (d0 : Dev nD) (v5 v7 : BitVec 32) : Prog (TpuEff nD τ sig (Elt F) Λ₀ .tc) PUnit :=
  atBufs (k0_part14 (F := F)) d0 v5 v7

def tail15g (arg0 : Memref sig .tc .vmem S2048x1024 .f32) (harg0 : arg0.IsWhole) (arg1 : Memref sig .tc .vmem S2048x1024 .bf16) (harg1 : arg1.IsWhole) (arg2 : Memref sig .tc .vmem S8x256x1024 .bf16) (harg2 : arg2.IsWhole) (arg3 : DmaSems sig S12) (arg4 : DmaSems sig S12) (d0 : Dev nD) : Prog (TpuEff nD τ sig (Elt F) Λ₀ .tc) (Dev nD) := do
  let v425 : DmaSems sig S1 := arg4.slice (Rect.unit (s := S12) ![9] S1.size inb_S12_S1_9)
  let v426 : DmaSems sig S_ := v425.squeeze S_ squeezes_S1_S_
  let v427 : Memref sig .tc .vmem S256x1024 .bf16 := arg1.slice (Rect.unit (s := S2048x1024) (k0_off7 d0 256#32) S256x1024.size (k0_off7_inb d0 1)) (fun _ => rfl)
  let v428 : Memref sig .tc .vmem S256x1024 .bf16 := arg1.slice (Rect.unit (s := S2048x1024) (k0_off7 d0 256#32) S256x1024.size (k0_off7_inb d0 1)) (fun _ => rfl)
  Prog.lift (.waitDma2 v426.sem v428 v427 (harg1.wordExact_slice rfl _ (k0_off7_wordsbf16 d0 1)) (harg1.wordExact_slice rfl _ (k0_off7_wordsbf16 d0 1)))
  let v429 : DmaSems sig S1 := arg3.slice (Rect.unit (s := S12) ![10] S1.size inb_S12_S1_10)
  let v430 : DmaSems sig S_ := v429.squeeze S_ squeezes_S1_S_
  let v431 : Memref sig .tc .vmem S256x1024 .bf16 := arg1.slice (Rect.unit (s := S2048x1024) (k0_off8 d0 0#32) S256x1024.size (k0_off8_inb d0 0)) (fun _ => rfl)
  let v432 : Memref sig .tc .vmem S256x1024 .bf16 := arg1.slice (Rect.unit (s := S2048x1024) (k0_off8 d0 0#32) S256x1024.size (k0_off8_inb d0 0)) (fun _ => rfl)
  Prog.lift (.waitDma2 v430.sem v432 v431 (harg1.wordExact_slice rfl _ (k0_off8_wordsbf16 d0 0)) (harg1.wordExact_slice rfl _ (k0_off8_wordsbf16 d0 0)))

  let v437 : DmaSems sig S1 := arg4.slice (Rect.unit (s := S12) ![10] S1.size inb_S12_S1_10)
  let v438 : DmaSems sig S_ := v437.squeeze S_ squeezes_S1_S_
  let v439 : Memref sig .tc .vmem S256x1024 .bf16 := arg1.slice (Rect.unit (s := S2048x1024) (k0_off8 d0 0#32) S256x1024.size (k0_off8_inb d0 0)) (fun _ => rfl)
  let v440 : Memref sig .tc .vmem S256x1024 .bf16 := arg1.slice (Rect.unit (s := S2048x1024) (k0_off8 d0 0#32) S256x1024.size (k0_off8_inb d0 0)) (fun _ => rfl)
  Prog.lift (.waitDma2 v438.sem v440 v439 (harg1.wordExact_slice rfl _ (k0_off8_wordsbf16 d0 0)) (harg1.wordExact_slice rfl _ (k0_off8_wordsbf16 d0 0)))
  let v441 : DmaSems sig S1 := arg3.slice (Rect.unit (s := S12) ![11] S1.size inb_S12_S1_11)
  let v442 : DmaSems sig S_ := v441.squeeze S_ squeezes_S1_S_
  let v443 : Memref sig .tc .vmem S256x1024 .bf16 := arg1.slice (Rect.unit (s := S2048x1024) (k0_off8 d0 256#32) S256x1024.size (k0_off8_inb d0 1)) (fun _ => rfl)
  let v444 : Memref sig .tc .vmem S256x1024 .bf16 := arg1.slice (Rect.unit (s := S2048x1024) (k0_off8 d0 256#32) S256x1024.size (k0_off8_inb d0 1)) (fun _ => rfl)
  Prog.lift (.waitDma2 v442.sem v444 v443 (harg1.wordExact_slice rfl _ (k0_off8_wordsbf16 d0 1)) (harg1.wordExact_slice rfl _ (k0_off8_wordsbf16 d0 1)))

  pure d0

def tailBodyg (arg0 : Memref sig .tc .vmem S2048x1024 .f32) (harg0 : arg0.IsWhole) (arg1 : Memref sig .tc .vmem S2048x1024 .bf16) (harg1 : arg1.IsWhole) (arg2 : Memref sig .tc .vmem S8x256x1024 .bf16) (harg2 : arg2.IsWhole) (arg3 : DmaSems sig S12) (arg4 : DmaSems sig S12) (d0 : Dev nD) : Prog (TpuEff nD τ sig (Elt F) Λ₀ .tc) PUnit := do
  let v449 : DmaSems sig S1 := arg4.slice (Rect.unit (s := S12) ![11] S1.size inb_S12_S1_11)
  let v450 : DmaSems sig S_ := v449.squeeze S_ squeezes_S1_S_
  let v451 : Memref sig .tc .vmem S256x1024 .bf16 := arg1.slice (Rect.unit (s := S2048x1024) (k0_off8 d0 256#32) S256x1024.size (k0_off8_inb d0 1)) (fun _ => rfl)
  let v452 : Memref sig .tc .vmem S256x1024 .bf16 := arg1.slice (Rect.unit (s := S2048x1024) (k0_off8 d0 256#32) S256x1024.size (k0_off8_inb d0 1)) (fun _ => rfl)
  Prog.lift (.waitDma2 v450.sem v452 v451 (harg1.wordExact_slice rfl _ (k0_off8_wordsbf16 d0 1)) (harg1.wordExact_slice rfl _ (k0_off8_wordsbf16 d0 1)))
  pure ⟨⟩

abbrev tail15 (d0 : Dev nD) : Prog (TpuEff nD τ sig (Elt F) Λ₀ .tc) (Dev nD) := atBufs (tail15g (F := F)) d0
abbrev tailBody (d0 : Dev nD) : Prog (TpuEff nD τ sig (Elt F) Λ₀ .tc) PUnit := atBufs (tailBodyg (F := F)) d0

theorem body_eq :
    atBufs (cc0_body (F := F))
      = (do
          let d0 ← (do
            let r ← (P1 (F := F))
            P2 r.1 r.2.1 r.2.2.1 r.2.2.2.1 r.2.2.2.2.1 r.2.2.2.2.2.2.1 r.2.2.2.2.2.2.2.2.1 r.2.2.2.2.2.2.2.2.2.1 r.2.2.2.2.2.2.2.2.2.2
            P3 r.1 r.2.1 r.2.2.1 r.2.2.2.1 r.2.2.2.2.1 r.2.2.2.2.2.2.1 r.2.2.2.2.2.2.2.2.1
            P4 r.1 r.2.2.2.2.2.1 r.2.2.2.2.2.2.2.1
            P5 r.1 r.2.1 r.2.2.1 r.2.2.2.1 r.2.2.2.2.1 r.2.2.2.2.2.1
            let r6 ← P6 r.1 r.2.1 r.2.2.2.1 r.2.2.2.2.1 r.2.2.2.2.2.2.2.1
            let v219 ← P7 r.1 r.2.2.1 r.2.2.2.2.1 r.2.2.2.2.2.1 r6.1 r6.2
            let v248 ← P8 r.1 r.2.1 r.2.2.2.1 r.2.2.2.2.2.1 r.2.2.2.2.2.2.2.1 v219
            P9 r.1 r.2.1 r.2.2.1 r.2.2.2.1 r.2.2.2.2.1 r.2.2.2.2.2.2.2.1 v248
            P10 r.1 r.2.2.1 r.2.2.2.2.1 r.2.2.2.2.2.1
            P11 r.1 r.2.1 r.2.2.1 r.2.2.2.1 r.2.2.2.2.1 r.2.2.2.2.2.2.2.1
            P12 r.1 r.2.1 r.2.2.1 r.2.2.2.1 r.2.2.2.2.1 r.2.2.2.2.2.1
            P13 r.1 r.2.1 r.2.2.1 r.2.2.2.1 r.2.2.2.2.1 r.2.2.2.2.2.2.2.1
            P14 r.1 r.2.2.1 r.2.2.2.2.1
            tail15 r.1)
          tailBody d0) := by
  rfl

open Idealize.SL Idealize.SL.RA Idealize.SL.BI
open scoped Idealize.SL.BI
open Idealize.SL.BI.BIBase Idealize.SL.BI.Laws Idealize.SL.ProofMode
open Idealize.ShloMosaic.Rounds

local notation "𝕄" => MT nD τ sig Unit (Elt F) ℕ UU ℕ

def S14 (m : (ℓ : Loc nD τ sig) → Buf (Elt F) ℓ) (K : Dev nD × CIx → ℕ) (c : Dev nD) : sProp 𝕄 :=
  iprop(records m K ∗ levAts L lv ∗ atPos ER (barCell c) 1 ∅ 0
    ∗ (cp3 c 0 0 ∗ cp3 c 0 1 ∗ cp3 c 1 0 ∗ cp3 c 1 1 ∗ cp3 c 2 0 ∗ cp3 c 2 1 ∗ cp3 c 3 0 ∗ cp3 c 3 1)
    ∗ (cp3 c 4 0 ∗ cp2 c 4 1 ∗ cp1 c 5 0 ∗ cp1 c 5 1)
    ∗ (∃ W, owes (c : Thread nD τ) (owedFrom c []) W)
    ∗ (((c : Thread nD τ).loc cc0_stg0_0) ↦{fullShare} xs m c)
    ∗ (rPts c (sl 0 0) (cR (sl 0 0) (srcVal m 0 (xn c) 0)) ∗ rPts c (sl 0 1) (cR (sl 0 1) (srcVal m 0 (xn c) 1))
        ∗ rPts c (sl 1 0) (cR (sl 1 0) (srcVal m 1 (yn c) 0)) ∗ rPts c (sl 1 1) (cR (sl 1 1) (srcVal m 1 (yn c) 1))
        ∗ rPts c (sl 2 0) (cR (sl 2 0) (srcVal m 2 (yn c) 0)) ∗ rPts c (sl 2 1) (cR (sl 2 1) (srcVal m 2 (yn c) 1))
        ∗ rPts c (sl 3 0) (cR (sl 3 0) (srcVal m 3 (xn c) 0)) ∗ rPts c (sl 3 1) (cR (sl 3 1) (srcVal m 3 (xn c) 1)))
    ∗ (oPts c (aK c 0) (cO (aK c 0) (fa m c 0)) ∗ oPts c (aK c 1) (cO (aK c 1) (fa m c 1))
        ∗ oPts c (aS c 0) (cO (aS c 0) (fa m (xn c) 0))))

omit [FloatOps F] in
theorem bigSep_chunks (c : Dev nD) (Φ : Fin 8 → sProp 𝕄) :
    bigSep Finset.univ Φ = iprop(Φ (aK c 0) ∗ Φ (aK c 1) ∗ Φ (aS c 0) ∗ Φ (aS c 1) ∗ Φ (bK c 0) ∗ Φ (bK c 1) ∗ Φ (bS c 0) ∗ Φ (bS c 1)) :=
  bigSep_univ_eq_bigSepL [aK c 0, aK c 1, aS c 0, aS c 1, bK c 0, bK c 1, bS c 0, bS c 1]
    ((by decide : ∀ c : Dev nD, (Finset.univ : Finset (Fin 8)) = [aK c 0, aK c 1, aS c 0, aS c 1, bK c 0, bK c 1, bS c 0, bS c 1].toFinset) c)
    ((by decide : ∀ c : Dev nD, [aK c 0, aK c 1, aS c 0, aS c 1, bK c 0, bK c 1, bS c 0, bS c 1].Nodup) c) Φ

end Cert.Kernel.AllReduce

end
-- ==== Proof.Bits.BodyA.lean ====
import proofs.«900178_g7700000000000179_dist_full2d_reduce_m2048_n1024_v7x_xy2x2_bf16_1_alg».proof.Proof.Bits.Parts

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "WP[" c "]" => wp frame (wpE (defs₀ (F := F)) 𝒱₀ (c : Thread nD τ) none) Set.univ

variable (m : (ℓ : Loc nD τ sig) → Buf (Elt F) ℓ) (ρ : Dev nD → PrngReg) (K : Dev nD × CIx → ℕ)

def S1 (m : (ℓ : Loc nD τ sig) → Buf (Elt F) ℓ) (K : Dev nD × CIx → ℕ) (c : Dev nD) : sProp 𝕄 :=
  iprop(records m K ∗ levAts L lv ∗ atPos ER (barCell c) 1 ∅ 0
    ∗ (cp0 c 0 0 ∗ cp0 c 0 1 ∗ cp0 c 1 0 ∗ cp0 c 1 1)
    ∗ (cp0 c 2 0 ∗ cp0 c 2 1 ∗ cp0 c 3 0 ∗ cp0 c 3 1 ∗ cp0 c 4 0 ∗ cp0 c 4 1 ∗ cp0 c 5 0 ∗ cp0 c 5 1)
    ∗ (∃ W, owes (c : Thread nD τ) (owedFrom c payOrder) W)
    ∗ (((c : Thread nD τ).loc cc0_stg0_0) ↦{fullShare} xs m c)
    ∗ (∃ g : OC F, oPts c (aK c 0) g ∗ oPts c (aK c 1) g ∗ oPts c (aS c 0) g ∗ oPts c (aS c 1) g
        ∗ oPts c (bK c 0) g ∗ oPts c (bK c 1) g ∗ oPts c (bS c 0) g ∗ oPts c (bS c 1) g)
    ∗ barPay c false ∗ barPay c true)

/-- Entry: signal both neighbours' barrier cells, handing each the slots it will write, and wait for theirs. -/
theorem part1_spec (c : Dev nD) (Q : T1 F → sProp 𝕄) :
    iprop(bodyPre m ρ K c
        ∗ (∀ v2 v5 v6 v7 v8 v10 v12 v15 v25,
            S1 m K c -∗ Q ⟨c, v2, v5, v6, v7, v8, v10, v12, v15, v25, castV (xRead (aS c 0) (xs m c))⟩))
      ⊢ WP[c] (P1 (F := F)) Q := by
  dsimp only [P1, atBufs]
  simp only [k0_part1_eq_skeleton]; unfold k0_part1_skel
  simp only [semSignalWord, semWaitWord, Prog.lift, Prog.bind_op, Prog.bind_ret, Prog.pure_eq_ret, wp_deviceId]
  unfold bodyPre linear barToks
  iintro ⟨⟨⟨#Hrec, ⟨HatB, ⟨HtF, HtT⟩, HcB, Hcps⟩, #Hlev, ⟨%f0, Hscr⟩⟩, Ho, ⟨%d0, %g0, %hg0, Hx⟩, ⟨%d1, %g1, %hg1, Hout⟩⟩, Hk⟩
  have hx : g0 = xs m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c]
  ihave Hsl := (Entails.of_eq ((r_split c f0).trans (bigSep_fin8 _))) $$ Hscr
  icases Hsl with ⟨Hs0, Hs1, Hs2, Hs3, Hs4, Hs5, Hs6, Hs7⟩
  iapply (Rounds.wp_signal 𝒱₀ ER (Rd m) (c : Thread nD τ) none (dst := (yn c : Thread nD τ)) (κ := K (yn c, bI))
      (d := false) (by rw [duties_bar]; exact Finset.mem_univ _) ((amount_bar m (yn c) false).trans (by decide)) () (O₁ c) rfl)
    $$ [HO HtF Hs2 Hs3 Hs4 Hs5]
  · isplitr; · iapply (inv_at m K (yn c, bI)); iexact Hrec
    isplitl [HO]; · iexact HO
    isplitl [HtF]; · iexact HtF
    isplitl [Hs2 Hs3 Hs4 Hs5]
    · rw [payload_bar]; unfold barPay; rw [if_neg (by decide), yn_yn]
      iexists f0, f0, f0, f0
      isplitl [Hs2]; · iexact Hs2
      isplitl [Hs3]; · iexact Hs3
      isplitl [Hs4]; · iexact Hs4
      iexact Hs5
    · iapply (reached_at m K (yn c, bI)); iexact Hrec
  iintro HO
  unfold O₁
  iapply (Rounds.wp_signal 𝒱₀ ER (Rd m) (c : Thread nD τ) none (dst := (xn c : Thread nD τ)) (κ := K (xn c, bI))
      (d := true) (by rw [duties_bar]; exact Finset.mem_univ _) ((amount_bar m (xn c) true).trans (by decide)) () (owedFrom c payOrder) rfl)
    $$ [HO HtT Hs0 Hs1 Hs6 Hs7]
  · isplitr; · iapply (inv_at m K (xn c, bI)); iexact Hrec
    isplitl [HO]; · iexact HO
    isplitl [HtT]; · iexact HtT
    isplitl [Hs0 Hs1 Hs6 Hs7]
    · rw [payload_bar]; unfold barPay; rw [if_pos rfl, xn_xn]
      iexists f0, f0, f0, f0
      isplitl [Hs0]; · iexact Hs0
      isplitl [Hs1]; · iexact Hs1
      isplitl [Hs6]; · iexact Hs6
      iexact Hs7
    · iapply (reached_at m K (xn c, bI)); iexact Hrec
  iintro HO
  have hk2 : 0 + (2#32).toNat = (Rd (F := F) m).expect (barCell c) 0 := by rw [expect_bar]; decide
  have hmw : (levAts L lv : sProp 𝕄) ⊢ MayWait (c : Thread nD τ) (.reg barS) () (owedFrom c payOrder) :=
    mayWait_list c (.reg barS) payOrder (fun pr _ => by rw [lv_bar]; omega)
  have hw : ∀ K' : PUnit → sProp 𝕄, wpE' (defs₀ (F := F)) 𝒱₀ (c : Thread nD τ) none .empty Set.univ
      (.semWait barS (2#32).toNat) K' = waitSpec (c : Thread nD τ) Set.univ (.reg barS) (2#32).toNat K' := fun K' => rfl
  iapply (Rounds.wp_wait_rest_token (defs := defs₀ (F := F)) 𝒱₀ ER (Rd m) (c : Thread nD τ) none (κ := K (c, bI)) (sm := .reg barS) (k' := (2#32).toNat)
      hw (Set.mem_univ _) () (O := owedFrom c payOrder) (W := W) (R := 0) (m := 0) (T := ∅) hk2) $$ [HcB HO HatB]
  · isplitr; · iapply (inv_at m K (c, bI)); iexact Hrec
    isplitl [HcB]; · iexact HcB
    isplitl [HO]; · iexact HO
    isplitr; · iapply hmw; iexact Hlev
    iexact HatB
  iintro ⟨HO, HatB, -, Hpay⟩
  ihave Hp := (Entails.of_eq (rest_bar m c)) $$ Hpay
  iapply (wp_load_x m c (aS c 0) (k0_off1 c 0#32) (off1_eq c 0) (k0_off1_inb c 0)) $$ Hx
  iintro Hx
  rw [wp_ret]; imodintro
  iapply Hk
  unfold S1
  ihave Hch := (Entails.of_eq ((o_split c g1).trans (bigSep_chunks c _))) $$ Hout
  ihave Hcp := (Entails.of_eq (bigSep_pr _)) $$ Hcps
  icases Hcp with ⟨H00, H01, H10, H11, Hrest⟩
  iframe ∗ #
  isplitl [HO]; · iexists _; iexact HO
  iexists g1; iexact Hch

/-- Every chunk rounded into the result buffer; the four chunks given away sent at once. -/
theorem parts2_4_spec (c : Dev nD) (v2 v5 v6 v7 v8 v10 v12 v15 v25 : BitVec 32) (Q : PUnit → sProp 𝕄) :
    iprop(S1 m K c ∗ (mid1 m K c -∗ Q ⟨⟩))
      ⊢ WP[c] (P2 c v2 v5 v6 v7 v10 v15 v25 (castV (xRead (aS c 0) (xs m c))))
          (fun _ => WP[c] (P3 (F := F) c v2 v5 v6 v7 v10 v15) (fun _ => WP[c] (P4 (F := F) c v8 v12) Q)) := by
  dsimp only [P2, P3, P4, atBufs]
  simp only [k0_part2_eq_skeleton, k0_part3_eq_skeleton, k0_part4_eq_skeleton]
  unfold k0_part2_skel k0_part3_skel k0_part4_skel
  simp only [Prog.lift, Prog.bind_op, Prog.bind_ret, Prog.pure_eq_ret]
  unfold S1 barPay
  rw [if_neg (by decide : ¬ (false = true)), if_pos (rfl : true = true)]
  iintro ⟨⟨#Hrec, #Hlev, HatB, ⟨H00, H01, H10, H11⟩, Hrest, ⟨%W, HO⟩, Hx,
      ⟨%g, HaK0, HaK1, HaS0, HaS1, HbK0, HbK1, HbS0, HbS1⟩,
      ⟨%f2, %f3, %f4, %f5, Hy2, Hy3, Hy4, Hy5⟩, ⟨%f0, %f1, %f6, %f7, Hx0, Hx1, Hx6, Hx7⟩⟩, Hk⟩
  iapply (wp_load_o c (aS c 0) (k0_off1 c 0#32) (off1_eq c 0) (k0_off1_inb c 0) g) $$ HaS0; iintro HaS0
  iapply (wp_store_o c (aS c 0) (k0_off1 c 0#32) (off1_eq c 0) (k0_off1_inb c 0) g (p0 m c (aS c 0))) $$ HaS0; iintro HaS0
  iapply (step_copy_slot m K c _ (xn c) 0 0 rfl 0 (dev3_eq c) rfl (aS c 0) rfl (p0 m c (aS c 0)) rfl (k0_off2 c 0#32) (off2_eq c 0) (k0_off2_inb c 0)
    f0 payOrder (payOrder.drop 1) rfl W) $$ Hrec H00 HaS0 Hx0 HO
  iintro ⟨H00, HO⟩
  iapply (step_cast m c (bS c 0) (k0_off3 c 0#32) (off3_eq c 0) (k0_off3_inb c 0) g k0_pay2 pay2_eq) $$ Hx HbS0; iintro ⟨Hx, HbS0⟩
  rw [wp_ret]; imodintro
  iapply (step_copy_slot m K c _ (yn c) 1 1 rfl 0 (dev4_eq c) rfl (bS c 0) rfl (p0 m c (bS c 0)) rfl (k0_off4 c 0#32) (off4_eq c 0) (k0_off4_inb c 0)
    f2 (payOrder.drop 1) (payOrder.drop 2) rfl W) $$ Hrec H10 HbS0 Hy2 HO
  iintro ⟨H10, HO⟩
  iapply (step_cast m c (aS c 1) (k0_off1 c 256#32) (off1_eq c 1) (k0_off1_inb c 1) g k0_pay3 pay3_eq) $$ Hx HaS1; iintro ⟨Hx, HaS1⟩
  iapply (step_copy_slot m K c _ (xn c) 0 0 rfl 1 (dev5_eq c) rfl (aS c 1) rfl (p0 m c (aS c 1)) rfl (k0_off2 c 256#32) (off2_eq c 1) (k0_off2_inb c 1)
    f1 (payOrder.drop 2) (payOrder.drop 3) rfl W) $$ Hrec H01 HaS1 Hx1 HO
  iintro ⟨H01, HO⟩
  iapply (step_cast m c (bS c 1) (k0_off3 c 256#32) (off3_eq c 1) (k0_off3_inb c 1) g k0_pay4 pay4_eq) $$ Hx HbS1; iintro ⟨Hx, HbS1⟩
  rw [wp_ret]; imodintro
  iapply (step_copy_slot m K c _ (yn c) 1 1 rfl 1 (dev6_eq c) rfl (bS c 1) rfl (p0 m c (bS c 1)) rfl (k0_off4 c 256#32) (off4_eq c 1) (k0_off4_inb c 1)
    f3 (payOrder.drop 3) (payOrder.drop 4) rfl W) $$ Hrec H11 HbS1 Hy3 HO
  iintro ⟨H11, HO⟩
  iapply (step_cast m c (aK c 0) (k0_off5 c 0#32) (off5_eq c 0) (k0_off5_inb c 0) g k0_pay5 pay5_eq) $$ Hx HaK0; iintro ⟨Hx, HaK0⟩
  iapply (step_cast m c (bK c 0) (k0_off6 c 0#32) (off6_eq c 0) (k0_off6_inb c 0) g k0_pay6 pay6_eq) $$ Hx HbK0; iintro ⟨Hx, HbK0⟩
  iapply (step_cast m c (aK c 1) (k0_off5 c 256#32) (off5_eq c 1) (k0_off5_inb c 1) g k0_pay7 pay7_eq) $$ Hx HaK1; iintro ⟨Hx, HaK1⟩
  iapply (step_cast m c (bK c 1) (k0_off6 c 256#32) (off6_eq c 1) (k0_off6_inb c 1) g k0_pay8 pay8_eq) $$ Hx HbK1; iintro ⟨Hx, HbK1⟩
  rw [wp_ret]; imodintro
  iapply Hk
  unfold mid1
  iframe ∗ #
  isplitl [HO]; · iexists _; iexact HO
  isplitl [Hy4]; · iexists _; iexact Hy4
  isplitl [Hy5]; · iexists _; iexact Hy5
  isplitl [Hx6]; · iexists _; iexact Hx6
  iexists _; iexact Hx7

end Cert.Kernel.AllReduce

end
-- ==== Proof.Bits.BodyB.lean ====
import proofs.«900178_g7700000000000179_dist_full2d_reduce_m2048_n1024_v7x_xy2x2_bf16_1_alg».proof.Proof.Bits.Parts

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "WP[" c "]" => wp frame (wpE (defs₀ (F := F)) 𝒱₀ (c : Thread nD τ) none) Set.univ

variable (m : (ℓ : Loc nD τ sig) → Buf (Elt F) ℓ) (ρ : Dev nD → PrngReg) (K : Dev nD × CIx → ℕ)

theorem pa_eq (c : Dev nD) (r : Fin 2) : accV (p0 m c (aK c r)) (sRead (sl 0 r) (cR (sl 0 r) (srcVal m 0 (xn c) r))) = pa m c r := by
  rw [srcVal0_xn]; rfl
theorem pb_eq (c : Dev nD) (r : Fin 2) : accV (p0 m c (bK c r)) (sRead (sl 1 r) (cR (sl 1 r) (srcVal m 1 (yn c) r))) = pb m c r := by
  rw [srcVal1_yn]; rfl

/-- Parts 5 – 9: exchange 1 received and added in, exchange 2 issued, its first send waited. -/
theorem parts5_9_spec (c : Dev nD) (v2 v5 v6 v7 v8 v12 : BitVec 32) (Q : PUnit → sProp 𝕄) :
    iprop(mid1 m K c ∗ (mid2 m K c -∗ Q ⟨⟩))
      ⊢ WP[c] (P5 (F := F) c v2 v5 v6 v7 v8) (fun _ => WP[c] (P6 (F := F) c v2 v6 v7 v12) (fun r6 => WP[c] (P7 (F := F) c v5 v7 v8 r6.1 r6.2)
          (fun v219 => WP[c] (P8 c v2 v6 v8 v12 v219) (fun v248 => WP[c] (P9 (F := F) c v2 v5 v6 v7 v12 v248) Q)))) := by
  dsimp only [P5, atBufs]
  simp only [k0_part5_eq_skeleton]; unfold k0_part5_skel
  simp only [Prog.lift, Prog.bind_op, Prog.bind_ret, Prog.pure_eq_ret]
  unfold mid1
  iintro ⟨⟨#Hrec, #Hlev, HatB, ⟨H00, H01, H10, H11⟩, ⟨H20, H21, H30, H31, Hcp45⟩, ⟨%W, HO⟩, Hx, ⟨Ha0, Ha1, Hb0, Hb1⟩,
    ⟨⟨%f20, Hy20⟩, ⟨%f21, Hy21⟩, ⟨%f30, Hx30⟩, ⟨%f31, Hx31⟩⟩⟩, Hk⟩
  iapply (step_wait_send m K c 0 0 (payOrder.drop 4) W _ rfl (credit_chunk _ _)) $$ Hrec Hlev H00 HO
  iintro ⟨HO, H00, -⟩
  iapply (step_wait_recv m K c 0 0 (payOrder.drop 4) _ (by decide) _ (recvPay0 m c 0) (credit_slot (sl 0 0))) $$ Hrec Hlev H00 HO
  iintro ⟨HO, H00, Hs00, Hn00⟩
  iapply (step_acc c (aK c 0) (sl 0 0) (k0_off5 c 0#32) (off5_eq c 0) (k0_off5_inb c 0) (p0 m c (aK c 0)) (srcVal m 0 (xn c) 0)
    k0_pay9 rfl (pa m c 0) (pa_eq m c 0)) $$ Ha0 Hs00
  iintro ⟨Ha0, Hs00⟩
  rw [wp_ret]; imodintro
  dsimp only [P6, atBufs]
  simp only [k0_part6_eq_skeleton]; unfold k0_part6_skel
  simp only [Prog.lift, Prog.bind_op, Prog.bind_ret, Prog.pure_eq_ret]
  iapply (step_copy_slot m K c _ (yn c) 2 2 rfl 0 (dev7_eq c) rfl (aK c 0) rfl (pa m c 0) rfl (k0_off7 c 0#32) (off7_eq c 0) (k0_off7_inb c 0)
    f20 (payOrder.drop 4) (payOrder.drop 5) rfl _) $$ Hrec H20 Ha0 Hy20 HO
  iintro ⟨H20, HO⟩
  iapply (step_wait_send m K c 1 0 (payOrder.drop 5) _ _ rfl (credit_chunk _ _)) $$ Hrec Hlev H10 HO
  iintro ⟨HO, H10, -⟩
  iapply (step_wait_recv m K c 1 0 (payOrder.drop 5) _ (by decide) _ (recvPay1 m c 0) (credit_slot (sl 1 0))) $$ Hrec Hlev H10 HO
  iintro ⟨HO, H10, Hs10, Hn10⟩
  iapply (step_acc c (bK c 0) (sl 1 0) (k0_off6 c 0#32) (off6_eq c 0) (k0_off6_inb c 0) (p0 m c (bK c 0)) (srcVal m 1 (yn c) 0)
    k0_pay10 pay10_eq (pb m c 0) (pb_eq m c 0)) $$ Hb0 Hs10
  iintro ⟨Hb0, Hs10⟩
  rw [wp_ret]; imodintro
  dsimp only [P7, atBufs]
  simp only [k0_part7_eq_skeleton]; unfold k0_part7_skel
  simp only [Prog.lift, Prog.bind_op, Prog.bind_ret, Prog.pure_eq_ret]
  iapply (step_copy_slot m K c _ (xn c) 3 3 rfl 0 (dev8_eq c) rfl (bK c 0) rfl (pb m c 0) rfl (k0_off8 c 0#32) (off8_eq c 0) (k0_off8_inb c 0)
    f30 (payOrder.drop 5) (payOrder.drop 6) rfl _) $$ Hrec H30 Hb0 Hx30 HO
  iintro ⟨H30, HO⟩
  iapply (step_wait_send m K c 0 1 (payOrder.drop 6) _ _ rfl (credit_chunk _ _)) $$ Hrec Hlev H01 HO
  iintro ⟨HO, H01, -⟩
  iapply (step_wait_recv m K c 0 1 (payOrder.drop 6) _ (by decide) _ (recvPay0 m c 1) (credit_slot (sl 0 1))) $$ Hrec Hlev H01 HO
  iintro ⟨HO, H01, Hs01, Hn01⟩
  iapply (wp_load_o c (aK c 1) (k0_off5 c 256#32) (off5_eq c 1) (k0_off5_inb c 1) (cO (aK c 1) (p0 m c (aK c 1)))) $$ Ha1; iintro Ha1
  rw [read_cO]
  iapply (wp_load_slot c (sl 0 1) (cR (sl 0 1) (srcVal m 0 (xn c) 1))) $$ Hs01; iintro Hs01
  rw [pay11_eq, pa_eq m c 1, wp_ret]; imodintro
  dsimp only [P8, atBufs]
  simp only [k0_part8_eq_skeleton]; unfold k0_part8_skel
  simp only [Prog.lift, Prog.bind_op, Prog.bind_ret, Prog.pure_eq_ret]
  iapply (wp_load_o c (aK c 1) (k0_off5 c 256#32) (off5_eq c 1) (k0_off5_inb c 1) (cO (aK c 1) (p0 m c (aK c 1)))) $$ Ha1; iintro Ha1
  iapply (wp_store_o c (aK c 1) (k0_off5 c 256#32) (off5_eq c 1) (k0_off5_inb c 1) (cO (aK c 1) (p0 m c (aK c 1))) (pa m c 1)) $$ Ha1; iintro Ha1
  iapply (step_copy_slot m K c _ (yn c) 2 2 rfl 1 (dev9_eq c) rfl (aK c 1) rfl (pa m c 1) rfl (k0_off7 c 256#32) (off7_eq c 1) (k0_off7_inb c 1)
    f21 (payOrder.drop 6) (payOrder.drop 7) rfl _) $$ Hrec H21 Ha1 Hy21 HO
  iintro ⟨H21, HO⟩
  iapply (step_wait_send m K c 1 1 (payOrder.drop 7) _ _ rfl (credit_chunk _ _)) $$ Hrec Hlev H11 HO
  iintro ⟨HO, H11, -⟩
  iapply (step_wait_recv m K c 1 1 (payOrder.drop 7) _ (by decide) _ (recvPay1 m c 1) (credit_slot (sl 1 1))) $$ Hrec Hlev H11 HO
  iintro ⟨HO, H11, Hs11, Hn11⟩
  rw [wp_ret]; imodintro
  dsimp only [P9, atBufs]
  simp only [k0_part9_eq_skeleton]; unfold k0_part9_skel
  simp only [Prog.lift, Prog.bind_op, Prog.bind_ret, Prog.pure_eq_ret]
  iapply (step_acc c (bK c 1) (sl 1 1) (k0_off6 c 256#32) (off6_eq c 1) (k0_off6_inb c 1) (p0 m c (bK c 1)) (srcVal m 1 (yn c) 1)
    k0_pay12 pay12_eq (pb m c 1) (pb_eq m c 1)) $$ Hb1 Hs11
  iintro ⟨Hb1, Hs11⟩
  iapply (step_copy_slot m K c _ (xn c) 3 3 rfl 1 (dev10_eq c) rfl (bK c 1) rfl (pb m c 1) rfl (k0_off8 c 256#32) (off8_eq c 1) (k0_off8_inb c 1)
    f31 (payOrder.drop 7) (payOrder.drop 8) rfl _) $$ Hrec H31 Hb1 Hx31 HO
  iintro ⟨H31, HO⟩
  iapply (step_wait_send m K c 2 0 (payOrder.drop 8) _ _ (sendPay2 m c 0) (credit_chunk _ _)) $$ Hrec Hlev H20 HO
  iintro ⟨HO, H20, Ha0⟩
  rw [wp_ret]; imodintro
  iapply Hk
  unfold mid2
  iframe ∗ #
  iexists _; iexact HO

end Cert.Kernel.AllReduce

end
-- ==== Proof.Bits.BodyC.lean ====
import proofs.«900178_g7700000000000179_dist_full2d_reduce_m2048_n1024_v7x_xy2x2_bf16_1_alg».proof.Proof.Bits.Parts

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "WP[" c "]" => wp frame (wpE (defs₀ (F := F)) 𝒱₀ (c : Thread nD τ) none) Set.univ

variable (m : (ℓ : Loc nD τ sig) → Buf (Elt F) ℓ) (ρ : Dev nD → PrngReg) (K : Dev nD × CIx → ℕ)

/-- Parts 10 – 14: exchange 2 received and added in, exchange 3 issued, its first chunk back. -/
theorem parts10_14_spec (c : Dev nD) (v2 v5 v6 v7 v8 v12 : BitVec 32) (Q : PUnit → sProp 𝕄) :
    iprop(mid2 m K c ∗ (S14 m K c -∗ Q ⟨⟩))
      ⊢ WP[c] (P10 (F := F) c v5 v7 v8) (fun _ => WP[c] (P11 (F := F) c v2 v5 v6 v7 v12) (fun _ => WP[c] (P12 (F := F) c v2 v5 v6 v7 v8)
          (fun _ => WP[c] (P13 (F := F) c v2 v5 v6 v7 v12) (fun _ => WP[c] (P14 (F := F) c v5 v7) Q)))) := by
  dsimp only [P10, atBufs]
  simp only [k0_part10_eq_skeleton]; unfold k0_part10_skel
  simp only [Prog.lift, Prog.bind_op, Prog.bind_ret, Prog.pure_eq_ret]
  unfold mid2
  rw [srcCh0_xn c 0, srcCh0_xn c 1, srcCh1_yn c 0, srcCh1_yn c 1]
  iintro ⟨⟨#Hrec, #Hlev, Hbar, ⟨C00, C01, C10, C11⟩, ⟨H20, H21, H30, H31⟩, ⟨H40, H41, H50, H51⟩, ⟨%W, HO⟩, Hx, Ha0, ⟨Hs00, Hs01, Hs10, Hs11⟩,
    ⟨Hxa0, Hxa1, Hyb0, Hyb1⟩⟩, Hk⟩
  iapply (step_wait_recv m K c 2 0 (payOrder.drop 8) W (by decide) _ (recvPay2 m c 0) (credit_slot (sl 2 0))) $$ Hrec Hlev H20 HO
  iintro ⟨HO, H20, Hs20⟩
  iapply (step_acc c (aK c 0) (sl 2 0) (k0_off5 c 0#32) (off5_eq c 0) (k0_off5_inb c 0) (pa m c 0) (srcVal m 2 (yn c) 0)
    k0_pay13 pay13_eq (fa m c 0) rfl) $$ Ha0 Hs20
  iintro ⟨Ha0, Hs20⟩
  iapply (step_copy_chunk m K c _ (xn c) 4 (by decide) 0 (dev11_eq c) rfl (aK c 0) rfl (fa m c 0) rfl (k0_off7 c 0#32) (off7_eq c 0) (k0_off7_inb c 0)
    (cO (aK c 0) (srcVal m 0 (xn c) 0)) (payOrder.drop 8) (payOrder.drop 9) rfl _) $$ Hrec H40 Ha0 Hxa0 HO
  iintro ⟨H40, HO⟩
  iapply (step_wait_send m K c 3 0 (payOrder.drop 9) _ _ (sendPay3 m c 0) (credit_chunk _ _)) $$ Hrec Hlev H30 HO
  iintro ⟨HO, H30, Hb0⟩
  rw [wp_ret]; imodintro
  dsimp only [P11, atBufs]
  simp only [k0_part11_eq_skeleton]; unfold k0_part11_skel
  simp only [Prog.lift, Prog.bind_op, Prog.bind_ret, Prog.pure_eq_ret]
  iapply (step_wait_recv m K c 3 0 (payOrder.drop 9) _ (by decide) _ (recvPay3 m c 0) (credit_slot (sl 3 0))) $$ Hrec Hlev H30 HO
  iintro ⟨HO, H30, Hs30⟩
  iapply (step_acc c (bK c 0) (sl 3 0) (k0_off6 c 0#32) (off6_eq c 0) (k0_off6_inb c 0) (pb m c 0) (srcVal m 3 (xn c) 0)
    k0_pay14 pay14_eq (fb m c 0) rfl) $$ Hb0 Hs30
  iintro ⟨Hb0, Hs30⟩
  iapply (step_copy_chunk m K c _ (yn c) 5 (by decide) 0 (dev12_eq c) rfl (bK c 0) rfl (fb m c 0) rfl (k0_off8 c 0#32) (off8_eq c 0) (k0_off8_inb c 0)
    (cO (bK c 0) (srcVal m 1 (yn c) 0)) (payOrder.drop 9) (payOrder.drop 10) rfl _) $$ Hrec H50 Hb0 Hyb0 HO
  iintro ⟨H50, HO⟩
  rw [wp_ret]; imodintro
  dsimp only [P12, atBufs]
  simp only [k0_part12_eq_skeleton]; unfold k0_part12_skel
  simp only [Prog.lift, Prog.bind_op, Prog.bind_ret, Prog.pure_eq_ret]
  iapply (step_wait_send m K c 2 1 (payOrder.drop 10) _ _ (sendPay2 m c 1) (credit_chunk _ _)) $$ Hrec Hlev H21 HO
  iintro ⟨HO, H21, Ha1⟩
  iapply (step_wait_recv m K c 2 1 (payOrder.drop 10) _ (by decide) _ (recvPay2 m c 1) (credit_slot (sl 2 1))) $$ Hrec Hlev H21 HO
  iintro ⟨HO, H21, Hs21⟩
  iapply (step_acc c (aK c 1) (sl 2 1) (k0_off5 c 256#32) (off5_eq c 1) (k0_off5_inb c 1) (pa m c 1) (srcVal m 2 (yn c) 1)
    k0_pay15 pay15_eq (fa m c 1) rfl) $$ Ha1 Hs21
  iintro ⟨Ha1, Hs21⟩
  rw [wp_ret]; imodintro
  dsimp only [P13, atBufs]
  simp only [k0_part13_eq_skeleton]; unfold k0_part13_skel
  simp only [Prog.lift, Prog.bind_op, Prog.bind_ret, Prog.pure_eq_ret]
  iapply (step_copy_chunk m K c _ (xn c) 4 (by decide) 1 (dev13_eq c) rfl (aK c 1) rfl (fa m c 1) rfl (k0_off7 c 256#32) (off7_eq c 1) (k0_off7_inb c 1)
    (cO (aK c 1) (srcVal m 0 (xn c) 1)) (payOrder.drop 10) (payOrder.drop 11) rfl _) $$ Hrec H41 Ha1 Hxa1 HO
  iintro ⟨H41, HO⟩
  iapply (step_wait_send m K c 3 1 (payOrder.drop 11) _ _ (sendPay3 m c 1) (credit_chunk _ _)) $$ Hrec Hlev H31 HO
  iintro ⟨HO, H31, Hb1⟩
  iapply (step_wait_recv m K c 3 1 (payOrder.drop 11) _ (by decide) _ (recvPay3 m c 1) (credit_slot (sl 3 1))) $$ Hrec Hlev H31 HO
  iintro ⟨HO, H31, Hs31⟩
  iapply (step_acc c (bK c 1) (sl 3 1) (k0_off6 c 256#32) (off6_eq c 1) (k0_off6_inb c 1) (pb m c 1) (srcVal m 3 (xn c) 1)
    k0_pay16 pay16_eq (fb m c 1) rfl) $$ Hb1 Hs31
  iintro ⟨Hb1, Hs31⟩
  rw [wp_ret]; imodintro
  dsimp only [P14, atBufs]
  simp only [k0_part14_eq_skeleton]; unfold k0_part14_skel
  simp only [Prog.lift, Prog.bind_op, Prog.bind_ret, Prog.pure_eq_ret]
  iapply (step_copy_chunk m K c _ (yn c) 5 (by decide) 1 (dev14_eq c) rfl (bK c 1) rfl (fb m c 1) rfl (k0_off8 c 256#32) (off8_eq c 1) (k0_off8_inb c 1)
    (cO (bK c 1) (srcVal m 1 (yn c) 1)) (payOrder.drop 11) [] rfl _) $$ Hrec H51 Hb1 Hyb1 HO
  iintro ⟨H51, HO⟩
  iapply (step_wait_send m K c 4 0 [] _ _ (sendPay4 m c 0) (credit_chunk _ _)) $$ Hrec Hlev H40 HO
  iintro ⟨HO, H40, Ha0⟩
  iapply (step_wait_recv m K c 4 0 [] _ (by decide) _ (recvPay4 m c 0) (credit_chunk _ _)) $$ Hrec Hlev H40 HO
  iintro ⟨HO, H40, Hn0⟩
  iapply (step_wait_send m K c 4 1 [] _ _ (sendPay4 m c 1) (credit_chunk _ _)) $$ Hrec Hlev H41 HO
  iintro ⟨HO, H41, Ha1⟩
  rw [wp_ret]; imodintro
  iapply Hk
  unfold S14
  iframe ∗ #
  iexists _; iexact HO

end Cert.Kernel.AllReduce

end
-- ==== Proof.Bits.BodyD.lean ====
import proofs.«900178_g7700000000000179_dist_full2d_reduce_m2048_n1024_v7x_xy2x2_bf16_1_alg».proof.Proof.Bits.Parts

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "WP[" c "]" => wp frame (wpE (defs₀ (F := F)) 𝒱₀ (c : Thread nD τ) none) Set.univ

variable (m : (ℓ : Loc nD τ sig) → Buf (Elt F) ℓ) (ρ : Dev nD → PrngReg) (K : Dev nD × CIx → ℕ)

/-- Eight chunks at the full sum are the whole result buffer at the final contents. -/
theorem chunks_join (c : Dev nD) :
    (iprop(oPts c (aK c 0) (cO (aK c 0) (fa m c 0)) ∗ oPts c (aK c 1) (cO (aK c 1) (fa m c 1))
      ∗ oPts c (aS c 0) (cO (aS c 0) (fa m (xn c) 0)) ∗ oPts c (aS c 1) (cO (aS c 1) (fa m (xn c) 1))
      ∗ oPts c (bK c 0) (cO (bK c 0) (fb m c 0)) ∗ oPts c (bK c 1) (cO (bK c 1) (fb m c 1))
      ∗ oPts c (bS c 0) (cO (bS c 0) (fb m (yn c) 0)) ∗ oPts c (bS c 1) (cO (bS c 1) (fb m (yn c) 1))) : sProp 𝕄)
    = (((c : Thread nD τ).loc cc0_stg1_0) ↦{fullShare} outAt m c : sProp 𝕄) := by
  unfold outAt
  rw [← o_join c (fun j => cO j (outVal m c j)), bigSep_chunks c]
  simp only [outVal_aK, outVal_aS, outVal_bK, outVal_bS]

theorem slots_join (c : Dev nD) (f00 f01 f10 f11 f20 f21 f30 f31 : RC F) :
    (iprop(rPts c (sl 0 0) f00 ∗ rPts c (sl 0 1) f01 ∗ rPts c (sl 1 0) f10 ∗ rPts c (sl 1 1) f11
      ∗ rPts c (sl 2 0) f20 ∗ rPts c (sl 2 1) f21 ∗ rPts c (sl 3 0) f30 ∗ rPts c (sl 3 1) f31) : sProp 𝕄)
    ⊢ (iprop(∃ g : RC F, ((c : Thread nD τ).loc cc0_scratch0) ↦{fullShare} g) : sProp 𝕄) := by
  have h := r_join (F := F) c ![f00, f01, f10, f11, f20, f21, f30, f31]
  rw [bigSep_fin8] at h
  exact h

theorem bodyPost_of_parts (c : Dev nD) (W : Waits sig Unit) (f00 f01 f10 f11 f20 f21 f30 f31 : RC F) :
    (iprop((rPts c (sl 0 0) f00 ∗ rPts c (sl 0 1) f01 ∗ rPts c (sl 1 0) f10 ∗ rPts c (sl 1 1) f11
          ∗ rPts c (sl 2 0) f20 ∗ rPts c (sl 2 1) f21 ∗ rPts c (sl 3 0) f30 ∗ rPts c (sl 3 1) f31)
        ∗ (cp3 c 0 0 ∗ cp3 c 0 1 ∗ cp3 c 1 0 ∗ cp3 c 1 1 ∗ cp3 c 2 0 ∗ cp3 c 2 1 ∗ cp3 c 3 0 ∗ cp3 c 3 1)
        ∗ (cp3 c 4 0 ∗ cp3 c 4 1 ∗ cp3 c 5 0 ∗ cp3 c 5 1)
        ∗ owes (c : Thread nD τ) (owedFrom c []) W
        ∗ (((c : Thread nD τ).loc cc0_stg0_0) ↦{fullShare} xs m c)
        ∗ (oPts c (aK c 0) (cO (aK c 0) (fa m c 0)) ∗ oPts c (aK c 1) (cO (aK c 1) (fa m c 1))
            ∗ oPts c (aS c 0) (cO (aS c 0) (fa m (xn c) 0)) ∗ oPts c (aS c 1) (cO (aS c 1) (fa m (xn c) 1))
            ∗ oPts c (bK c 0) (cO (bK c 0) (fb m c 0)) ∗ oPts c (bK c 1) (cO (bK c 1) (fb m c 1))
            ∗ oPts c (bS c 0) (cO (bS c 0) (fb m (yn c) 0)) ∗ oPts c (bS c 1) (cO (bS c 1) (fb m (yn c) 1)))) : sProp 𝕄)
      ⊢ bodyPost m ρ c := by
  unfold bodyPost Φ₁ Dat.owesAt Pipeline.owesWithin
  rw [show (dats m ρ 0 c).owed t₀.succ = owedFrom c [] from rfl]
  simp only [bigSep_pr]
  iintro ⟨R, ⟨C00, C01, C10, C11, C20, C21, C30, C31⟩, ⟨C40, C41, C50, C51⟩, HO, Hx, Ho⟩
  isplitl [R C00 C01 C10 C11 C20 C21 C30 C31 C40 C41 C50 C51]
  · isplitl [R]
    · iapply (slots_join c f00 f01 f10 f11 f20 f21 f30 f31); iexact R
    · iframe ∗
  isplitl [HO]
  · iexists W
    isplitr; · ipureintro; exact fun p _ => Or.inl (Set.mem_univ p)
    iexact HO
  isplitl [Hx]
  · iexists (xs m c); isplitr; · (ipureintro; rfl)
    iexact Hx
  iexists (outAt m c); isplitr; · (ipureintro; rfl)
  iapply (Entails.of_eq (chunks_join m c)); iexact Ho

/-- The last five waits: every chunk given away has come back finished. -/
theorem tail_spec (c : Dev nD) (Kt : PUnit → sProp 𝕄) :
    iprop(S14 m K c ∗ (bodyPost m ρ c -∗ Kt ⟨⟩))
      ⊢ WP[c] (tail15 (F := F) c) (fun d0 => WP[c] (tailBody (F := F) d0) Kt) := by
  unfold S14
  dsimp only [tail15, tailBody, atBufs]
  unfold tail15g tailBodyg
  simp only [Prog.lift, Prog.bind_op, Prog.bind_ret, Prog.pure_eq_ret]
  iintro ⟨⟨#Hrec, #Hlev, -, C, ⟨C40, C41, C50, C51⟩, ⟨%W, HO⟩, Hx, R, ⟨OK0, OK1, OS0⟩⟩, Hk⟩
  iapply (step_wait_recv m K c 4 1 [] W (by decide) _ (recvPay4 m c 1) (credit_chunk _ _)) $$ Hrec Hlev C41 HO
  iintro ⟨HO, C41, OS1⟩
  iapply (step_wait_send m K c 5 0 [] _ _ (sendPay5 m c 0) (credit_chunk _ _)) $$ Hrec Hlev C50 HO
  iintro ⟨HO, C50, OB0⟩
  iapply (step_wait_recv m K c 5 0 [] _ (by decide) _ (recvPay5 m c 0) (credit_chunk _ _)) $$ Hrec Hlev C50 HO
  iintro ⟨HO, C50, OT0⟩
  iapply (step_wait_send m K c 5 1 [] _ _ (sendPay5 m c 1) (credit_chunk _ _)) $$ Hrec Hlev C51 HO
  iintro ⟨HO, C51, OB1⟩
  rw [wp_ret]; imodintro
  iapply (step_wait_recv m K c 5 1 [] _ (by decide) _ (recvPay5 m c 1) (credit_chunk _ _)) $$ Hrec Hlev C51 HO
  iintro ⟨HO, C51, OT1⟩
  rw [wp_ret]; imodintro
  iapply Hk
  iapply (bodyPost_of_parts m ρ c _ (cR (sl 0 0) (srcVal m 0 (xn c) 0)) (cR (sl 0 1) (srcVal m 0 (xn c) 1)) (cR (sl 1 0) (srcVal m 1 (yn c) 0))
    (cR (sl 1 1) (srcVal m 1 (yn c) 1)) (cR (sl 2 0) (srcVal m 2 (yn c) 0)) (cR (sl 2 1) (srcVal m 2 (yn c) 1)) (cR (sl 3 0) (srcVal m 3 (xn c) 0))
    (cR (sl 3 1) (srcVal m 3 (xn c) 1)))
  iframe ∗

end Cert.Kernel.AllReduce

end
-- ==== Proof.Bits.Body.lean ====
import proofs.«900178_g7700000000000179_dist_full2d_reduce_m2048_n1024_v7x_xy2x2_bf16_1_alg».proof.Proof.Bits.BodyA
import proofs.«900178_g7700000000000179_dist_full2d_reduce_m2048_n1024_v7x_xy2x2_bf16_1_alg».proof.Proof.Bits.BodyB
import proofs.«900178_g7700000000000179_dist_full2d_reduce_m2048_n1024_v7x_xy2x2_bf16_1_alg».proof.Proof.Bits.BodyC
import proofs.«900178_g7700000000000179_dist_full2d_reduce_m2048_n1024_v7x_xy2x2_bf16_1_alg».proof.Proof.Bits.BodyD

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "WP[" c "]" => wp frame (wpE (defs₀ (F := F)) 𝒱₀ (c : Thread nD τ) none) Set.univ

variable (m : (ℓ : Loc nD τ sig) → Buf (Elt F) ℓ) (ρ : Dev nD → PrngReg) (K : Dev nD × CIx → ℕ)

/-- The body is its parts in order; each stage's state is the next one's. -/
theorem sound_body (c : Dev nD) (Kt : PUnit → sProp 𝕄) :
    iprop(bodyPre m ρ K c ∗ (bodyPost m ρ c -∗ Kt ⟨⟩))
      ⊢ WP[c] (atBufs (cc0_body (F := F))) Kt := by
  rw [body_eq]
  simp only [wp_bind]
  iintro ⟨Hpre, Hk⟩
  iapply (part1_spec m ρ K c _)
  isplitl [Hpre]; · iexact Hpre
  iintro %v2 %v5 %v6 %v7 %v8 %v10 %v12 %v15 %v25 HS
  dsimp only
  iapply (parts2_4_spec m K c v2 v5 v6 v7 v8 v10 v12 v15 v25 _)
  isplitl [HS]; · iexact HS
  iintro HS
  iapply (parts5_9_spec m K c v2 v5 v6 v7 v8 v12 _)
  isplitl [HS]; · iexact HS
  iintro HS
  iapply (parts10_14_spec m K c v2 v5 v6 v7 v8 v12 _)
  isplitl [HS]; · iexact HS
  iintro HS
  iapply (tail_spec m ρ K c Kt)
  isplitl [HS]; · iexact HS
  iexact Hk

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ WP[c]
    (atBufs (cc0_body (F := F))) (fun _ => bodyPost m ρ c)
  unfold bodyPre' Φ₀ start
  iintro ⟨⟨⟨⟨%K, Hrec, Hlin⟩, Hlev⟩, Hscr⟩, Ho, Hx, Hout⟩
  iapply (sound_body m ρ K c fun _ => bodyPost m ρ c)
  unfold bodyPre
  isplitr []
  · isplitl [Hrec Hlin Hlev Hscr]
    · iframe ∗ #
    isplitl [Ho]; · iexact Ho
    isplitl [Hx] <;> iassumption
  · iintro H; iexact H

end Cert.Kernel.AllReduce

end
-- ==== Proof.lean ====
/-
  An all-reduce over a 2 × 2 mesh against the sum of the four blocks. Each device cuts its 2048 rows into eight chunks, keeps four and gives four
  away; three exchanges (add what a neighbour gave, add the other neighbour's two-device sum, copy the finished chunks back) leave every device with
  the four-device sum on every chunk. Over the extended reals a change of float format is the identity and addition is commutative and associative,
  so each device's result is the reference's entry by entry; the work is the synchronisation: an entry handshake on the barrier cell, one send and
  one receive cell a copy, every access to a copy's source or destination after the wait that releases it, and every wait below what is still owed.
-/
import proofs.«900178_g7700000000000179_dist_full2d_reduce_m2048_n1024_v7x_xy2x2_bf16_1_alg».proof.Defs
import proofs.«900178_g7700000000000179_dist_full2d_reduce_m2048_n1024_v7x_xy2x2_bf16_1_alg».proof.Proof.Gen.Kernel
import proofs.«900178_g7700000000000179_dist_full2d_reduce_m2048_n1024_v7x_xy2x2_bf16_1_alg».proof.Proof.Gen.KernelIdeal
import proofs.«900178_g7700000000000179_dist_full2d_reduce_m2048_n1024_v7x_xy2x2_bf16_1_alg».proof.Proof.Gen.ReferenceIdeal
import proofs.«900178_g7700000000000179_dist_full2d_reduce_m2048_n1024_v7x_xy2x2_bf16_1_alg».proof.Proof.Gen.Pre_finite_inputs_Kernel
import proofs.«900178_g7700000000000179_dist_full2d_reduce_m2048_n1024_v7x_xy2x2_bf16_1_alg».proof.Proof.Gen.Pre_finite_inputs_ReferenceIdeal
import proofs.«900178_g7700000000000179_dist_full2d_reduce_m2048_n1024_v7x_xy2x2_bf16_1_alg».proof.Proof.Claims
import proofs.«900178_g7700000000000179_dist_full2d_reduce_m2048_n1024_v7x_xy2x2_bf16_1_alg».proof.Proof.RefValue
import proofs.«900178_g7700000000000179_dist_full2d_reduce_m2048_n1024_v7x_xy2x2_bf16_1_alg».proof.Proof.Bits.Launch
import proofs.«900178_g7700000000000179_dist_full2d_reduce_m2048_n1024_v7x_xy2x2_bf16_1_alg».proof.Proof.Bits.Body
import Idealize.ShloMosaic.Adequacy
import Idealize.ShloMosaic.Init

noncomputable section

namespace Cert.Proof

open Idealize.ShloMosaic Idealize.SL.Sem

theorem frame_p : Cert.frame_Kernel := fun m ρ _ =>
  (θ_run _ _ _).mono (fun _ h c => ((h c) (0 : Fin 2)).trans (Cert.Kernel.AllReduce.finalA_x m ρ c))
    (Cert.Kernel.AllReduce.run_main (F := Bits) m ρ (Cert.Kernel.AllReduce.body_obligation m ρ))

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_p, Cert.KernelIdeal.AllReduce.frame_pi, Cert.ReferenceIdeal.RefValue.frame_ri, trivial, Cert.KernelIdeal.AllReduce.algebraic⟩

end Cert.Proof

end
